-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v135_0)) (v1 : (c : Dev Cert.KernelIdeal.nD) → Buf (Elt Ideal) ((c.tc : Thread Cert.KernelIdeal.nD Cert.KernelIdeal.τ).loc Cert.KernelIdeal.main_v136_0)) (v2 : (c : Dev Cert.KernelIdeal.nD) → Buf (Elt Ideal) ((c.tc : Thread Cert.KernelIdeal.nD Cert.KernelIdeal.τ).loc Cert.KernelIdeal.main_v135_1)) (v3 : (c : Dev Cert.KernelIdeal.nD) → Buf (Elt Ideal) ((c.tc : Thread Cert.KernelIdeal.nD Cert.KernelIdeal.τ).loc Cert.KernelIdeal.main_v136_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v135_0) = v0 c
          ∧ r.2.mem ((c.tc : Thread Cert.KernelIdeal.nD Cert.KernelIdeal.τ).loc Cert.KernelIdeal.main_v136_0) = v1 c
          ∧ r.2.mem ((c.tc : Thread Cert.KernelIdeal.nD Cert.KernelIdeal.τ).loc Cert.KernelIdeal.main_v135_1) = v2 c
          ∧ r.2.mem ((c.tc : Thread Cert.KernelIdeal.nD Cert.KernelIdeal.τ).loc Cert.KernelIdeal.main_v136_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_v183) = v1 c
          ∧ r.2.mem ((c.tc : Thread Cert.ReferenceIdeal.nD Cert.ReferenceIdeal.τ).loc Cert.ReferenceIdeal.main_v187) = v2 c
          ∧ r.2.mem ((c.tc : Thread Cert.ReferenceIdeal.nD Cert.ReferenceIdeal.τ).loc Cert.ReferenceIdeal.main_v191) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  bcast_S_S1x128 : S_.BroadcastsInDim S1x128 (![] : Fin 0 → Fin S1x128.rank)
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1

variable [Facts]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def fn_part15 {F : FTy → Type} [FloatOps F] (main_v180 : IVec S_ 1) (main_v277 : FVec F S50000x128 .f32) (main_v279 : FVec F S1x128 .f32) (main_cst_77 : FVec F S_ .f32) : IVec S_ 1 :=
  let main_v280 : FVec F S1x128 .f32 := broadcastInDim S1x128 ![] bcast_S_S1x128 main_cst_77
  let main_v281 : FVec F S1x128 .f32 := Host.divf main_v279 main_v280
  let main_v282 : FVec F S50000x128 .f32 := broadcastInDim S50000x128 ![0, 1] bcast_S1x128_S50000x128_0_1 main_v281
  let main_v283 : FVec F S50000x128 .f32 := subf main_v277 main_v282
  let main_v284 : FVec F S50000x128 .f32 := mulf main_v283 main_v283
  let main_cst_78 : FVec F S_ .f32 := constant S_ .f32 0x00000000#32
  let main_v285 : FVec F S128 .f32 := (fun x v => Host.reduceAdd x v reducesTo_S50000x128_S128_d0 h_S_) main_v284 main_cst_78
  let main_cst_79 : FVec F S_ .f32 := constant S_ .f32 0x47434F00#32
  let main_v286 : FVec F S128 .f32 := broadcastInDim S128 ![] bcast_S_S128 main_cst_79
  let main_v287 : FVec F S128 .f32 := Host.divf main_v285 main_v286
  let main_v288 : FVec F S128 .f32 := Host.sqrt main_v287
  let main_cst_80 : FVec F S_ .f32 := constant S_ .f32 0x00000000#32
  let main_v289 : FVec F S128 .f32 := broadcastInDim S128 ![] bcast_S_S128 main_cst_80
  let main_v290 : IVec S128 1 := cmpf .ogt main_v288 main_v289
  let main_c_81 : IVec S_ 1 := constantI S_ 1 1#1
  let main_v291 : IVec S_ 1 := (fun x v => Host.reduce IntOp.andi x v reducesTo_S128_S_d0 h_S_) main_v290 main_c_81
  let main_v292 : IVec S_ 1 := andi main_v180 main_v291
  main_v292

def fn_part14 {F : FTy → Type} [FloatOps F] (main_arg7 : IVec S600000 32) (main_arg13 : FVec F S128 .f32) (main_arg14 : FVec F S128x128 .f32) (main_arg15 : FVec F S128 .f32) (main_v180 : IVec S_ 1) (main_v201 : FVec F S50000x1 .f32) (main_v259 : FVec F S600000x128 .f32) (main_cst_73 : FVec F S_ .f32) : IVec S_ 1 :=
  let main_v260 : FVec F S50000x128 .f32 := broadcastInDim S50000x128 ![] bcast_S_S50000x128 main_cst_73
  let main_v261 : IVec S600000x1 32 := broadcastInDim S600000x1 ![0] bcast_S600000_S600000x1_0 main_arg7
  let main_v262 : FVec F S50000x128 .f32 := (fun x i u => Host.scatterAdd scatter_S50000x128_S600000x1_S600000x128_1_0_0_1 x i u) main_v260 main_v261 main_v259
  let main_v263 : FVec F S50000x128 .f32 := broadcastInDim S50000x128 ![0, 1] bcast_S50000x1_S50000x128_0_1 main_v201
  let main_v264 : FVec F S50000x128 .f32 := mulf main_v262 main_v263
  let main_v265 : FVec F S1x128 .f32 := broadcastInDim S1x128 ![1] bcast_S128_S1x128_1 main_arg13
  let main_v266 : FVec F S50000x128 .f32 := broadcastInDim S50000x128 ![0, 1] bcast_S1x128_S50000x128_0_1 main_v265
  let main_v267 : FVec F S50000x128 .f32 := addf main_v264 main_v266
  let main_cst_74 : FVec F S_ .f32 := constant S_ .f32 0x00000000#32
  let main_v268 : FVec F S50000x128 .f32 := broadcastInDim S50000x128 ![] bcast_S_S50000x128 main_cst_74
  let main_v269 : IVec S50000x128 1 := cmpf .ogt main_v267 main_v268
  let main_cst_75 : FVec F S_ .f32 := constant S_ .f32 0x00000000#32
  let main_v270 : FVec F S50000x128 .f32 := broadcastInDim S50000x128 ![] bcast_S_S50000x128 main_cst_75
  let main_v271 : FVec F S50000x128 .f32 := select main_v269 main_v270 main_v267
  let main_v272 : FVec F S50000x128 .f32 := Host.expm1 main_v271
  let main_v273 : FVec F S50000x128 .f32 := select main_v269 main_v267 main_v272
  let main_v274 : FVec F S50000x128 .f32 := (fun l r => Host.dotGeneral dot_S50000x128_S128x128_S50000x128_1_0_0_1_n_n none l r) main_v273 main_arg14
  let main_v275 : FVec F S1x128 .f32 := broadcastInDim S1x128 ![1] bcast_S128_S1x128_1 main_arg15
  let main_v276 : FVec F S50000x128 .f32 := broadcastInDim S50000x128 ![0, 1] bcast_S1x128_S50000x128_0_1 main_v275
  let main_v277 : FVec F S50000x128 .f32 := addf main_v274 main_v276
  let main_cst_76 : FVec F S_ .f32 := constant S_ .f32 0x00000000#32
  let main_v278 : FVec F S128 .f32 := (fun x v => Host.reduceAdd x v reducesTo_S50000x128_S128_d0 h_S_) main_v277 main_cst_76
  let main_v279 : FVec F S1x128 .f32 := broadcastInDim S1x128 ![1] bcast_S128_S1x128_1 main_v278
  let main_cst_77 : FVec F S_ .f32 := constant S_ .f32 0x47435000#32
  fn_part15 (F := F) main_v180 main_v277 main_v279 main_cst_77

def fn_part13 {F : FTy → Type} [FloatOps F] (main_arg6 : IVec S600000 32) (main_arg7 : IVec S600000 32) (main_arg11 : FVec F S128 .f32) (main_arg12 : FVec F S128x128 .f32) (main_arg13 : FVec F S128 .f32) (main_arg14 : FVec F S128x128 .f32) (main_arg15 : FVec F S128 .f32) (main_v180 : IVec S_ 1) (main_v197 : FVec F S50000x1 .f32) (main_v201 : FVec F S50000x1 .f32) (main_v240 : FVec F S50000x128 .f32) : IVec S_ 1 :=
  let main_v241 : FVec F S1x128 .f32 := broadcastInDim S1x128 ![1] bcast_S128_S1x128_1 main_arg11
  let main_v242 : FVec F S50000x128 .f32 := broadcastInDim S50000x128 ![0, 1] bcast_S1x128_S50000x128_0_1 main_v241
  let main_v243 : FVec F S50000x128 .f32 := addf main_v240 main_v242
  let main_cst_69 : FVec F S_ .f32 := constant S_ .f32 0x00000000#32
  let main_v244 : FVec F S50000x128 .f32 := broadcastInDim S50000x128 ![] bcast_S_S50000x128 main_cst_69
  let main_v245 : IVec S50000x128 1 := cmpf .ogt main_v243 main_v244
  let main_cst_70 : FVec F S_ .f32 := constant S_ .f32 0x00000000#32
  let main_v246 : FVec F S50000x128 .f32 := broadcastInDim S50000x128 ![] bcast_S_S50000x128 main_cst_70
  let main_v247 : FVec F S50000x128 .f32 := select main_v245 main_v246 main_v243
  let main_v248 : FVec F S50000x128 .f32 := Host.expm1 main_v247
  let main_v249 : FVec F S50000x128 .f32 := select main_v245 main_v243 main_v248
  let main_v250 : FVec F S50000x128 .f32 := broadcastInDim S50000x128 ![0, 1] bcast_S50000x1_S50000x128_0_1 main_v197
  let main_v251 : FVec F S50000x128 .f32 := mulf main_v249 main_v250
  let main_v252 : FVec F S50000x128 .f32 := (fun l r => Host.dotGeneral dot_S50000x128_S128x128_S50000x128_1_0_0_1_n_n none l r) main_v251 main_arg12
  let main_c_71 : IVec S_ 32 := constantI S_ 32 0#32
  let main_v253 : IVec S600000 32 := broadcastInDim S600000 ![] bcast_S_S600000 main_c_71
  let main_v254 : IVec S600000 1 := cmpi .slt main_arg6 main_v253
  let main_c_72 : IVec S_ 32 := constantI S_ 32 50000#32
  let main_v255 : IVec S600000 32 := broadcastInDim S600000 ![] bcast_S_S600000 main_c_72
  let main_v256 : IVec S600000 32 := addi main_arg6 main_v255
  let main_v257 : IVec S600000 32 := select main_v254 main_v256 main_arg6
  let main_v258 : IVec S600000x1 32 := broadcastInDim S600000x1 ![0] bcast_S600000_S600000x1_0 main_v257
  let main_v259 : FVec F S600000x128 .f32 := (fun x i => Host.gather gather_S50000x128_S600000x1_S600000x128_1_0_n_n_0_1_1128 x i) main_v252 main_v258
  let main_cst_73 : FVec F S_ .f32 := constant S_ .f32 0x00000000#32
  fn_part14 (F := F) main_arg7 main_arg13 main_arg14 main_arg15 main_v180 main_v201 main_v259 main_cst_73

def fn_part12 {F : FTy → Type} [FloatOps F] (main_arg6 : IVec S600000 32) (main_arg7 : IVec S600000 32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_v180 : IVec S_ 1) (main_v197 : FVec F S50000x1 .f32) (main_v201 : FVec F S50000x1 .f32) (main_v219 : FVec F S50000x128 .f32) (main_v220 : FVec F S50000x128 .f32) : IVec S_ 1 :=
  let main_v221 : IVec S50000x128 1 := cmpf .ogt main_v219 main_v220
  let main_cst_65 : FVec F S_ .f32 := constant S_ .f32 0x00000000#32
  let main_v222 : FVec F S50000x128 .f32 := broadcastInDim S50000x128 ![] bcast_S_S50000x128 main_cst_65
  let main_v223 : FVec F S50000x128 .f32 := select main_v221 main_v222 main_v219
  let main_v224 : FVec F S50000x128 .f32 := Host.expm1 main_v223
  let main_v225 : FVec F S50000x128 .f32 := select main_v221 main_v219 main_v224
  let main_v226 : FVec F S50000x128 .f32 := broadcastInDim S50000x128 ![0, 1] bcast_S50000x1_S50000x128_0_1 main_v197
  let main_v227 : FVec F S50000x128 .f32 := mulf main_v225 main_v226
  let main_v228 : FVec F S50000x128 .f32 := (fun l r => Host.dotGeneral dot_S50000x128_S128x128_S50000x128_1_0_0_1_n_n none l r) main_v227 main_arg10
  let main_c_66 : IVec S_ 32 := constantI S_ 32 0#32
  let main_v229 : IVec S600000 32 := broadcastInDim S600000 ![] bcast_S_S600000 main_c_66
  let main_v230 : IVec S600000 1 := cmpi .slt main_arg6 main_v229
  let main_c_67 : IVec S_ 32 := constantI S_ 32 50000#32
  let main_v231 : IVec S600000 32 := broadcastInDim S600000 ![] bcast_S_S600000 main_c_67
  let main_v232 : IVec S600000 32 := addi main_arg6 main_v231
  let main_v233 : IVec S600000 32 := select main_v230 main_v232 main_arg6
  let main_v234 : IVec S600000x1 32 := broadcastInDim S600000x1 ![0] bcast_S600000_S600000x1_0 main_v233
  let main_v235 : FVec F S600000x128 .f32 := (fun x i => Host.gather gather_S50000x128_S600000x1_S600000x128_1_0_n_n_0_1_1128 x i) main_v228 main_v234
  let main_cst_68 : FVec F S_ .f32 := constant S_ .f32 0x00000000#32
  let main_v236 : FVec F S50000x128 .f32 := broadcastInDim S50000x128 ![] bcast_S_S50000x128 main_cst_68
  let main_v237 : IVec S600000x1 32 := broadcastInDim S600000x1 ![0] bcast_S600000_S600000x1_0 main_arg7
  let main_v238 : FVec F S50000x128 .f32 := (fun x i u => Host.scatterAdd scatter_S50000x128_S600000x1_S600000x128_1_0_0_1 x i u) main_v236 main_v237 main_v235
  let main_v239 : FVec F S50000x128 .f32 := broadcastInDim S50000x128 ![0, 1] bcast_S50000x1_S50000x128_0_1 main_v201
  let main_v240 : FVec F S50000x128 .f32 := mulf main_v238 main_v239
  fn_part13 (F := F) main_arg6 main_arg7 main_arg11 main_arg12 main_arg13 main_arg14 main_arg15 main_v180 main_v197 main_v201 main_v240

def fn_part11 {F : FTy → Type} [FloatOps F] (main_arg6 : IVec S600000 32) (main_arg7 : IVec S600000 32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_v180 : IVec S_ 1) (main_v186 : FVec F S50000x128 .f32) (main_v197 : FVec F S50000x1 .f32) (main_v200 : FVec F S50000 .f32) : IVec S_ 1 :=
  let main_v201 : FVec F S50000x1 .f32 := broadcastInDim S50000x1 ![0] bcast_S50000_S50000x1_0 main_v200
  let main_v202 : FVec F S50000x128 .f32 := broadcastInDim S50000x128 ![0, 1] bcast_S50000x1_S50000x128_0_1 main_v197
  let main_v203 : FVec F S50000x128 .f32 := mulf main_v186 main_v202
  let main_v204 : FVec F S50000x128 .f32 := (fun l r => Host.dotGeneral dot_S50000x128_S128x128_S50000x128_1_0_0_1_n_n none l r) main_v203 main_arg8
  let main_c_61 : IVec S_ 32 := constantI S_ 32 0#32
  let main_v205 : IVec S600000 32 := broadcastInDim S600000 ![] bcast_S_S600000 main_c_61
  let main_v206 : IVec S600000 1 := cmpi .slt main_arg6 main_v205
  let main_c_62 : IVec S_ 32 := constantI S_ 32 50000#32
  let main_v207 : IVec S600000 32 := broadcastInDim S600000 ![] bcast_S_S600000 main_c_62
  let main_v208 : IVec S600000 32 := addi main_arg6 main_v207
  let main_v209 : IVec S600000 32 := select main_v206 main_v208 main_arg6
  let main_v210 : IVec S600000x1 32 := broadcastInDim S600000x1 ![0] bcast_S600000_S600000x1_0 main_v209
  let main_v211 : FVec F S600000x128 .f32 := (fun x i => Host.gather gather_S50000x128_S600000x1_S600000x128_1_0_n_n_0_1_1128 x i) main_v204 main_v210
  let main_cst_63 : FVec F S_ .f32 := constant S_ .f32 0x00000000#32
  let main_v212 : FVec F S50000x128 .f32 := broadcastInDim S50000x128 ![] bcast_S_S50000x128 main_cst_63
  let main_v213 : IVec S600000x1 32 := broadcastInDim S600000x1 ![0] bcast_S600000_S600000x1_0 main_arg7
  let main_v214 : FVec F S50000x128 .f32 := (fun x i u => Host.scatterAdd scatter_S50000x128_S600000x1_S600000x128_1_0_0_1 x i u) main_v212 main_v213 main_v211
  let main_v215 : FVec F S50000x128 .f32 := broadcastInDim S50000x128 ![0, 1] bcast_S50000x1_S50000x128_0_1 main_v201
  let main_v216 : FVec F S50000x128 .f32 := mulf main_v214 main_v215
  let main_v217 : FVec F S1x128 .f32 := broadcastInDim S1x128 ![1] bcast_S128_S1x128_1 main_arg9
  let main_v218 : FVec F S50000x128 .f32 := broadcastInDim S50000x128 ![0, 1] bcast_S1x128_S50000x128_0_1 main_v217
  let main_v219 : FVec F S50000x128 .f32 := addf main_v216 main_v218
  let main_cst_64 : FVec F S_ .f32 := constant S_ .f32 0x00000000#32
  let main_v220 : FVec F S50000x128 .f32 := broadcastInDim S50000x128 ![] bcast_S_S50000x128 main_cst_64
  fn_part12 (F := F) main_arg6 main_arg7 main_arg10 main_arg11 main_arg12 main_arg13 main_arg14 main_arg15 main_v180 main_v197 main_v201 main_v219 main_v220

def fn_part10 {F : FTy → Type} [FloatOps F] (main_arg1 : FVec F S50000x128 .f32) (main_arg6 : IVec S600000 32) (main_arg7 : IVec S600000 32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_v180 : IVec S_ 1) (main_v182 : IVec S50000x128 1) : IVec S_ 1 :=
  let main_v183 : FVec F S50000x128 .f32 := uitofp .f32 main_v182
  let main_v184 : FVec F S50000x128 .f32 := mulf main_arg1 main_v183
  let main_cst_55 : FVec F S_ .f32 := constant S_ .f32 0x3FA00000#32
  let main_v185 : FVec F S50000x128 .f32 := broadcastInDim S50000x128 ![] bcast_S_S50000x128 main_cst_55
  let main_v186 : FVec F S50000x128 .f32 := mulf main_v184 main_v185
  let main_cst_56 : FVec F S_ .f32 := constant S_ .f32 0x3F800000#32
  let main_v187 : FVec F S600000 .f32 := broadcastInDim S600000 ![] bcast_S_S600000 main_cst_56
  let main_cst_57 : FVec F S_ .f32 := constant S_ .f32 0x00000000#32
  let main_v188 : FVec F S50000 .f32 := broadcastInDim S50000 ![] bcast_S_S50000 main_cst_57
  let main_v189 : IVec S600000x1 32 := broadcastInDim S600000x1 ![0] bcast_S600000_S600000x1_0 main_arg6
  let main_v190 : FVec F S50000 .f32 := (fun x i u => Host.scatterAdd scatter_S50000_S600000x1_S600000_n_0_0_1 x i u) main_v188 main_v189 main_v187
  let main_cst_58 : FVec F S_ .f32 := constant S_ .f32 0x00000000#32
  let main_v191 : FVec F S50000 .f32 := broadcastInDim S50000 ![] bcast_S_S50000 main_cst_58
  let main_v192 : IVec S600000x1 32 := broadcastInDim S600000x1 ![0] bcast_S600000_S600000x1_0 main_arg7
  let main_v193 : FVec F S50000 .f32 := (fun x i u => Host.scatterAdd scatter_S50000_S600000x1_S600000_n_0_0_1 x i u) main_v191 main_v192 main_v187
  let main_cst_59 : FVec F S_ .f32 := constant S_ .f32 0x3F800000#32
  let main_v194 : FVec F S50000 .f32 := broadcastInDim S50000 ![] bcast_S_S50000 main_cst_59
  let main_v195 : FVec F S50000 .f32 := maximumf main_v190 main_v194
  let main_v196 : FVec F S50000 .f32 := Host.rsqrt main_v195
  let main_v197 : FVec F S50000x1 .f32 := broadcastInDim S50000x1 ![0] bcast_S50000_S50000x1_0 main_v196
  let main_cst_60 : FVec F S_ .f32 := constant S_ .f32 0x3F800000#32
  let main_v198 : FVec F S50000 .f32 := broadcastInDim S50000 ![] bcast_S_S50000 main_cst_60
  let main_v199 : FVec F S50000 .f32 := maximumf main_v193 main_v198
  let main_v200 : FVec F S50000 .f32 := Host.rsqrt main_v199
  fn_part11 (F := F) main_arg6 main_arg7 main_arg8 main_arg9 main_arg10 main_arg11 main_arg12 main_arg13 main_arg14 main_arg15 main_v180 main_v186 main_v197 main_v200

def fn_part9 {F : FTy → Type} [FloatOps F] (main_arg1 : FVec F S50000x128 .f32) (main_arg3 : FVec F S50000x128 .f32) (main_arg6 : IVec S600000 32) (main_arg7 : IVec S600000 32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_v68 : IVec S_ 1) (main_v165 : FVec F S50000x128 .f32) : IVec S_ 1 :=
  let main_cst_48 : FVec F S_ .f32 := constant S_ .f32 0x00000000#32
  let main_v166 : FVec F S128 .f32 := (fun x v => Host.reduceAdd x v reducesTo_S50000x128_S128_d0 h_S_) main_v165 main_cst_48
  let main_v167 : FVec F S1x128 .f32 := broadcastInDim S1x128 ![1] bcast_S128_S1x128_1 main_v166
  let main_cst_49 : FVec F S_ .f32 := constant S_ .f32 0x47435000#32
  let main_v168 : FVec F S1x128 .f32 := broadcastInDim S1x128 ![] bcast_S_S1x128 main_cst_49
  let main_v169 : FVec F S1x128 .f32 := Host.divf main_v167 main_v168
  let main_v170 : FVec F S50000x128 .f32 := broadcastInDim S50000x128 ![0, 1] bcast_S1x128_S50000x128_0_1 main_v169
  let main_v171 : FVec F S50000x128 .f32 := subf main_v165 main_v170
  let main_v172 : FVec F S50000x128 .f32 := mulf main_v171 main_v171
  let main_cst_50 : FVec F S_ .f32 := constant S_ .f32 0x00000000#32
  let main_v173 : FVec F S128 .f32 := (fun x v => Host.reduceAdd x v reducesTo_S50000x128_S128_d0 h_S_) main_v172 main_cst_50
  let main_cst_51 : FVec F S_ .f32 := constant S_ .f32 0x47434F00#32
  let main_v174 : FVec F S128 .f32 := broadcastInDim S128 ![] bcast_S_S128 main_cst_51
  let main_v175 : FVec F S128 .f32 := Host.divf main_v173 main_v174
  let main_v176 : FVec F S128 .f32 := Host.sqrt main_v175
  let main_cst_52 : FVec F S_ .f32 := constant S_ .f32 0x00000000#32
  let main_v177 : FVec F S128 .f32 := broadcastInDim S128 ![] bcast_S_S128 main_cst_52
  let main_v178 : IVec S128 1 := cmpf .ogt main_v176 main_v177
  let main_c_53 : IVec S_ 1 := constantI S_ 1 1#1
  let main_v179 : IVec S_ 1 := (fun x v => Host.reduce IntOp.andi x v reducesTo_S128_S_d0 h_S_) main_v178 main_c_53
  let main_v180 : IVec S_ 1 := andi main_v68 main_v179
  let main_cst_54 : FVec F S_ .f32 := constant S_ .f32 0x3E4CCCCD#32
  let main_v181 : FVec F S50000x128 .f32 := broadcastInDim S50000x128 ![] bcast_S_S50000x128 main_cst_54
  let main_v182 : IVec S50000x128 1 := cmpf .ogt main_arg3 main_v181
  fn_part10 (F := F) main_arg1 main_arg6 main_arg7 main_arg8 main_arg9 main_arg10 main_arg11 main_arg12 main_arg13 main_arg14 main_arg15 main_v180 main_v182

def fn_part8 {F : FTy → Type} [FloatOps F] (main_arg1 : FVec F S50000x128 .f32) (main_arg3 : FVec F S50000x128 .f32) (main_arg4 : IVec S600000 32) (main_arg5 : IVec S600000 32) (main_arg6 : IVec S600000 32) (main_arg7 : IVec S600000 32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_v68 : IVec S_ 1) (main_v89 : FVec F S50000x1 .f32) (main_v140 : FVec F S50000x128 .f32) (main_v142 : IVec S600000 1) (main_v144 : IVec S600000 32) : IVec S_ 1 :=
  let main_v145 : IVec S600000 32 := select main_v142 main_v144 main_arg4
  let main_v146 : IVec S600000x1 32 := broadcastInDim S600000x1 ![0] bcast_S600000_S600000x1_0 main_v145
  let main_v147 : FVec F S600000x128 .f32 := (fun x i => Host.gather gather_S50000x128_S600000x1_S600000x128_1_0_n_n_0_1_1128 x i) main_v140 main_v146
  let main_cst_45 : FVec F S_ .f32 := constant S_ .f32 0x00000000#32
  let main_v148 : FVec F S50000x128 .f32 := broadcastInDim S50000x128 ![] bcast_S_S50000x128 main_cst_45
  let main_v149 : IVec S600000x1 32 := broadcastInDim S600000x1 ![0] bcast_S600000_S600000x1_0 main_arg5
  let main_v150 : FVec F S50000x128 .f32 := (fun x i u => Host.scatterAdd scatter_S50000x128_S600000x1_S600000x128_1_0_0_1 x i u) main_v148 main_v149 main_v147
  let main_v151 : FVec F S50000x128 .f32 := broadcastInDim S50000x128 ![0, 1] bcast_S50000x1_S50000x128_0_1 main_v89
  let main_v152 : FVec F S50000x128 .f32 := mulf main_v150 main_v151
  let main_v153 : FVec F S1x128 .f32 := broadcastInDim S1x128 ![1] bcast_S128_S1x128_1 main_arg13
  let main_v154 : FVec F S50000x128 .f32 := broadcastInDim S50000x128 ![0, 1] bcast_S1x128_S50000x128_0_1 main_v153
  let main_v155 : FVec F S50000x128 .f32 := addf main_v152 main_v154
  let main_cst_46 : FVec F S_ .f32 := constant S_ .f32 0x00000000#32
  let main_v156 : FVec F S50000x128 .f32 := broadcastInDim S50000x128 ![] bcast_S_S50000x128 main_cst_46
  let main_v157 : IVec S50000x128 1 := cmpf .ogt main_v155 main_v156
  let main_cst_47 : FVec F S_ .f32 := constant S_ .f32 0x00000000#32
  let main_v158 : FVec F S50000x128 .f32 := broadcastInDim S50000x128 ![] bcast_S_S50000x128 main_cst_47
  let main_v159 : FVec F S50000x128 .f32 := select main_v157 main_v158 main_v155
  let main_v160 : FVec F S50000x128 .f32 := Host.expm1 main_v159
  let main_v161 : FVec F S50000x128 .f32 := select main_v157 main_v155 main_v160
  let main_v162 : FVec F S50000x128 .f32 := (fun l r => Host.dotGeneral dot_S50000x128_S128x128_S50000x128_1_0_0_1_n_n none l r) main_v161 main_arg14
  let main_v163 : FVec F S1x128 .f32 := broadcastInDim S1x128 ![1] bcast_S128_S1x128_1 main_arg15
  let main_v164 : FVec F S50000x128 .f32 := broadcastInDim S50000x128 ![0, 1] bcast_S1x128_S50000x128_0_1 main_v163
  let main_v165 : FVec F S50000x128 .f32 := addf main_v162 main_v164
  fn_part9 (F := F) main_arg1 main_arg3 main_arg6 main_arg7 main_arg8 main_arg9 main_arg10 main_arg11 main_arg12 main_arg13 main_arg14 main_arg15 main_v68 main_v165

def fn_part7 {F : FTy → Type} [FloatOps F] (main_arg1 : FVec F S50000x128 .f32) (main_arg3 : FVec F S50000x128 .f32) (main_arg4 : IVec S600000 32) (main_arg5 : IVec S600000 32) (main_arg6 : IVec S600000 32) (main_arg7 : IVec S600000 32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_v68 : IVec S_ 1) (main_v85 : FVec F S50000x1 .f32) (main_v89 : FVec F S50000x1 .f32) (main_v123 : FVec F S600000x128 .f32) (main_v124 : FVec F S50000x128 .f32) : IVec S_ 1 :=
  let main_v125 : IVec S600000x1 32 := broadcastInDim S600000x1 ![0] bcast_S600000_S600000x1_0 main_arg5
  let main_v126 : FVec F S50000x128 .f32 := (fun x i u => Host.scatterAdd scatter_S50000x128_S600000x1_S600000x128_1_0_0_1 x i u) main_v124 main_v125 main_v123
  let main_v127 : FVec F S50000x128 .f32 := broadcastInDim S50000x128 ![0, 1] bcast_S50000x1_S50000x128_0_1 main_v89
  let main_v128 : FVec F S50000x128 .f32 := mulf main_v126 main_v127
  let main_v129 : FVec F S1x128 .f32 := broadcastInDim S1x128 ![1] bcast_S128_S1x128_1 main_arg11
  let main_v130 : FVec F S50000x128 .f32 := broadcastInDim S50000x128 ![0, 1] bcast_S1x128_S50000x128_0_1 main_v129
  let main_v131 : FVec F S50000x128 .f32 := addf main_v128 main_v130
  let main_cst_41 : FVec F S_ .f32 := constant S_ .f32 0x00000000#32
  let main_v132 : FVec F S50000x128 .f32 := broadcastInDim S50000x128 ![] bcast_S_S50000x128 main_cst_41
  let main_v133 : IVec S50000x128 1 := cmpf .ogt main_v131 main_v132
  let main_cst_42 : FVec F S_ .f32 := constant S_ .f32 0x00000000#32
  let main_v134 : FVec F S50000x128 .f32 := broadcastInDim S50000x128 ![] bcast_S_S50000x128 main_cst_42
  let main_v135 : FVec F S50000x128 .f32 := select main_v133 main_v134 main_v131
  let main_v136 : FVec F S50000x128 .f32 := Host.expm1 main_v135
  let main_v137 : FVec F S50000x128 .f32 := select main_v133 main_v131 main_v136
  let main_v138 : FVec F S50000x128 .f32 := broadcastInDim S50000x128 ![0, 1] bcast_S50000x1_S50000x128_0_1 main_v85
  let main_v139 : FVec F S50000x128 .f32 := mulf main_v137 main_v138
  let main_v140 : FVec F S50000x128 .f32 := (fun l r => Host.dotGeneral dot_S50000x128_S128x128_S50000x128_1_0_0_1_n_n none l r) main_v139 main_arg12
  let main_c_43 : IVec S_ 32 := constantI S_ 32 0#32
  let main_v141 : IVec S600000 32 := broadcastInDim S600000 ![] bcast_S_S600000 main_c_43
  let main_v142 : IVec S600000 1 := cmpi .slt main_arg4 main_v141
  let main_c_44 : IVec S_ 32 := constantI S_ 32 50000#32
  let main_v143 : IVec S600000 32 := broadcastInDim S600000 ![] bcast_S_S600000 main_c_44
  let main_v144 : IVec S600000 32 := addi main_arg4 main_v143
  fn_part8 (F := F) main_arg1 main_arg3 main_arg4 main_arg5 main_arg6 main_arg7 main_arg8 main_arg9 main_arg10 main_arg11 main_arg12 main_arg13 main_arg14 main_arg15 main_v68 main_v89 main_v140 main_v142 main_v144

def fn_part6 {F : FTy → Type} [FloatOps F] (main_arg1 : FVec F S50000x128 .f32) (main_arg3 : FVec F S50000x128 .f32) (main_arg4 : IVec S600000 32) (main_arg5 : IVec S600000 32) (main_arg6 : IVec S600000 32) (main_arg7 : IVec S600000 32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_v68 : IVec S_ 1) (main_v85 : FVec F S50000x1 .f32) (main_v89 : FVec F S50000x1 .f32) (main_v104 : FVec F S50000x128 .f32) (main_v105 : FVec F S1x128 .f32) : IVec S_ 1 :=
  let main_v106 : FVec F S50000x128 .f32 := broadcastInDim S50000x128 ![0, 1] bcast_S1x128_S50000x128_0_1 main_v105
  let main_v107 : FVec F S50000x128 .f32 := addf main_v104 main_v106
  let main_cst_36 : FVec F S_ .f32 := constant S_ .f32 0x00000000#32
  let main_v108 : FVec F S50000x128 .f32 := broadcastInDim S50000x128 ![] bcast_S_S50000x128 main_cst_36
  let main_v109 : IVec S50000x128 1 := cmpf .ogt main_v107 main_v108
  let main_cst_37 : FVec F S_ .f32 := constant S_ .f32 0x00000000#32
  let main_v110 : FVec F S50000x128 .f32 := broadcastInDim S50000x128 ![] bcast_S_S50000x128 main_cst_37
  let main_v111 : FVec F S50000x128 .f32 := select main_v109 main_v110 main_v107
  let main_v112 : FVec F S50000x128 .f32 := Host.expm1 main_v111
  let main_v113 : FVec F S50000x128 .f32 := select main_v109 main_v107 main_v112
  let main_v114 : FVec F S50000x128 .f32 := broadcastInDim S50000x128 ![0, 1] bcast_S50000x1_S50000x128_0_1 main_v85
  let main_v115 : FVec F S50000x128 .f32 := mulf main_v113 main_v114
  let main_v116 : FVec F S50000x128 .f32 := (fun l r => Host.dotGeneral dot_S50000x128_S128x128_S50000x128_1_0_0_1_n_n none l r) main_v115 main_arg10
  let main_c_38 : IVec S_ 32 := constantI S_ 32 0#32
  let main_v117 : IVec S600000 32 := broadcastInDim S600000 ![] bcast_S_S600000 main_c_38
  let main_v118 : IVec S600000 1 := cmpi .slt main_arg4 main_v117
  let main_c_39 : IVec S_ 32 := constantI S_ 32 50000#32
  let main_v119 : IVec S600000 32 := broadcastInDim S600000 ![] bcast_S_S600000 main_c_39
  let main_v120 : IVec S600000 32 := addi main_arg4 main_v119
  let main_v121 : IVec S600000 32 := select main_v118 main_v120 main_arg4
  let main_v122 : IVec S600000x1 32 := broadcastInDim S600000x1 ![0] bcast_S600000_S600000x1_0 main_v121
  let main_v123 : FVec F S600000x128 .f32 := (fun x i => Host.gather gather_S50000x128_S600000x1_S600000x128_1_0_n_n_0_1_1128 x i) main_v116 main_v122
  let main_cst_40 : FVec F S_ .f32 := constant S_ .f32 0x00000000#32
  let main_v124 : FVec F S50000x128 .f32 := broadcastInDim S50000x128 ![] bcast_S_S50000x128 main_cst_40
  fn_part7 (F := F) main_arg1 main_arg3 main_arg4 main_arg5 main_arg6 main_arg7 main_arg8 main_arg9 main_arg10 main_arg11 main_arg12 main_arg13 main_arg14 main_arg15 main_v68 main_v85 main_v89 main_v123 main_v124

def fn_part5 {F : FTy → Type} [FloatOps F] (main_arg1 : FVec F S50000x128 .f32) (main_arg3 : FVec F S50000x128 .f32) (main_arg4 : IVec S600000 32) (main_arg5 : IVec S600000 32) (main_arg6 : IVec S600000 32) (main_arg7 : IVec S600000 32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_v68 : IVec S_ 1) (main_v74 : FVec F S50000x128 .f32) (main_v81 : FVec F S50000 .f32) (main_v85 : FVec F S50000x1 .f32) : IVec S_ 1 :=
  let main_cst_32 : FVec F S_ .f32 := constant S_ .f32 0x3F800000#32
  let main_v86 : FVec F S50000 .f32 := broadcastInDim S50000 ![] bcast_S_S50000 main_cst_32
  let main_v87 : FVec F S50000 .f32 := maximumf main_v81 main_v86
  let main_v88 : FVec F S50000 .f32 := Host.rsqrt main_v87
  let main_v89 : FVec F S50000x1 .f32 := broadcastInDim S50000x1 ![0] bcast_S50000_S50000x1_0 main_v88
  let main_v90 : FVec F S50000x128 .f32 := broadcastInDim S50000x128 ![0, 1] bcast_S50000x1_S50000x128_0_1 main_v85
  let main_v91 : FVec F S50000x128 .f32 := mulf main_v74 main_v90
  let main_v92 : FVec F S50000x128 .f32 := (fun l r => Host.dotGeneral dot_S50000x128_S128x128_S50000x128_1_0_0_1_n_n none l r) main_v91 main_arg8
  let main_c_33 : IVec S_ 32 := constantI S_ 32 0#32
  let main_v93 : IVec S600000 32 := broadcastInDim S600000 ![] bcast_S_S600000 main_c_33
  let main_v94 : IVec S600000 1 := cmpi .slt main_arg4 main_v93
  let main_c_34 : IVec S_ 32 := constantI S_ 32 50000#32
  let main_v95 : IVec S600000 32 := broadcastInDim S600000 ![] bcast_S_S600000 main_c_34
  let main_v96 : IVec S600000 32 := addi main_arg4 main_v95
  let main_v97 : IVec S600000 32 := select main_v94 main_v96 main_arg4
  let main_v98 : IVec S600000x1 32 := broadcastInDim S600000x1 ![0] bcast_S600000_S600000x1_0 main_v97
  let main_v99 : FVec F S600000x128 .f32 := (fun x i => Host.gather gather_S50000x128_S600000x1_S600000x128_1_0_n_n_0_1_1128 x i) main_v92 main_v98
  let main_cst_35 : FVec F S_ .f32 := constant S_ .f32 0x00000000#32
  let main_v100 : FVec F S50000x128 .f32 := broadcastInDim S50000x128 ![] bcast_S_S50000x128 main_cst_35
  let main_v101 : IVec S600000x1 32 := broadcastInDim S600000x1 ![0] bcast_S600000_S600000x1_0 main_arg5
  let main_v102 : FVec F S50000x128 .f32 := (fun x i u => Host.scatterAdd scatter_S50000x128_S600000x1_S600000x128_1_0_0_1 x i u) main_v100 main_v101 main_v99
  let main_v103 : FVec F S50000x128 .f32 := broadcastInDim S50000x128 ![0, 1] bcast_S50000x1_S50000x128_0_1 main_v89
  let main_v104 : FVec F S50000x128 .f32 := mulf main_v102 main_v103
  let main_v105 : FVec F S1x128 .f32 := broadcastInDim S1x128 ![1] bcast_S128_S1x128_1 main_arg9
  fn_part6 (F := F) main_arg1 main_arg3 main_arg4 main_arg5 main_arg6 main_arg7 main_arg8 main_arg9 main_arg10 main_arg11 main_arg12 main_arg13 main_arg14 main_arg15 main_v68 main_v85 main_v89 main_v104 main_v105

def fn_part4 {F : FTy → Type} [FloatOps F] (main_arg0 : FVec F S50000x128 .f32) (main_arg1 : FVec F S50000x128 .f32) (main_arg2 : FVec F S50000x128 .f32) (main_arg3 : FVec F S50000x128 .f32) (main_arg4 : IVec S600000 32) (main_arg5 : IVec S600000 32) (main_arg6 : IVec S600000 32) (main_arg7 : IVec S600000 32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_v63 : IVec S_ 1) (main_v67 : IVec S_ 1) : IVec S_ 1 :=
  let main_v68 : IVec S_ 1 := andi main_v63 main_v67
  let main_cst_26 : FVec F S_ .f32 := constant S_ .f32 0x3E4CCCCD#32
  let main_v69 : FVec F S50000x128 .f32 := broadcastInDim S50000x128 ![] bcast_S_S50000x128 main_cst_26
  let main_v70 : IVec S50000x128 1 := cmpf .ogt main_arg2 main_v69
  let main_v71 : FVec F S50000x128 .f32 := uitofp .f32 main_v70
  let main_v72 : FVec F S50000x128 .f32 := mulf main_arg0 main_v71
  let main_cst_27 : FVec F S_ .f32 := constant S_ .f32 0x3FA00000#32
  let main_v73 : FVec F S50000x128 .f32 := broadcastInDim S50000x128 ![] bcast_S_S50000x128 main_cst_27
  let main_v74 : FVec F S50000x128 .f32 := mulf main_v72 main_v73
  let main_cst_28 : FVec F S_ .f32 := constant S_ .f32 0x3F800000#32
  let main_v75 : FVec F S600000 .f32 := broadcastInDim S600000 ![] bcast_S_S600000 main_cst_28
  let main_cst_29 : FVec F S_ .f32 := constant S_ .f32 0x00000000#32
  let main_v76 : FVec F S50000 .f32 := broadcastInDim S50000 ![] bcast_S_S50000 main_cst_29
  let main_v77 : IVec S600000x1 32 := broadcastInDim S600000x1 ![0] bcast_S600000_S600000x1_0 main_arg4
  let main_v78 : FVec F S50000 .f32 := (fun x i u => Host.scatterAdd scatter_S50000_S600000x1_S600000_n_0_0_1 x i u) main_v76 main_v77 main_v75
  let main_cst_30 : FVec F S_ .f32 := constant S_ .f32 0x00000000#32
  let main_v79 : FVec F S50000 .f32 := broadcastInDim S50000 ![] bcast_S_S50000 main_cst_30
  let main_v80 : IVec S600000x1 32 := broadcastInDim S600000x1 ![0] bcast_S600000_S600000x1_0 main_arg5
  let main_v81 : FVec F S50000 .f32 := (fun x i u => Host.scatterAdd scatter_S50000_S600000x1_S600000_n_0_0_1 x i u) main_v79 main_v80 main_v75
  let main_cst_31 : FVec F S_ .f32 := constant S_ .f32 0x3F800000#32
  let main_v82 : FVec F S50000 .f32 := broadcastInDim S50000 ![] bcast_S_S50000 main_cst_31
  let main_v83 : FVec F S50000 .f32 := maximumf main_v78 main_v82
  let main_v84 : FVec F S50000 .f32 := Host.rsqrt main_v83
  let main_v85 : FVec F S50000x1 .f32 := broadcastInDim S50000x1 ![0] bcast_S50000_S50000x1_0 main_v84
  fn_part5 (F := F) main_arg1 main_arg3 main_arg4 main_arg5 main_arg6 main_arg7 main_arg8 main_arg9 main_arg10 main_arg11 main_arg12 main_arg13 main_arg14 main_arg15 main_v68 main_v74 main_v81 main_v85

def fn_part3 {F : FTy → Type} [FloatOps F] (main_arg0 : FVec F S50000x128 .f32) (main_arg1 : FVec F S50000x128 .f32) (main_arg2 : FVec F S50000x128 .f32) (main_arg3 : FVec F S50000x128 .f32) (main_arg4 : IVec S600000 32) (main_arg5 : IVec S600000 32) (main_arg6 : IVec S600000 32) (main_arg7 : IVec S600000 32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x2 .f32) (main_arg17 : FVec F S2 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg15
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x2 .f32 := Host.absf main_arg16
  let main_cst_22 : FVec F S_ .f32 := constant S_ .f32 0x7F800000#32
  let main_v60 : FVec F S128x2 .f32 := broadcastInDim S128x2 ![] bcast_S_S128x2 main_cst_22
  let main_v61 : IVec S128x2 1 := cmpf .olt main_v59 main_v60
  let main_c_23 : IVec S_ 1 := constantI S_ 1 1#1
  let main_v62 : IVec S_ 1 := (fun x v => Host.reduce IntOp.andi x v reducesTo_S128x2_S_d0_1 h_S_) main_v61 main_c_23
  let main_v63 : IVec S_ 1 := andi main_v58 main_v62
  let main_v64 : FVec F S2 .f32 := Host.absf main_arg17
  let main_cst_24 : FVec F S_ .f32 := constant S_ .f32 0x7F800000#32
  let main_v65 : FVec F S2 .f32 := broadcastInDim S2 ![] bcast_S_S2 main_cst_24
  let main_v66 : IVec S2 1 := cmpf .olt main_v64 main_v65
  let main_c_25 : IVec S_ 1 := constantI S_ 1 1#1
  let main_v67 : IVec S_ 1 := (fun x v => Host.reduce IntOp.andi x v reducesTo_S2_S_d0 h_S_) main_v66 main_c_25
  fn_part4 (F := F) main_arg0 main_arg1 main_arg2 main_arg3 main_arg4 main_arg5 main_arg6 main_arg7 main_arg8 main_arg9 main_arg10 main_arg11 main_arg12 main_arg13 main_arg14 main_arg15 main_v63 main_v67

def fn_part2 {F : FTy → Type} [FloatOps F] (main_arg0 : FVec F S50000x128 .f32) (main_arg1 : FVec F S50000x128 .f32) (main_arg2 : FVec F S50000x128 .f32) (main_arg3 : FVec F S50000x128 .f32) (main_arg4 : IVec S600000 32) (main_arg5 : IVec S600000 32) (main_arg6 : IVec S600000 32) (main_arg7 : IVec S600000 32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x2 .f32) (main_arg17 : FVec F S2 .f32) (main_v33 : IVec S_ 1) : IVec S_ 1 :=
  let main_v34 : FVec F S128 .f32 := Host.absf main_arg11
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg12
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg13
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg14
  let main_cst_18 : FVec F S_ .f32 := constant S_ .f32 0x7F800000#32
  let main_v50 : FVec F S128x128 .f32 := broadcastInDim S128x128 ![] bcast_S_S128x128 main_cst_18
  fn_part3 (F := F) main_arg0 main_arg1 main_arg2 main_arg3 main_arg4 main_arg5 main_arg6 main_arg7 main_arg8 main_arg9 main_arg10 main_arg11 main_arg12 main_arg13 main_arg14 main_arg15 main_arg16 main_arg17 main_v48 main_v49 main_v50

def fn_part1 {F : FTy → Type} [FloatOps F] (main_arg0 : FVec F S50000x128 .f32) (main_arg1 : FVec F S50000x128 .f32) (main_arg2 : FVec F S50000x128 .f32) (main_arg3 : FVec F S50000x128 .f32) (main_arg4 : IVec S600000 32) (main_arg5 : IVec S600000 32) (main_arg6 : IVec S600000 32) (main_arg7 : IVec S600000 32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x2 .f32) (main_arg17 : FVec F S2 .f32) (main_v13 : IVec S_ 1) (main_v16 : IVec S50000x128 1) : IVec S_ 1 :=
  let main_c_5 : IVec S_ 1 := constantI S_ 1 1#1
  let main_v17 : IVec S_ 1 := (fun x v => Host.reduce IntOp.andi x v reducesTo_S50000x128_S_d0_1 h_S_) main_v16 main_c_5
  let main_v18 : IVec S_ 1 := andi main_v13 main_v17
  let main_v19 : FVec F S128x128 .f32 := Host.absf main_arg8
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg9
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg10
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg0 main_arg1 main_arg2 main_arg3 main_arg4 main_arg5 main_arg6 main_arg7 main_arg8 main_arg9 main_arg10 main_arg11 main_arg12 main_arg13 main_arg14 main_arg15 main_arg16 main_arg17 main_v33

def fn {F : FTy → Type} [FloatOps F] (main_arg0 : FVec F S50000x128 .f32) (main_arg1 : FVec F S50000x128 .f32) (main_arg2 : FVec F S50000x128 .f32) (main_arg3 : FVec F S50000x128 .f32) (main_arg4 : IVec S600000 32) (main_arg5 : IVec S600000 32) (main_arg6 : IVec S600000 32) (main_arg7 : IVec S600000 32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x2 .f32) (main_arg17 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S50000x128 .f32 := Host.absf main_arg2
  let main_cst_2 : FVec F S_ .f32 := constant S_ .f32 0x7F800000#32
  let main_v10 : FVec F S50000x128 .f32 := broadcastInDim S50000x128 ![] bcast_S_S50000x128 main_cst_2
  let main_v11 : IVec S50000x128 1 := cmpf .olt main_v9 main_v10
  let main_c_3 : IVec S_ 1 := constantI S_ 1 1#1
  let main_v12 : IVec S_ 1 := (fun x v => Host.reduce IntOp.andi x v reducesTo_S50000x128_S_d0_1 h_S_) main_v11 main_c_3
  let main_v13 : IVec S_ 1 := andi main_v8 main_v12
  let main_v14 : FVec F S50000x128 .f32 := Host.absf main_arg3
  let main_cst_4 : FVec F S_ .f32 := constant S_ .f32 0x7F800000#32
  let main_v15 : FVec F S50000x128 .f32 := broadcastInDim S50000x128 ![] bcast_S_S50000x128 main_cst_4
  let main_v16 : IVec S50000x128 1 := cmpf .olt main_v14 main_v15
  fn_part1 (F := F) main_arg0 main_arg1 main_arg2 main_arg3 main_arg4 main_arg5 main_arg6 main_arg7 main_arg8 main_arg9 main_arg10 main_arg11 main_arg12 main_arg13 main_arg14 main_arg15 main_arg16 main_arg17 main_v13 main_v16
-- ==== Kernel.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S1x128 : Shape := ⟨2, ![1, 128]⟩
abbrev S5000x128 : Shape := ⟨2, ![5000, 128]⟩
abbrev S5000x1 : Shape := ⟨2, ![5000, 1]⟩
abbrev S600000x128 : Shape := ⟨2, ![600000, 128]⟩
abbrev S1x2 : Shape := ⟨2, ![1, 2]⟩
abbrev S50000x2 : Shape := ⟨2, ![50000, 2]⟩
abbrev S5000x2 : Shape := ⟨2, ![5000, 2]⟩

abbrev nBuf : Space → Nat
  | .hbm => 193
  | .vmem => 136
  | .smem => 0
  | _ => 0

abbrev hbmTy0_0 (i : Nat) : BufTy := match i % 128 with
  | 0 => ⟨S50000x128, .f32⟩
  | 1 => ⟨S50000x128, .f32⟩
  | 2 => ⟨S50000x128, .f32⟩
  | 3 => ⟨S50000x128, .f32⟩
  | 4 => ⟨S600000, .i32⟩
  | 5 => ⟨S600000, .i32⟩
  | 6 => ⟨S600000, .i32⟩
  | 7 => ⟨S600000, .i32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128x2, .f32⟩
  | 17 => ⟨S2, .f32⟩
  | 18 => ⟨S_, .f32⟩
  | 19 => ⟨S600000, .f32⟩
  | 20 => ⟨S_, .f32⟩
  | 21 => ⟨S50000, .f32⟩
  | 22 => ⟨S600000x1, .i32⟩
  | 23 => ⟨S50000, .f32⟩
  | 24 => ⟨S_, .f32⟩
  | 25 => ⟨S50000, .f32⟩
  | 26 => ⟨S600000x1, .i32⟩
  | 27 => ⟨S50000, .f32⟩
  | 28 => ⟨S_, .f32⟩
  | 29 => ⟨S50000, .f32⟩
  | 30 => ⟨S50000, .f32⟩
  | 31 => ⟨S50000, .f32⟩
  | 32 => ⟨S50000x1, .f32⟩
  | 33 => ⟨S_, .f32⟩
  | 34 => ⟨S50000, .f32⟩
  | 35 => ⟨S50000, .f32⟩
  | 36 => ⟨S50000, .f32⟩
  | 37 => ⟨S50000x1, .f32⟩
  | 38 => ⟨S1x128, .f32⟩
  | 39 => ⟨S1x128, .f32⟩
  | 40 => ⟨S1x128, .f32⟩
  | 41 => ⟨S1x128, .f32⟩
  | 42 => ⟨S50000x128, .f32⟩
  | 43 => ⟨S50000x128, .f32⟩
  | 44 => ⟨S_, .i32⟩
  | 45 => ⟨S600000, .i32⟩
  | 46 => ⟨S600000, .i1⟩
  | 47 => ⟨S_, .i32⟩
  | 48 => ⟨S600000, .i32⟩
  | 49 => ⟨S600000, .i32⟩
  | 50 => ⟨S600000, .i32⟩
  | 51 => ⟨S600000x1, .i32⟩
  | 52 => ⟨S600000x128, .f32⟩
  | 53 => ⟨S_, .f32⟩
  | 54 => ⟨S50000x128, .f32⟩
  | 55 => ⟨S600000x1, .i32⟩
  | 56 => ⟨S50000x128, .f32⟩
  | 57 => ⟨S50000x128, .f32⟩
  | 58 => ⟨S50000x128, .f32⟩
  | 59 => ⟨S_, .i32⟩
  | 60 => ⟨S600000, .i32⟩
  | 61 => ⟨S600000, .i1⟩
  | 62 => ⟨S_, .i32⟩
  | 63 => ⟨S600000, .i32⟩
  | 64 => ⟨S600000, .i32⟩
  | 65 => ⟨S600000, .i32⟩
  | 66 => ⟨S600000x1, .i32⟩
  | 67 => ⟨S600000x128, .f32⟩
  | 68 => ⟨S_, .f32⟩
  | 69 => ⟨S50000x128, .f32⟩
  | 70 => ⟨S600000x1, .i32⟩
  | 71 => ⟨S50000x128, .f32⟩
  | 72 => ⟨S50000x128, .f32⟩
  | 73 => ⟨S50000x128, .f32⟩
  | 74 => ⟨S_, .i32⟩
  | 75 => ⟨S600000, .i32⟩
  | 76 => ⟨S600000, .i1⟩
  | 77 => ⟨S_, .i32⟩
  | 78 => ⟨S600000, .i32⟩
  | 79 => ⟨S600000, .i32⟩
  | 80 => ⟨S600000, .i32⟩
  | 81 => ⟨S600000x1, .i32⟩
  | 82 => ⟨S600000x128, .f32⟩
  | 83 => ⟨S_, .f32⟩
  | 84 => ⟨S50000x128, .f32⟩
  | 85 => ⟨S600000x1, .i32⟩
  | 86 => ⟨S50000x128, .f32⟩
  | 87 => ⟨S50000x128, .f32⟩
  | 88 => ⟨S50000x128, .f32⟩
  | 89 => ⟨S_, .f32⟩
  | 90 => ⟨S600000, .f32⟩
  | 91 => ⟨S_, .f32⟩
  | 92 => ⟨S50000, .f32⟩
  | 93 => ⟨S600000x1, .i32⟩
  | 94 => ⟨S50000, .f32⟩
  | 95 => ⟨S_, .f32⟩
  | 96 => ⟨S50000, .f32⟩
  | 97 => ⟨S600000x1, .i32⟩
  | 98 => ⟨S50000, .f32⟩
  | 99 => ⟨S_, .f32⟩
  | 100 => ⟨S50000, .f32⟩
  | 101 => ⟨S50000, .f32⟩
  | 102 => ⟨S50000, .f32⟩
  | 103 => ⟨S50000x1, .f32⟩
  | 104 => ⟨S_, .f32⟩
  | 105 => ⟨S50000, .f32⟩
  | 106 => ⟨S50000, .f32⟩
  | 107 => ⟨S50000, .f32⟩
  | 108 => ⟨S50000x1, .f32⟩
  | 109 => ⟨S1x128, .f32⟩
  | 110 => ⟨S1x128, .f32⟩
  | 111 => ⟨S1x128, .f32⟩
  | 112 => ⟨S1x128, .f32⟩
  | 113 => ⟨S50000x128, .f32⟩
  | 114 => ⟨S50000x128, .f32⟩
  | 115 => ⟨S_, .i32⟩
  | 116 => ⟨S600000, .i32⟩
  | 117 => ⟨S600000, .i1⟩
  | 118 => ⟨S_, .i32⟩
  | 119 => ⟨S600000, .i32⟩
  | 120 => ⟨S600000, .i32⟩
  | 121 => ⟨S600000, .i32⟩
  | 122 => ⟨S600000x1, .i32⟩
  | 123 => ⟨S600000x128, .f32⟩
  | 124 => ⟨S_, .f32⟩
  | 125 => ⟨S50000x128, .f32⟩
  | 126 => ⟨S600000x1, .i32⟩
  | 127 => ⟨S50000x128, .f32⟩
  | _ => ⟨S50000x128, .f32⟩

abbrev hbmTy0_1 (i : Nat) : BufTy := match i % 128 with
  | 0 => ⟨S50000x128, .f32⟩
  | 1 => ⟨S50000x128, .f32⟩
  | 2 => ⟨S_, .i32⟩
  | 3 => ⟨S600000, .i32⟩
  | 4 => ⟨S600000, .i1⟩
  | 5 => ⟨S_, .i32⟩
  | 6 => ⟨S600000, .i32⟩
  | 7 => ⟨S600000, .i32⟩
  | 8 => ⟨S600000, .i32⟩
  | 9 => ⟨S600000x1, .i32⟩
  | 10 => ⟨S600000x128, .f32⟩
  | 11 => ⟨S_, .f32⟩
  | 12 => ⟨S50000x128, .f32⟩
  | 13 => ⟨S600000x1, .i32⟩
  | 14 => ⟨S50000x128, .f32⟩
  | 15 => ⟨S50000x128, .f32⟩
  | 16 => ⟨S50000x128, .f32⟩
  | 17 => ⟨S_, .i32⟩
  | 18 => ⟨S600000, .i32⟩
  | 19 => ⟨S600000, .i1⟩
  | 20 => ⟨S_, .i32⟩
  | 21 => ⟨S600000, .i32⟩
  | 22 => ⟨S600000, .i32⟩
  | 23 => ⟨S600000, .i32⟩
  | 24 => ⟨S600000x1, .i32⟩
  | 25 => ⟨S600000x128, .f32⟩
  | 26 => ⟨S_, .f32⟩
  | 27 => ⟨S50000x128, .f32⟩
  | 28 => ⟨S600000x1, .i32⟩
  | 29 => ⟨S50000x128, .f32⟩
  | 30 => ⟨S50000x128, .f32⟩
  | 31 => ⟨S50000x128, .f32⟩
  | 32 => ⟨S1x2, .f32⟩
  | 33 => ⟨S1x128, .f32⟩
  | 34 => ⟨S1x128, .f32⟩
  | 35 => ⟨S_, .f32⟩
  | 36 => ⟨S1x128, .f32⟩
  | 37 => ⟨S1x128, .f32⟩
  | 38 => ⟨S_, .f32⟩
  | 39 => ⟨S1x128, .f32⟩
  | 40 => ⟨S1x128, .f32⟩
  | 41 => ⟨S1x128, .f32⟩
  | 42 => ⟨S1x128, .f32⟩
  | 43 => ⟨S_, .f32⟩
  | 44 => ⟨S1x128, .f32⟩
  | 45 => ⟨S1x128, .f32⟩
  | 46 => ⟨S1x128, .f32⟩
  | 47 => ⟨S1x128, .f32⟩
  | 48 => ⟨S1x128, .f32⟩
  | 49 => ⟨S_, .f32⟩
  | 50 => ⟨S1x128, .f32⟩
  | 51 => ⟨S1x128, .f32⟩
  | 52 => ⟨S_, .f32⟩
  | 53 => ⟨S1x128, .f32⟩
  | 54 => ⟨S1x128, .f32⟩
  | 55 => ⟨S1x128, .f32⟩
  | 56 => ⟨S1x128, .f32⟩
  | 57 => ⟨S_, .f32⟩
  | 58 => ⟨S1x128, .f32⟩
  | 59 => ⟨S1x128, .f32⟩
  | 60 => ⟨S1x128, .f32⟩
  | 61 => ⟨S50000x128, .f32⟩
  | 62 => ⟨S50000x2, .f32⟩
  | 63 => ⟨S50000x128, .f32⟩
  | 64 => ⟨S50000x2, .f32⟩
  | _ => ⟨S50000x128, .f32⟩

abbrev hbmTy (i : Nat) : BufTy := match i / 128 with
  | 0 => hbmTy0_0 i
  | 1 => hbmTy0_1 i
  | _ => ⟨S50000x128, .f32⟩

abbrev vmemTy0_0 (i : Nat) : BufTy := match i % 128 with
  | 0 => ⟨S5000x128, .f32⟩
  | 1 => ⟨S5000x128, .f32⟩
  | 2 => ⟨S5000x128, .f32⟩
  | 3 => ⟨S5000x128, .f32⟩
  | 4 => ⟨S5000x128, .f32⟩
  | 5 => ⟨S5000x128, .f32⟩
  | 6 => ⟨S5000x128, .f32⟩
  | 7 => ⟨S5000x128, .f32⟩
  | 8 => ⟨S5000x1, .f32⟩
  | 9 => ⟨S5000x1, .f32⟩
  | 10 => ⟨S128x128, .f32⟩
  | 11 => ⟨S5000x128, .f32⟩
  | 12 => ⟨S5000x128, .f32⟩
  | 13 => ⟨S5000x128, .f32⟩
  | 14 => ⟨S5000x128, .f32⟩
  | 15 => ⟨S5000x1, .f32⟩
  | 16 => ⟨S5000x1, .f32⟩
  | 17 => ⟨S1x128, .f32⟩
  | 18 => ⟨S5000x128, .f32⟩
  | 19 => ⟨S5000x128, .f32⟩
  | 20 => ⟨S5000x128, .f32⟩
  | 21 => ⟨S5000x128, .f32⟩
  | 22 => ⟨S5000x1, .f32⟩
  | 23 => ⟨S5000x1, .f32⟩
  | 24 => ⟨S128x128, .f32⟩
  | 25 => ⟨S5000x128, .f32⟩
  | 26 => ⟨S5000x128, .f32⟩
  | 27 => ⟨S5000x128, .f32⟩
  | 28 => ⟨S5000x128, .f32⟩
  | 29 => ⟨S5000x1, .f32⟩
  | 30 => ⟨S5000x1, .f32⟩
  | 31 => ⟨S1x128, .f32⟩
  | 32 => ⟨S5000x128, .f32⟩
  | 33 => ⟨S5000x128, .f32⟩
  | 34 => ⟨S5000x128, .f32⟩
  | 35 => ⟨S5000x128, .f32⟩
  | 36 => ⟨S5000x1, .f32⟩
  | 37 => ⟨S5000x1, .f32⟩
  | 38 => ⟨S128x128, .f32⟩
  | 39 => ⟨S5000x128, .f32⟩
  | 40 => ⟨S5000x128, .f32⟩
  | 41 => ⟨S5000x128, .f32⟩
  | 42 => ⟨S5000x128, .f32⟩
  | 43 => ⟨S5000x1, .f32⟩
  | 44 => ⟨S5000x1, .f32⟩
  | 45 => ⟨S1x128, .f32⟩
  | 46 => ⟨S5000x128, .f32⟩
  | 47 => ⟨S5000x128, .f32⟩
  | 48 => ⟨S5000x128, .f32⟩
  | 49 => ⟨S5000x128, .f32⟩
  | 50 => ⟨S128x128, .f32⟩
  | 51 => ⟨S1x128, .f32⟩
  | 52 => ⟨S5000x128, .f32⟩
  | 53 => ⟨S5000x128, .f32⟩
  | 54 => ⟨S5000x128, .f32⟩
  | 55 => ⟨S5000x128, .f32⟩
  | 56 => ⟨S5000x128, .f32⟩
  | 57 => ⟨S5000x128, .f32⟩
  | 58 => ⟨S5000x128, .f32⟩
  | 59 => ⟨S5000x128, .f32⟩
  | 60 => ⟨S5000x128, .f32⟩
  | 61 => ⟨S5000x128, .f32⟩
  | 62 => ⟨S5000x1, .f32⟩
  | 63 => ⟨S5000x1, .f32⟩
  | 64 => ⟨S128x128, .f32⟩
  | 65 => ⟨S5000x128, .f32⟩
  | 66 => ⟨S5000x128, .f32⟩
  | 67 => ⟨S5000x128, .f32⟩
  | 68 => ⟨S5000x128, .f32⟩
  | 69 => ⟨S5000x1, .f32⟩
  | 70 => ⟨S5000x1, .f32⟩
  | 71 => ⟨S1x128, .f32⟩
  | 72 => ⟨S5000x128, .f32⟩
  | 73 => ⟨S5000x128, .f32⟩
  | 74 => ⟨S5000x128, .f32⟩
  | 75 => ⟨S5000x128, .f32⟩
  | 76 => ⟨S5000x1, .f32⟩
  | 77 => ⟨S5000x1, .f32⟩
  | 78 => ⟨S128x128, .f32⟩
  | 79 => ⟨S5000x128, .f32⟩
  | 80 => ⟨S5000x128, .f32⟩
  | 81 => ⟨S5000x128, .f32⟩
  | 82 => ⟨S5000x128, .f32⟩
  | 83 => ⟨S5000x1, .f32⟩
  | 84 => ⟨S5000x1, .f32⟩
  | 85 => ⟨S1x128, .f32⟩
  | 86 => ⟨S5000x128, .f32⟩
  | 87 => ⟨S5000x128, .f32⟩
  | 88 => ⟨S5000x128, .f32⟩
  | 89 => ⟨S5000x128, .f32⟩
  | 90 => ⟨S5000x1, .f32⟩
  | 91 => ⟨S5000x1, .f32⟩
  | 92 => ⟨S128x128, .f32⟩
  | 93 => ⟨S5000x128, .f32⟩
  | 94 => ⟨S5000x128, .f32⟩
  | 95 => ⟨S5000x128, .f32⟩
  | 96 => ⟨S5000x128, .f32⟩
  | 97 => ⟨S5000x1, .f32⟩
  | 98 => ⟨S5000x1, .f32⟩
  | 99 => ⟨S1x128, .f32⟩
  | 100 => ⟨S5000x128, .f32⟩
  | 101 => ⟨S5000x128, .f32⟩
  | 102 => ⟨S5000x128, .f32⟩
  | 103 => ⟨S5000x128, .f32⟩
  | 104 => ⟨S128x128, .f32⟩
  | 105 => ⟨S1x128, .f32⟩
  | 106 => ⟨S5000x128, .f32⟩
  | 107 => ⟨S5000x128, .f32⟩
  | 108 => ⟨S5000x128, .f32⟩
  | 109 => ⟨S5000x128, .f32⟩
  | 110 => ⟨S1x128, .f32⟩
  | 111 => ⟨S1x128, .f32⟩
  | 112 => ⟨S5000x128, .f32⟩
  | 113 => ⟨S5000x128, .f32⟩
  | 114 => ⟨S1x128, .f32⟩
  | 115 => ⟨S1x128, .f32⟩
  | 116 => ⟨S5000x128, .f32⟩
  | 117 => ⟨S5000x128, .f32⟩
  | 118 => ⟨S1x128, .f32⟩
  | 119 => ⟨S1x128, .f32⟩
  | 120 => ⟨S128x2, .f32⟩
  | 121 => ⟨S1x2, .f32⟩
  | 122 => ⟨S5000x128, .f32⟩
  | 123 => ⟨S5000x128, .f32⟩
  | 124 => ⟨S5000x2, .f32⟩
  | 125 => ⟨S5000x2, .f32⟩
  | 126 => ⟨S5000x128, .f32⟩
  | 127 => ⟨S5000x128, .f32⟩
  | _ => ⟨S50000x128, .f32⟩

abbrev vmemTy0_1 (i : Nat) : BufTy := match i % 128 with
  | 0 => ⟨S1x128, .f32⟩
  | 1 => ⟨S1x128, .f32⟩
  | 2 => ⟨S128x2, .f32⟩
  | 3 => ⟨S1x2, .f32⟩
  | 4 => ⟨S5000x128, .f32⟩
  | 5 => ⟨S5000x128, .f32⟩
  | 6 => ⟨S5000x2, .f32⟩
  | 7 => ⟨S5000x2, .f32⟩
  | _ => ⟨S50000x128, .f32⟩

abbrev vmemTy (i : Nat) : BufTy := match i / 128 with
  | 0 => vmemTy0_0 i
  | 1 => vmemTy0_1 i
  | _ => ⟨S50000x128, .f32⟩

abbrev bufTy : (tb : Table) → Fin (tcTables nBuf tb) → BufTy
  | .hbm, ⟨i, _⟩ => hbmTy i
  | .local _ .vmem, ⟨i, _⟩ => vmemTy i
  | _, _ => ⟨S50000x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 136 → Bool
  | ⟨i, _⟩ => dmaSemScopedAt i

abbrev sig : RefSig :=
  ofTc nBuf bufTy 0 136 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_cst_0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst_1 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst_2 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_3 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c : Ref sig .tc := ⟨.hbm, 44, rfl⟩
abbrev main_v21 : Ref sig .tc := ⟨.hbm, 45, rfl⟩
abbrev main_v22 : Ref sig .tc := ⟨.hbm, 46, rfl⟩
abbrev main_c_4 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_5 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_c_6 : Ref sig .tc := ⟨.hbm, 59, rfl⟩
abbrev main_v33 : Ref sig .tc := ⟨.hbm, 60, rfl⟩
abbrev main_v34 : Ref sig .tc := ⟨.hbm, 61, rfl⟩
abbrev main_c_7 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_8 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_c_9 : Ref sig .tc := ⟨.hbm, 74, rfl⟩
abbrev main_v45 : Ref sig .tc := ⟨.hbm, 75, rfl⟩
abbrev main_v46 : Ref sig .tc := ⟨.hbm, 76, rfl⟩
abbrev main_c_10 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_11 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_12 : Ref sig .tc := ⟨.hbm, 89, rfl⟩
abbrev main_v57 : Ref sig .tc := ⟨.hbm, 90, rfl⟩
abbrev main_cst_13 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_14 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_15 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_16 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_c_17 : Ref sig .tc := ⟨.hbm, 115, rfl⟩
abbrev main_v78 : Ref sig .tc := ⟨.hbm, 116, rfl⟩
abbrev main_v79 : Ref sig .tc := ⟨.hbm, 117, rfl⟩
abbrev main_c_18 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_cst_19 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_c_20 : Ref sig .tc := ⟨.hbm, 130, rfl⟩
abbrev main_v90 : Ref sig .tc := ⟨.hbm, 131, rfl⟩
abbrev main_v91 : Ref sig .tc := ⟨.hbm, 132, rfl⟩
abbrev main_c_21 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_cst_22 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_c_23 : Ref sig .tc := ⟨.hbm, 145, rfl⟩
abbrev main_v102 : Ref sig .tc := ⟨.hbm, 146, rfl⟩
abbrev main_v103 : Ref sig .tc := ⟨.hbm, 147, rfl⟩
abbrev main_c_24 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_cst_25 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115_0 : Ref sig .tc := ⟨.hbm, 161, rfl⟩
abbrev main_v115_1 : Ref sig .tc := ⟨.hbm, 162, rfl⟩
abbrev main_cst_26 : Ref sig .tc := ⟨.hbm, 163, rfl⟩
abbrev main_v116 : Ref sig .tc := ⟨.hbm, 164, rfl⟩
abbrev main_v117 : Ref sig .tc := ⟨.hbm, 165, rfl⟩
abbrev main_cst_27 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_cst_28 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125_0 : Ref sig .tc := ⟨.hbm, 175, rfl⟩
abbrev main_v125_1 : Ref sig .tc := ⟨.hbm, 176, rfl⟩
abbrev main_cst_29 : Ref sig .tc := ⟨.hbm, 177, rfl⟩
abbrev main_v126 : Ref sig .tc := ⟨.hbm, 178, rfl⟩
abbrev main_v127 : Ref sig .tc := ⟨.hbm, 179, rfl⟩
abbrev main_cst_30 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_cst_31 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135_0 : Ref sig .tc := ⟨.hbm, 189, rfl⟩
abbrev main_v135_1 : Ref sig .tc := ⟨.hbm, 190, rfl⟩
abbrev main_v136_0 : Ref sig .tc := ⟨.hbm, 191, rfl⟩
abbrev main_v136_1 : Ref sig .tc := ⟨.hbm, 192, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg3_1 : Ref sig .tc := ⟨.vmem, 40, rfl⟩
abbrev cc6_stg0_0 : Ref sig .tc := ⟨.vmem, 41, rfl⟩
abbrev cc6_stg0_1 : Ref sig .tc := ⟨.vmem, 42, rfl⟩
abbrev cc6_stg1_0 : Ref sig .tc := ⟨.vmem, 43, rfl⟩
abbrev cc6_stg1_1 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg3_1 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg2_0 : Ref sig .tc := ⟨.vmem, 51, rfl⟩
abbrev cc7_stg3_0 : Ref sig .tc := ⟨.vmem, 52, rfl⟩
abbrev cc7_stg3_1 : Ref sig .tc := ⟨.vmem, 53, rfl⟩
abbrev cc8_stg0_0 : Ref sig .tc := ⟨.vmem, 54, rfl⟩
abbrev cc8_stg0_1 : Ref sig .tc := ⟨.vmem, 55, rfl⟩
abbrev cc8_stg1_0 : Ref sig .tc := ⟨.vmem, 56, rfl⟩
abbrev cc8_stg1_1 : Ref sig .tc := ⟨.vmem, 57, rfl⟩
abbrev cc8_stg2_0 : Ref sig .tc := ⟨.vmem, 58, rfl⟩
abbrev cc8_stg2_1 : Ref sig .tc := ⟨.vmem, 59, rfl⟩
abbrev cc9_stg0_0 : Ref sig .tc := ⟨.vmem, 60, rfl⟩
abbrev cc9_stg0_1 : Ref sig .tc := ⟨.vmem, 61, rfl⟩
abbrev cc9_stg1_0 : Ref sig .tc := ⟨.vmem, 62, rfl⟩
abbrev cc9_stg1_1 : Ref sig .tc := ⟨.vmem, 63, rfl⟩
abbrev cc9_stg2_0 : Ref sig .tc := ⟨.vmem, 64, rfl⟩
abbrev cc9_stg3_0 : Ref sig .tc := ⟨.vmem, 65, rfl⟩
abbrev cc9_stg3_1 : Ref sig .tc := ⟨.vmem, 66, rfl⟩
abbrev cc10_stg0_0 : Ref sig .tc := ⟨.vmem, 67, rfl⟩
abbrev cc10_stg0_1 : Ref sig .tc := ⟨.vmem, 68, rfl⟩
abbrev cc10_stg1_0 : Ref sig .tc := ⟨.vmem, 69, rfl⟩
abbrev cc10_stg1_1 : Ref sig .tc := ⟨.vmem, 70, rfl⟩
abbrev cc10_stg2_0 : Ref sig .tc := ⟨.vmem, 71, rfl⟩
abbrev cc10_stg3_0 : Ref sig .tc := ⟨.vmem, 72, rfl⟩
abbrev cc10_stg3_1 : Ref sig .tc := ⟨.vmem, 73, rfl⟩
abbrev cc11_stg0_0 : Ref sig .tc := ⟨.vmem, 74, rfl⟩
abbrev cc11_stg0_1 : Ref sig .tc := ⟨.vmem, 75, rfl⟩
abbrev cc11_stg1_0 : Ref sig .tc := ⟨.vmem, 76, rfl⟩
abbrev cc11_stg1_1 : Ref sig .tc := ⟨.vmem, 77, rfl⟩
abbrev cc11_stg2_0 : Ref sig .tc := ⟨.vmem, 78, rfl⟩
abbrev cc11_stg3_0 : Ref sig .tc := ⟨.vmem, 79, rfl⟩
abbrev cc11_stg3_1 : Ref sig .tc := ⟨.vmem, 80, rfl⟩
abbrev cc12_stg0_0 : Ref sig .tc := ⟨.vmem, 81, rfl⟩
abbrev cc12_stg0_1 : Ref sig .tc := ⟨.vmem, 82, rfl⟩
abbrev cc12_stg1_0 : Ref sig .tc := ⟨.vmem, 83, rfl⟩
abbrev cc12_stg1_1 : Ref sig .tc := ⟨.vmem, 84, rfl⟩
abbrev cc12_stg2_0 : Ref sig .tc := ⟨.vmem, 85, rfl⟩
abbrev cc12_stg3_0 : Ref sig .tc := ⟨.vmem, 86, rfl⟩
abbrev cc12_stg3_1 : Ref sig .tc := ⟨.vmem, 87, rfl⟩
abbrev cc13_stg0_0 : Ref sig .tc := ⟨.vmem, 88, rfl⟩
abbrev cc13_stg0_1 : Ref sig .tc := ⟨.vmem, 89, rfl⟩
abbrev cc13_stg1_0 : Ref sig .tc := ⟨.vmem, 90, rfl⟩
abbrev cc13_stg1_1 : Ref sig .tc := ⟨.vmem, 91, rfl⟩
abbrev cc13_stg2_0 : Ref sig .tc := ⟨.vmem, 92, rfl⟩
abbrev cc13_stg3_0 : Ref sig .tc := ⟨.vmem, 93, rfl⟩
abbrev cc13_stg3_1 : Ref sig .tc := ⟨.vmem, 94, rfl⟩
abbrev cc14_stg0_0 : Ref sig .tc := ⟨.vmem, 95, rfl⟩
abbrev cc14_stg0_1 : Ref sig .tc := ⟨.vmem, 96, rfl⟩
abbrev cc14_stg1_0 : Ref sig .tc := ⟨.vmem, 97, rfl⟩
abbrev cc14_stg1_1 : Ref sig .tc := ⟨.vmem, 98, rfl⟩
abbrev cc14_stg2_0 : Ref sig .tc := ⟨.vmem, 99, rfl⟩
abbrev cc14_stg3_0 : Ref sig .tc := ⟨.vmem, 100, rfl⟩
abbrev cc14_stg3_1 : Ref sig .tc := ⟨.vmem, 101, rfl⟩
abbrev cc15_stg0_0 : Ref sig .tc := ⟨.vmem, 102, rfl⟩
abbrev cc15_stg0_1 : Ref sig .tc := ⟨.vmem, 103, rfl⟩
abbrev cc15_stg1_0 : Ref sig .tc := ⟨.vmem, 104, rfl⟩
abbrev cc15_stg2_0 : Ref sig .tc := ⟨.vmem, 105, rfl⟩
abbrev cc15_stg3_0 : Ref sig .tc := ⟨.vmem, 106, rfl⟩
abbrev cc15_stg3_1 : Ref sig .tc := ⟨.vmem, 107, rfl⟩
abbrev cc16_stg0_0 : Ref sig .tc := ⟨.vmem, 108, rfl⟩
abbrev cc16_stg0_1 : Ref sig .tc := ⟨.vmem, 109, rfl⟩
abbrev cc16_stg1_0 : Ref sig .tc := ⟨.vmem, 110, rfl⟩
abbrev cc16_stg2_0 : Ref sig .tc := ⟨.vmem, 111, rfl⟩
abbrev cc17_stg0_0 : Ref sig .tc := ⟨.vmem, 112, rfl⟩
abbrev cc17_stg0_1 : Ref sig .tc := ⟨.vmem, 113, rfl⟩
abbrev cc17_stg1_0 : Ref sig .tc := ⟨.vmem, 114, rfl⟩
abbrev cc17_stg2_0 : Ref sig .tc := ⟨.vmem, 115, rfl⟩
abbrev cc18_stg0_0 : Ref sig .tc := ⟨.vmem, 116, rfl⟩
abbrev cc18_stg0_1 : Ref sig .tc := ⟨.vmem, 117, rfl⟩
abbrev cc18_stg1_0 : Ref sig .tc := ⟨.vmem, 118, rfl⟩
abbrev cc18_stg2_0 : Ref sig .tc := ⟨.vmem, 119, rfl⟩
abbrev cc18_stg3_0 : Ref sig .tc := ⟨.vmem, 120, rfl⟩
abbrev cc18_stg4_0 : Ref sig .tc := ⟨.vmem, 121, rfl⟩
abbrev cc18_stg5_0 : Ref sig .tc := ⟨.vmem, 122, rfl⟩
abbrev cc18_stg5_1 : Ref sig .tc := ⟨.vmem, 123, rfl⟩
abbrev cc18_stg6_0 : Ref sig .tc := ⟨.vmem, 124, rfl⟩
abbrev cc18_stg6_1 : Ref sig .tc := ⟨.vmem, 125, rfl⟩
abbrev cc19_stg0_0 : Ref sig .tc := ⟨.vmem, 126, rfl⟩
abbrev cc19_stg0_1 : Ref sig .tc := ⟨.vmem, 127, rfl⟩
abbrev cc19_stg1_0 : Ref sig .tc := ⟨.vmem, 128, rfl⟩
abbrev cc19_stg2_0 : Ref sig .tc := ⟨.vmem, 129, rfl⟩
abbrev cc19_stg3_0 : Ref sig .tc := ⟨.vmem, 130, rfl⟩
abbrev cc19_stg4_0 : Ref sig .tc := ⟨.vmem, 131, rfl⟩
abbrev cc19_stg5_0 : Ref sig .tc := ⟨.vmem, 132, rfl⟩
abbrev cc19_stg5_1 : Ref sig .tc := ⟨.vmem, 133, rfl⟩
abbrev cc19_stg6_0 : Ref sig .tc := ⟨.vmem, 134, rfl⟩
abbrev cc19_stg6_1 : Ref sig .tc := ⟨.vmem, 135, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem3_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem3_0 : DmaSem sig := 32
abbrev cc4_sem3_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem3_0 : DmaSem sig := 39
abbrev cc5_sem3_1 : DmaSem sig := 40
abbrev cc6_sem0_0 : DmaSem sig := 41
abbrev cc6_sem0_1 : DmaSem sig := 42
abbrev cc6_sem1_0 : DmaSem sig := 43
abbrev cc6_sem1_1 : DmaSem sig := 44
abbrev cc6_sem2_0 : DmaSem sig := 45
abbrev cc6_sem3_0 : DmaSem sig := 46
abbrev cc6_sem3_1 : DmaSem sig := 47
abbrev cc7_sem0_0 : DmaSem sig := 48
abbrev cc7_sem0_1 : DmaSem sig := 49
abbrev cc7_sem1_0 : DmaSem sig := 50
abbrev cc7_sem2_0 : DmaSem sig := 51
abbrev cc7_sem3_0 : DmaSem sig := 52
abbrev cc7_sem3_1 : DmaSem sig := 53
abbrev cc8_sem0_0 : DmaSem sig := 54
abbrev cc8_sem0_1 : DmaSem sig := 55
abbrev cc8_sem1_0 : DmaSem sig := 56
abbrev cc8_sem1_1 : DmaSem sig := 57
abbrev cc8_sem2_0 : DmaSem sig := 58
abbrev cc8_sem2_1 : DmaSem sig := 59
abbrev cc9_sem0_0 : DmaSem sig := 60
abbrev cc9_sem0_1 : DmaSem sig := 61
abbrev cc9_sem1_0 : DmaSem sig := 62
abbrev cc9_sem1_1 : DmaSem sig := 63
abbrev cc9_sem2_0 : DmaSem sig := 64
abbrev cc9_sem3_0 : DmaSem sig := 65
abbrev cc9_sem3_1 : DmaSem sig := 66
abbrev cc10_sem0_0 : DmaSem sig := 67
abbrev cc10_sem0_1 : DmaSem sig := 68
abbrev cc10_sem1_0 : DmaSem sig := 69
abbrev cc10_sem1_1 : DmaSem sig := 70
abbrev cc10_sem2_0 : DmaSem sig := 71
abbrev cc10_sem3_0 : DmaSem sig := 72
abbrev cc10_sem3_1 : DmaSem sig := 73
abbrev cc11_sem0_0 : DmaSem sig := 74
abbrev cc11_sem0_1 : DmaSem sig := 75
abbrev cc11_sem1_0 : DmaSem sig := 76
abbrev cc11_sem1_1 : DmaSem sig := 77
abbrev cc11_sem2_0 : DmaSem sig := 78
abbrev cc11_sem3_0 : DmaSem sig := 79
abbrev cc11_sem3_1 : DmaSem sig := 80
abbrev cc12_sem0_0 : DmaSem sig := 81
abbrev cc12_sem0_1 : DmaSem sig := 82
abbrev cc12_sem1_0 : DmaSem sig := 83
abbrev cc12_sem1_1 : DmaSem sig := 84
abbrev cc12_sem2_0 : DmaSem sig := 85
abbrev cc12_sem3_0 : DmaSem sig := 86
abbrev cc12_sem3_1 : DmaSem sig := 87
abbrev cc13_sem0_0 : DmaSem sig := 88
abbrev cc13_sem0_1 : DmaSem sig := 89
abbrev cc13_sem1_0 : DmaSem sig := 90
abbrev cc13_sem1_1 : DmaSem sig := 91
abbrev cc13_sem2_0 : DmaSem sig := 92
abbrev cc13_sem3_0 : DmaSem sig := 93
abbrev cc13_sem3_1 : DmaSem sig := 94
abbrev cc14_sem0_0 : DmaSem sig := 95
abbrev cc14_sem0_1 : DmaSem sig := 96
abbrev cc14_sem1_0 : DmaSem sig := 97
abbrev cc14_sem1_1 : DmaSem sig := 98
abbrev cc14_sem2_0 : DmaSem sig := 99
abbrev cc14_sem3_0 : DmaSem sig := 100
abbrev cc14_sem3_1 : DmaSem sig := 101
abbrev cc15_sem0_0 : DmaSem sig := 102
abbrev cc15_sem0_1 : DmaSem sig := 103
abbrev cc15_sem1_0 : DmaSem sig := 104
abbrev cc15_sem2_0 : DmaSem sig := 105
abbrev cc15_sem3_0 : DmaSem sig := 106
abbrev cc15_sem3_1 : DmaSem sig := 107
abbrev cc16_sem0_0 : DmaSem sig := 108
abbrev cc16_sem0_1 : DmaSem sig := 109
abbrev cc16_sem1_0 : DmaSem sig := 110
abbrev cc16_sem2_0 : DmaSem sig := 111
abbrev cc17_sem0_0 : DmaSem sig := 112
abbrev cc17_sem0_1 : DmaSem sig := 113
abbrev cc17_sem1_0 : DmaSem sig := 114
abbrev cc17_sem2_0 : DmaSem sig := 115
abbrev cc18_sem0_0 : DmaSem sig := 116
abbrev cc18_sem0_1 : DmaSem sig := 117
abbrev cc18_sem1_0 : DmaSem sig := 118
abbrev cc18_sem2_0 : DmaSem sig := 119
abbrev cc18_sem3_0 : DmaSem sig := 120
abbrev cc18_sem4_0 : DmaSem sig := 121
abbrev cc18_sem5_0 : DmaSem sig := 122
abbrev cc18_sem5_1 : DmaSem sig := 123
abbrev cc18_sem6_0 : DmaSem sig := 124
abbrev cc18_sem6_1 : DmaSem sig := 125
abbrev cc19_sem0_0 : DmaSem sig := 126
abbrev cc19_sem0_1 : DmaSem sig := 127
abbrev cc19_sem1_0 : DmaSem sig := 128
abbrev cc19_sem2_0 : DmaSem sig := 129
abbrev cc19_sem3_0 : DmaSem sig := 130
abbrev cc19_sem4_0 : DmaSem sig := 131
abbrev cc19_sem5_0 : DmaSem sig := 132
abbrev cc19_sem5_1 : DmaSem sig := 133
abbrev cc19_sem6_0 : DmaSem sig := 134
abbrev cc19_sem6_1 : DmaSem sig := 135

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S5000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x1 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S128x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S5000x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S5000x1 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S5000x128 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S5000x1 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S128x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S5000x128 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S5000x1 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S1x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 2 → Memref sig .tc .vmem S5000x128 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev grid13 : Pipeline.Grid := ⟨1, ![10], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S5000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S5000x1 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S128x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 2 → Memref sig .tc .vmem S5000x128 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true]

abbrev grid14 : Pipeline.Grid := ⟨1, ![10], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S5000x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S5000x1 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 1 → Memref sig .tc .vmem S1x128 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 2 → Memref sig .tc .vmem S5000x128 .f32 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true]

abbrev grid15 : Pipeline.Grid := ⟨1, ![10], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S5000x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S128x128 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x128 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 2 → Memref sig .tc .vmem S5000x128 .f32 := fun | 0 => Memref.whole cc15_stg3_0 | 1 => Memref.whole cc15_stg3_1 | ⟨_ + 2, h⟩ => absurd h (Nat.not_lt.2 (Nat.le_add_left _ _))
abbrev sem15_3 : Fin 2 → DmaSem sig := fun | 0 => cc15_sem3_0 | 1 => cc15_sem3_1 | ⟨_ + 2, h⟩ => absurd h (Nat.not_lt.2 (Nat.le_add_left _ _))
abbrev reads15_3 : Fin grid15.rank → Bool := ![true]

abbrev grid16 : Pipeline.Grid := ⟨1, ![10], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage16_0 : Fin 2 → Memref sig .tc .vmem S5000x128 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 1 → Memref sig .tc .vmem S1x128 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 1 → Memref sig .tc .vmem S1x128 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev grid17 : Pipeline.Grid := ⟨1, ![10], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage17_0 : Fin 2 → Memref sig .tc .vmem S5000x128 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 1 → Memref sig .tc .vmem S1x128 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 1 → Memref sig .tc .vmem S1x128 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![false]

abbrev grid18 : Pipeline.Grid := ⟨1, ![10], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_2 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_3 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_4 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_5 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_6 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S5000x128 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 1 → Memref sig .tc .vmem S1x128 .f32 := fun | 0 => Memref.whole cc18_stg1_0 | ⟨_ + 1, h⟩ => absurd h (Nat.not_lt.2 (Nat.le_add_left _ _))
abbrev sem18_1 : Fin 1 → DmaSem sig := fun | 0 => cc18_sem1_0 | ⟨_ + 1, h⟩ => absurd h (Nat.not_lt.2 (Nat.le_add_left _ _))
abbrev reads18_1 : Fin grid18.rank → Bool := ![false]

abbrev stage18_2 : Fin 1 → Memref sig .tc .vmem S1x128 .f32 := fun | 0 => Memref.whole cc18_stg2_0 | ⟨_ + 1, h⟩ => absurd h (Nat.not_lt.2 (Nat.le_add_left _ _))
abbrev sem18_2 : Fin 1 → DmaSem sig := fun | 0 => cc18_sem2_0 | ⟨_ + 1, h⟩ => absurd h (Nat.not_lt.2 (Nat.le_add_left _ _))
abbrev reads18_2 : Fin grid18.rank → Bool := ![false]

abbrev stage18_3 : Fin 1 → Memref sig .tc .vmem S128x2 .f32 := fun | 0 => Memref.whole cc18_stg3_0 | ⟨_ + 1, h⟩ => absurd h (Nat.not_lt.2 (Nat.le_add_left _ _))
abbrev sem18_3 : Fin 1 → DmaSem sig := fun | 0 => cc18_sem3_0 | ⟨_ + 1, h⟩ => absurd h (Nat.not_lt.2 (Nat.le_add_left _ _))
abbrev reads18_3 : Fin grid18.rank → Bool := ![false]

abbrev stage18_4 : Fin 1 → Memref sig .tc .vmem S1x2 .f32 := fun | 0 => Memref.whole cc18_stg4_0 | ⟨_ + 1, h⟩ => absurd h (Nat.not_lt.2 (Nat.le_add_left _ _))
abbrev sem18_4 : Fin 1 → DmaSem sig := fun | 0 => cc18_sem4_0 | ⟨_ + 1, h⟩ => absurd h (Nat.not_lt.2 (Nat.le_add_left _ _))
abbrev reads18_4 : Fin grid18.rank → Bool := ![false]

abbrev stage18_5 : Fin 2 → Memref sig .tc .vmem S5000x128 .f32 := fun | 0 => Memref.whole cc18_stg5_0 | 1 => Memref.whole cc18_stg5_1 | ⟨_ + 2, h⟩ => absurd h (Nat.not_lt.2 (Nat.le_add_left _ _))
abbrev sem18_5 : Fin 2 → DmaSem sig := fun | 0 => cc18_sem5_0 | 1 => cc18_sem5_1 | ⟨_ + 2, h⟩ => absurd h (Nat.not_lt.2 (Nat.le_add_left _ _))
abbrev reads18_5 : Fin grid18.rank → Bool := ![true]

abbrev stage18_6 : Fin 2 → Memref sig .tc .vmem S5000x2 .f32 := fun | 0 => Memref.whole cc18_stg6_0 | 1 => Memref.whole cc18_stg6_1 | ⟨_ + 2, h⟩ => absurd h (Nat.not_lt.2 (Nat.le_add_left _ _))
abbrev sem18_6 : Fin 2 → DmaSem sig := fun | 0 => cc18_sem6_0 | 1 => cc18_sem6_1 | ⟨_ + 2, h⟩ => absurd h (Nat.not_lt.2 (Nat.le_add_left _ _))
abbrev reads18_6 : Fin grid18.rank → Bool := ![true]

abbrev grid19 : Pipeline.Grid := ⟨1, ![10], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_2 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_3 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_4 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_5 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_6 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S5000x128 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 1 → Memref sig .tc .vmem S1x128 .f32 := fun | 0 => Memref.whole cc19_stg1_0 | ⟨_ + 1, h⟩ => absurd h (Nat.not_lt.2 (Nat.le_add_left _ _))
abbrev sem19_1 : Fin 1 → DmaSem sig := fun | 0 => cc19_sem1_0 | ⟨_ + 1, h⟩ => absurd h (Nat.not_lt.2 (Nat.le_add_left _ _))
abbrev reads19_1 : Fin grid19.rank → Bool := ![false]

abbrev stage19_2 : Fin 1 → Memref sig .tc .vmem S1x128 .f32 := fun | 0 => Memref.whole cc19_stg2_0 | ⟨_ + 1, h⟩ => absurd h (Nat.not_lt.2 (Nat.le_add_left _ _))
abbrev sem19_2 : Fin 1 → DmaSem sig := fun | 0 => cc19_sem2_0 | ⟨_ + 1, h⟩ => absurd h (Nat.not_lt.2 (Nat.le_add_left _ _))
abbrev reads19_2 : Fin grid19.rank → Bool := ![false]

abbrev stage19_3 : Fin 1 → Memref sig .tc .vmem S128x2 .f32 := fun | 0 => Memref.whole cc19_stg3_0 | ⟨_ + 1, h⟩ => absurd h (Nat.not_lt.2 (Nat.le_add_left _ _))
abbrev sem19_3 : Fin 1 → DmaSem sig := fun | 0 => cc19_sem3_0 | ⟨_ + 1, h⟩ => absurd h (Nat.not_lt.2 (Nat.le_add_left _ _))
abbrev reads19_3 : Fin grid19.rank → Bool := ![false]

abbrev stage19_4 : Fin 1 → Memref sig .tc .vmem S1x2 .f32 := fun | 0 => Memref.whole cc19_stg4_0 | ⟨_ + 1, h⟩ => absurd h (Nat.not_lt.2 (Nat.le_add_left _ _))
abbrev sem19_4 : Fin 1 → DmaSem sig := fun | 0 => cc19_sem4_0 | ⟨_ + 1, h⟩ => absurd h (Nat.not_lt.2 (Nat.le_add_left _ _))
abbrev reads19_4 : Fin grid19.rank → Bool := ![false]

abbrev stage19_5 : Fin 2 → Memref sig .tc .vmem S5000x128 .f32 := fun | 0 => Memref.whole cc19_stg5_0 | 1 => Memref.whole cc19_stg5_1 | ⟨_ + 2, h⟩ => absurd h (Nat.not_lt.2 (Nat.le_add_left _ _))
abbrev sem19_5 : Fin 2 → DmaSem sig := fun | 0 => cc19_sem5_0 | 1 => cc19_sem5_1 | ⟨_ + 2, h⟩ => absurd h (Nat.not_lt.2 (Nat.le_add_left _ _))
abbrev reads19_5 : Fin grid19.rank → Bool := ![true]

abbrev stage19_6 : Fin 2 → Memref sig .tc .vmem S5000x2 .f32 := fun | 0 => Memref.whole cc19_stg6_0 | 1 => Memref.whole cc19_stg6_1 | ⟨_ + 2, h⟩ => absurd h (Nat.not_lt.2 (Nat.le_add_left _ _))
abbrev sem19_6 : Fin 2 → DmaSem sig := fun | 0 => cc19_sem6_0 | 1 => cc19_sem6_1 | ⟨_ + 2, h⟩ => absurd h (Nat.not_lt.2 (Nat.le_add_left _ _))
abbrev reads19_6 : Fin grid19.rank → Bool := ![true]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  natLt_1_32 : 1 < 32
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S50000x128 : S_.BroadcastsInDim S50000x128 (![] : Fin 0 → Fin S50000x128.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S2_S1x2 : S2.ShapeCasts S1x2
  reduces_S5000x128_S128 : S5000x128.Reduces [0] S128
  bcast_S_S1x128 : S_.BroadcastsInDim S1x128 (![] : Fin 0 → Fin S1x128.rank)
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S50000_S600000x1_S600000_n_0_0_1_wf : ScatterDims.WF S50000 S600000x1 S600000 [] [0] [0] 1
  dot_S5000x128_S128x128_S5000x128_1_0_0_1_n_n_wf : DotDims.WF S5000x128 S128x128 S5000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x2_S5000x2_1_0_0_1_n_n_wf : DotDims.WF S5000x128 S128x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S50000x1.size a
  hwx4_1 : ∀ i : grid4.Coords, EltTy.bits .f32 = 32 ∨ (Rect.block (s := S50000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S50000x128.size a
  hwx4_3 : ∀ i : grid4.Coords, EltTy.bits .f32 = 32 ∨ (Rect.block (s := S50000x128) S5000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S50000x1.size a
  hwx5_1 : ∀ i : grid5.Coords, EltTy.bits .f32 = 32 ∨ (Rect.block (s := S50000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S50000x128.size a
  hwx5_3 : ∀ i : grid5.Coords, EltTy.bits .f32 = 32 ∨ (Rect.block (s := S50000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S50000x1.size a
  hwx6_1 : ∀ i : grid6.Coords, EltTy.bits .f32 = 32 ∨ (Rect.block (s := S50000x1) S5000x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S50000x128.size a
  hwx6_3 : ∀ i : grid6.Coords, EltTy.bits .f32 = 32 ∨ (Rect.block (s := S50000x128) S5000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x128.size a ≤ S50000x128.size a
  hwx7_3 : ∀ i : grid7.Coords, EltTy.bits .f32 = 32 ∨ (Rect.block (s := S50000x128) S5000x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S50000x128.size a
  hwx8_1 : ∀ i : grid8.Coords, EltTy.bits .f32 = 32 ∨ (Rect.block (s := S50000x128) S5000x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x128.size a ≤ S50000x128.size a
  hwx8_2 : ∀ i : grid8.Coords, EltTy.bits .f32 = 32 ∨ (Rect.block (s := S50000x128) S5000x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x1.size a ≤ S50000x1.size a
  hwx9_1 : ∀ i : grid9.Coords, EltTy.bits .f32 = 32 ∨ (Rect.block (s := S50000x1) S5000x1.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S128x128.size a ≤ S128x128.size a
  hwx9_2 : ∀ i : grid9.Coords, EltTy.bits .f32 = 32 ∨ (Rect.block (s := S128x128) S128x128.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x128.size a ≤ S50000x128.size a
  hwx9_3 : ∀ i : grid9.Coords, EltTy.bits .f32 = 32 ∨ (Rect.block (s := S50000x128) S5000x128.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S50000x128.size a
  hwx10_0 : ∀ i : grid10.Coords, EltTy.bits .f32 = 32 ∨ (Rect.block (s := S50000x128) S5000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x1.size a ≤ S50000x1.size a
  hwx10_1 : ∀ i : grid10.Coords, EltTy.bits .f32 = 32 ∨ (Rect.block (s := S50000x1) S5000x1.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S5000x128.size a ≤ S50000x128.size a
  hwx10_3 : ∀ i : grid10.Coords, EltTy.bits .f32 = 32 ∨ (Rect.block (s := S50000x128) S5000x128.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S50000x128.size a
  hwx11_0 : ∀ i : grid11.Coords, EltTy.bits .f32 = 32 ∨ (Rect.block (s := S50000x128) S5000x128.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S5000x1.size a ≤ S50000x1.size a
  hwx11_1 : ∀ i : grid11.Coords, EltTy.bits .f32 = 32 ∨ (Rect.block (s := S50000x1) S5000x1.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S128x128.size a ≤ S128x128.size a
  hwx11_2 : ∀ i : grid11.Coords, EltTy.bits .f32 = 32 ∨ (Rect.block (s := S128x128) S128x128.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S5000x128.size a ≤ S50000x128.size a
  hwx11_3 : ∀ i : grid11.Coords, EltTy.bits .f32 = 32 ∨ (Rect.block (s := S50000x128) S5000x128.size (cc11_transform_3 i) (hinb11_3 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x128.size a ≤ S50000x128.size a
  hwx12_0 : ∀ i : grid12.Coords, EltTy.bits .f32 = 32 ∨ (Rect.block (s := S50000x128) S5000x128.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S5000x1.size a ≤ S50000x1.size a
  hwx12_1 : ∀ i : grid12.Coords, EltTy.bits .f32 = 32 ∨ (Rect.block (s := S50000x1) S5000x1.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x128.size a ≤ S1x128.size a
  hwx12_2 : ∀ i : grid12.Coords, EltTy.bits .f32 = 32 ∨ (Rect.block (s := S1x128) S1x128.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S5000x128.size a ≤ S50000x128.size a
  hwx12_3 : ∀ i : grid12.Coords, EltTy.bits .f32 = 32 ∨ (Rect.block (s := S50000x128) S5000x128.size (cc12_transform_3 i) (hinb12_3 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x128.size a ≤ S50000x128.size a
  hwx13_0 : ∀ i : grid13.Coords, EltTy.bits .f32 = 32 ∨ (Rect.block (s := S50000x128) S5000x128.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S5000x1.size a ≤ S50000x1.size a
  hwx13_1 : ∀ i : grid13.Coords, EltTy.bits .f32 = 32 ∨ (Rect.block (s := S50000x1) S5000x1.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S128x128.size a ≤ S128x128.size a
  hwx13_2 : ∀ i : grid13.Coords, EltTy.bits .f32 = 32 ∨ (Rect.block (s := S128x128) S128x128.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S5000x128.size a ≤ S50000x128.size a
  hwx13_3 : ∀ i : grid13.Coords, EltTy.bits .f32 = 32 ∨ (Rect.block (s := S50000x128) S5000x128.size (cc13_transform_3 i) (hinb13_3 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S5000x128.size a ≤ S50000x128.size a
  hwx14_0 : ∀ i : grid14.Coords, EltTy.bits .f32 = 32 ∨ (Rect.block (s := S50000x128) S5000x128.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S5000x1.size a ≤ S50000x1.size a
  hwx14_1 : ∀ i : grid14.Coords, EltTy.bits .f32 = 32 ∨ (Rect.block (s := S50000x1) S5000x1.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x128.size a ≤ S1x128.size a
  hwx14_2 : ∀ i : grid14.Coords, EltTy.bits .f32 = 32 ∨ (Rect.block (s := S1x128) S1x128.size (cc14_transform_2 i) (hinb14_2 i)).WholeWords (EltTy.packing .f32)
  hstage14_3 : ∀ j, (stage14_3 j).IsWhole
  nbuf14_3 : grid14.bufCount reads14_3 false = 2
  hreads14_3 : ∀ i i' : grid14.Coords, (∀ a, reads14_3 a = true → i a = i' a) → cc14_transform_3 i = cc14_transform_3 i'
  hinb14_3 : ∀ (i : grid14.Coords) a, (cc14_transform_3 i a + 1) * S5000x128.size a ≤ S50000x128.size a
  hwx14_3 : ∀ i : grid14.Coords, EltTy.bits .f32 = 32 ∨ (Rect.block (s := S50000x128) S5000x128.size (cc14_transform_3 i) (hinb14_3 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S5000x128.size a ≤ S50000x128.size a
  hwx15_0 : ∀ i : grid15.Coords, EltTy.bits .f32 = 32 ∨ (Rect.block (s := S50000x128) S5000x128.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S128x128.size a ≤ S128x128.size a
  hwx15_1 : ∀ i : grid15.Coords, EltTy.bits .f32 = 32 ∨ (Rect.block (s := S128x128) S128x128.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x128.size a ≤ S1x128.size a
  hwx15_2 : ∀ i : grid15.Coords, EltTy.bits .f32 = 32 ∨ (Rect.block (s := S1x128) S1x128.size (cc15_transform_2 i) (hinb15_2 i)).WholeWords (EltTy.packing .f32)
  hstage15_3 : ∀ j, (stage15_3 j).IsWhole
  nbuf15_3 : grid15.bufCount reads15_3 false = 2
  hreads15_3 : ∀ i i' : grid15.Coords, (∀ a, reads15_3 a = true → i a = i' a) → cc15_transform_3 i = cc15_transform_3 i'
  hinb15_3 : ∀ (i : grid15.Coords) a, (cc15_transform_3 i a + 1) * S5000x128.size a ≤ S50000x128.size a
  hwx15_3 : ∀ i : grid15.Coords, EltTy.bits .f32 = 32 ∨ (Rect.block (s := S50000x128) S5000x128.size (cc15_transform_3 i) (hinb15_3 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S5000x128.size a ≤ S50000x128.size a
  hwx16_0 : ∀ i : grid16.Coords, EltTy.bits .f32 = 32 ∨ (Rect.block (s := S50000x128) S5000x128.size (cc16_transform_0 i) (hinb16_0 i)).WholeWords (EltTy.packing .f32)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S1x128.size a ≤ S1x128.size a
  hwx16_1 : ∀ i : grid16.Coords, EltTy.bits .f32 = 32 ∨ (Rect.block (s := S1x128) S1x128.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S1x128.size a ≤ S1x128.size a
  hwx16_2 : ∀ i : grid16.Coords, EltTy.bits .f32 = 32 ∨ (Rect.block (s := S1x128) S1x128.size (cc16_transform_2 i) (hinb16_2 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S5000x128.size a ≤ S50000x128.size a
  hwx17_0 : ∀ i : grid17.Coords, EltTy.bits .f32 = 32 ∨ (Rect.block (s := S50000x128) S5000x128.size (cc17_transform_0 i) (hinb17_0 i)).WholeWords (EltTy.packing .f32)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S1x128.size a ≤ S1x128.size a
  hwx17_1 : ∀ i : grid17.Coords, EltTy.bits .f32 = 32 ∨ (Rect.block (s := S1x128) S1x128.size (cc17_transform_1 i) (hinb17_1 i)).WholeWords (EltTy.packing .f32)
  hstage17_2 : ∀ j, (stage17_2 j).IsWhole
  nbuf17_2 : grid17.bufCount reads17_2 true = 1
  hreads17_2 : ∀ i i' : grid17.Coords, (∀ a, reads17_2 a = true → i a = i' a) → cc17_transform_2 i = cc17_transform_2 i'
  hinb17_2 : ∀ (i : grid17.Coords) a, (cc17_transform_2 i a + 1) * S1x128.size a ≤ S1x128.size a
  hwx17_2 : ∀ i : grid17.Coords, EltTy.bits .f32 = 32 ∨ (Rect.block (s := S1x128) S1x128.size (cc17_transform_2 i) (hinb17_2 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S5000x128.size a ≤ S50000x128.size a
  hwx18_0 : ∀ i : grid18.Coords, EltTy.bits .f32 = 32 ∨ (Rect.block (s := S50000x128) S5000x128.size (cc18_transform_0 i) (hinb18_0 i)).WholeWords (EltTy.packing .f32)
  hstage18_1 : ∀ j, (stage18_1 j).IsWhole
  nbuf18_1 : grid18.bufCount reads18_1 true = 1
  hreads18_1 : ∀ i i' : grid18.Coords, (∀ a, reads18_1 a = true → i a = i' a) → cc18_transform_1 i = cc18_transform_1 i'
  hinb18_1 : ∀ (i : grid18.Coords) a, (cc18_transform_1 i a + 1) * S1x128.size a ≤ S1x128.size a
  hwx18_1 : ∀ i : grid18.Coords, EltTy.bits .f32 = 32 ∨ (Rect.block (s := S1x128) S1x128.size (cc18_transform_1 i) (hinb18_1 i)).WholeWords (EltTy.packing .f32)
  hstage18_2 : ∀ j, (stage18_2 j).IsWhole
  nbuf18_2 : grid18.bufCount reads18_2 true = 1
  hreads18_2 : ∀ i i' : grid18.Coords, (∀ a, reads18_2 a = true → i a = i' a) → cc18_transform_2 i = cc18_transform_2 i'
  hinb18_2 : ∀ (i : grid18.Coords) a, (cc18_transform_2 i a + 1) * S1x128.size a ≤ S1x128.size a
  hwx18_2 : ∀ i : grid18.Coords, EltTy.bits .f32 = 32 ∨ (Rect.block (s := S1x128) S1x128.size (cc18_transform_2 i) (hinb18_2 i)).WholeWords (EltTy.packing .f32)
  hstage18_3 : ∀ j, (stage18_3 j).IsWhole
  nbuf18_3 : grid18.bufCount reads18_3 true = 1
  hreads18_3 : ∀ i i' : grid18.Coords, (∀ a, reads18_3 a = true → i a = i' a) → cc18_transform_3 i = cc18_transform_3 i'
  hinb18_3 : ∀ (i : grid18.Coords) a, (cc18_transform_3 i a + 1) * S128x2.size a ≤ S128x2.size a
  hwx18_3 : ∀ i : grid18.Coords, EltTy.bits .f32 = 32 ∨ (Rect.block (s := S128x2) S128x2.size (cc18_transform_3 i) (hinb18_3 i)).WholeWords (EltTy.packing .f32)
  hstage18_4 : ∀ j, (stage18_4 j).IsWhole
  nbuf18_4 : grid18.bufCount reads18_4 true = 1
  hreads18_4 : ∀ i i' : grid18.Coords, (∀ a, reads18_4 a = true → i a = i' a) → cc18_transform_4 i = cc18_transform_4 i'
  hinb18_4 : ∀ (i : grid18.Coords) a, (cc18_transform_4 i a + 1) * S1x2.size a ≤ S1x2.size a
  hwx18_4 : ∀ i : grid18.Coords, EltTy.bits .f32 = 32 ∨ (Rect.block (s := S1x2) S1x2.size (cc18_transform_4 i) (hinb18_4 i)).WholeWords (EltTy.packing .f32)
  hstage18_5 : ∀ j, (stage18_5 j).IsWhole
  nbuf18_5 : grid18.bufCount reads18_5 false = 2
  hreads18_5 : ∀ i i' : grid18.Coords, (∀ a, reads18_5 a = true → i a = i' a) → cc18_transform_5 i = cc18_transform_5 i'
  hinb18_5 : ∀ (i : grid18.Coords) a, (cc18_transform_5 i a + 1) * S5000x128.size a ≤ S50000x128.size a
  hwx18_5 : ∀ i : grid18.Coords, EltTy.bits .f32 = 32 ∨ (Rect.block (s := S50000x128) S5000x128.size (cc18_transform_5 i) (hinb18_5 i)).WholeWords (EltTy.packing .f32)
  hstage18_6 : ∀ j, (stage18_6 j).IsWhole
  nbuf18_6 : grid18.bufCount reads18_6 false = 2
  hreads18_6 : ∀ i i' : grid18.Coords, (∀ a, reads18_6 a = true → i a = i' a) → cc18_transform_6 i = cc18_transform_6 i'
  hinb18_6 : ∀ (i : grid18.Coords) a, (cc18_transform_6 i a + 1) * S5000x2.size a ≤ S50000x2.size a
  hwx18_6 : ∀ i : grid18.Coords, EltTy.bits .f32 = 32 ∨ (Rect.block (s := S50000x2) S5000x2.size (cc18_transform_6 i) (hinb18_6 i)).WholeWords (EltTy.packing .f32)
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S5000x128.size a ≤ S50000x128.size a
  hwx19_0 : ∀ i : grid19.Coords, EltTy.bits .f32 = 32 ∨ (Rect.block (s := S50000x128) S5000x128.size (cc19_transform_0 i) (hinb19_0 i)).WholeWords (EltTy.packing .f32)
  hstage19_1 : ∀ j, (stage19_1 j).IsWhole
  nbuf19_1 : grid19.bufCount reads19_1 true = 1
  hreads19_1 : ∀ i i' : grid19.Coords, (∀ a, reads19_1 a = true → i a = i' a) → cc19_transform_1 i = cc19_transform_1 i'
  hinb19_1 : ∀ (i : grid19.Coords) a, (cc19_transform_1 i a + 1) * S1x128.size a ≤ S1x128.size a
  hwx19_1 : ∀ i : grid19.Coords, EltTy.bits .f32 = 32 ∨ (Rect.block (s := S1x128) S1x128.size (cc19_transform_1 i) (hinb19_1 i)).WholeWords (EltTy.packing .f32)
  hstage19_2 : ∀ j, (stage19_2 j).IsWhole
  nbuf19_2 : grid19.bufCount reads19_2 true = 1
  hreads19_2 : ∀ i i' : grid19.Coords, (∀ a, reads19_2 a = true → i a = i' a) → cc19_transform_2 i = cc19_transform_2 i'
  hinb19_2 : ∀ (i : grid19.Coords) a, (cc19_transform_2 i a + 1) * S1x128.size a ≤ S1x128.size a
  hwx19_2 : ∀ i : grid19.Coords, EltTy.bits .f32 = 32 ∨ (Rect.block (s := S1x128) S1x128.size (cc19_transform_2 i) (hinb19_2 i)).WholeWords (EltTy.packing .f32)
  hstage19_3 : ∀ j, (stage19_3 j).IsWhole
  nbuf19_3 : grid19.bufCount reads19_3 true = 1
  hreads19_3 : ∀ i i' : grid19.Coords, (∀ a, reads19_3 a = true → i a = i' a) → cc19_transform_3 i = cc19_transform_3 i'
  hinb19_3 : ∀ (i : grid19.Coords) a, (cc19_transform_3 i a + 1) * S128x2.size a ≤ S128x2.size a
  hwx19_3 : ∀ i : grid19.Coords, EltTy.bits .f32 = 32 ∨ (Rect.block (s := S128x2) S128x2.size (cc19_transform_3 i) (hinb19_3 i)).WholeWords (EltTy.packing .f32)
  hstage19_4 : ∀ j, (stage19_4 j).IsWhole
  nbuf19_4 : grid19.bufCount reads19_4 true = 1
  hreads19_4 : ∀ i i' : grid19.Coords, (∀ a, reads19_4 a = true → i a = i' a) → cc19_transform_4 i = cc19_transform_4 i'
  hinb19_4 : ∀ (i : grid19.Coords) a, (cc19_transform_4 i a + 1) * S1x2.size a ≤ S1x2.size a
  hwx19_4 : ∀ i : grid19.Coords, EltTy.bits .f32 = 32 ∨ (Rect.block (s := S1x2) S1x2.size (cc19_transform_4 i) (hinb19_4 i)).WholeWords (EltTy.packing .f32)
  hstage19_5 : ∀ j, (stage19_5 j).IsWhole
  nbuf19_5 : grid19.bufCount reads19_5 false = 2
  hreads19_5 : ∀ i i' : grid19.Coords, (∀ a, reads19_5 a = true → i a = i' a) → cc19_transform_5 i = cc19_transform_5 i'
  hinb19_5 : ∀ (i : grid19.Coords) a, (cc19_transform_5 i a + 1) * S5000x128.size a ≤ S50000x128.size a
  hwx19_5 : ∀ i : grid19.Coords, EltTy.bits .f32 = 32 ∨ (Rect.block (s := S50000x128) S5000x128.size (cc19_transform_5 i) (hinb19_5 i)).WholeWords (EltTy.packing .f32)
  hstage19_6 : ∀ j, (stage19_6 j).IsWhole
  nbuf19_6 : grid19.bufCount reads19_6 false = 2
  hreads19_6 : ∀ i i' : grid19.Coords, (∀ a, reads19_6 a = true → i a = i' a) → cc19_transform_6 i = cc19_transform_6 i'
  hinb19_6 : ∀ (i : grid19.Coords) a, (cc19_transform_6 i a + 1) * S5000x2.size a ≤ S50000x2.size a
  hwx19_6 : ∀ i : grid19.Coords, EltTy.bits .f32 = 32 ∨ (Rect.block (s := S50000x2) S5000x2.size (cc19_transform_6 i) (hinb19_6 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v19) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v30) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v31) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v31) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v10) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v32) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v42) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v14) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v16) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v43) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v43) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v10) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg12) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v44) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v54) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v14) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v17) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v55) S5000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v55) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg14) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v18) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v56) S5000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_arg1) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg3) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v76) S5000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v76) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v67) S5000x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_arg8) S128x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v77) S5000x128.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v87) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v71) S5000x1.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v72) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v88) S5000x128.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v88) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v67) S5000x1.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_arg10) S128x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v89) S5000x128.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev win12_0 : Pipeline.Window sig grid12 :=
  Pipeline.Window.ofSpec (Memref.whole main_v99) S5000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v71) S5000x1.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v73) S1x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v100) S5000x128.size cc12_transform_3 reads12_3 true false 2 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

abbrev win13_0 : Pipeline.Window sig grid13 :=
  Pipeline.Window.ofSpec (Memref.whole main_v100) S5000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v67) S5000x1.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_arg12) S128x128.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v101) S5000x128.size cc13_transform_3 reads13_3 true false 2 stage13_3 sem13_3
    hrank13 hreads13_3 hinb13_3 nbuf13_3 (Memref.isWhole_whole _) hwx13_3 hstage13_3

abbrev win13 : Fin 4 → Pipeline.Window sig grid13 := fun | 0 => win13_0 | 1 => win13_1 | 2 => win13_2 | 3 => win13_3 | ⟨_ + 4, h⟩ => absurd h (Nat.not_lt.2 (Nat.le_add_left _ _))
abbrev spec13 : Fin 4 → Pipeline.WinSpec sig grid13.rank := fun w => (win13 w).toWinSpec

abbrev win14_0 : Pipeline.Window sig grid14 :=
  Pipeline.Window.ofSpec (Memref.whole main_v111) S5000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v71) S5000x1.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v74) S1x128.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v112) S5000x128.size cc14_transform_3 reads14_3 true false 2 stage14_3 sem14_3
    hrank14 hreads14_3 hinb14_3 nbuf14_3 (Memref.isWhole_whole _) hwx14_3 hstage14_3

abbrev win14 : Fin 4 → Pipeline.Window sig grid14 := fun | 0 => win14_0 | 1 => win14_1 | 2 => win14_2 | 3 => win14_3 | ⟨_ + 4, h⟩ => absurd h (Nat.not_lt.2 (Nat.le_add_left _ _))
abbrev spec14 : Fin 4 → Pipeline.WinSpec sig grid14.rank := fun w => (win14 w).toWinSpec

abbrev win15_0 : Pipeline.Window sig grid15 :=
  Pipeline.Window.ofSpec (Memref.whole main_v112) S5000x128.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_arg14) S128x128.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v75) S1x128.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v113) S5000x128.size cc15_transform_3 reads15_3 true false 2 stage15_3 sem15_3
    hrank15 hreads15_3 hinb15_3 nbuf15_3 (Memref.isWhole_whole _) hwx15_3 hstage15_3

abbrev win15 : Fin 4 → Pipeline.Window sig grid15 := fun | 0 => win15_0 | 1 => win15_1 | 2 => win15_2 | 3 => win15_3 | ⟨_ + 4, h⟩ => absurd h (Nat.not_lt.2 (Nat.le_add_left _ _))
abbrev spec15 : Fin 4 → Pipeline.WinSpec sig grid15.rank := fun w => (win15 w).toWinSpec

abbrev win16_0 : Pipeline.Window sig grid16 :=
  Pipeline.Window.ofSpec (Memref.whole main_v56) S5000x128.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v115_0) S1x128.size cc16_transform_1 reads16_1 true true 1 stage16_1 sem16_1
    hrank16 hreads16_1 hinb16_1 nbuf16_1 (Memref.isWhole_whole _) hwx16_1 hstage16_1

abbrev win16_2 : Pipeline.Window sig grid16 :=
  Pipeline.Window.ofSpec (Memref.whole main_v115_1) S1x128.size cc16_transform_2 reads16_2 true true 1 stage16_2 sem16_2
    hrank16 hreads16_2 hinb16_2 nbuf16_2 (Memref.isWhole_whole _) hwx16_2 hstage16_2

abbrev win16 : Fin 3 → Pipeline.Window sig grid16 := fun | 0 => win16_0 | 1 => win16_1 | 2 => win16_2 | ⟨_ + 3, h⟩ => absurd h (Nat.not_lt.2 (Nat.le_add_left _ _))
abbrev spec16 : Fin 3 → Pipeline.WinSpec sig grid16.rank := fun w => (win16 w).toWinSpec

abbrev win17_0 : Pipeline.Window sig grid17 :=
  Pipeline.Window.ofSpec (Memref.whole main_v113) S5000x128.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v125_0) S1x128.size cc17_transform_1 reads17_1 true true 1 stage17_1 sem17_1
    hrank17 hreads17_1 hinb17_1 nbuf17_1 (Memref.isWhole_whole _) hwx17_1 hstage17_1

abbrev win17_2 : Pipeline.Window sig grid17 :=
  Pipeline.Window.ofSpec (Memref.whole main_v125_1) S1x128.size cc17_transform_2 reads17_2 true true 1 stage17_2 sem17_2
    hrank17 hreads17_2 hinb17_2 nbuf17_2 (Memref.isWhole_whole _) hwx17_2 hstage17_2

abbrev win17 : Fin 3 → Pipeline.Window sig grid17 := fun | 0 => win17_0 | 1 => win17_1 | 2 => win17_2 | ⟨_ + 3, h⟩ => absurd h (Nat.not_lt.2 (Nat.le_add_left _ _))
abbrev spec17 : Fin 3 → Pipeline.WinSpec sig grid17.rank := fun w => (win17 w).toWinSpec

abbrev win18_0 : Pipeline.Window sig grid18 :=
  Pipeline.Window.ofSpec (Memref.whole main_v56) S5000x128.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v117) S1x128.size cc18_transform_1 reads18_1 false true 1 stage18_1 sem18_1
    hrank18 hreads18_1 hinb18_1 nbuf18_1 (Memref.isWhole_whole _) hwx18_1 hstage18_1

abbrev win18_2 : Pipeline.Window sig grid18 :=
  Pipeline.Window.ofSpec (Memref.whole main_v124) S1x128.size cc18_transform_2 reads18_2 false true 1 stage18_2 sem18_2
    hrank18 hreads18_2 hinb18_2 nbuf18_2 (Memref.isWhole_whole _) hwx18_2 hstage18_2

abbrev win18_3 : Pipeline.Window sig grid18 :=
  Pipeline.Window.ofSpec (Memref.whole main_arg16) S128x2.size cc18_transform_3 reads18_3 false true 1 stage18_3 sem18_3
    hrank18 hreads18_3 hinb18_3 nbuf18_3 (Memref.isWhole_whole _) hwx18_3 hstage18_3

abbrev win18_4 : Pipeline.Window sig grid18 :=
  Pipeline.Window.ofSpec (Memref.whole main_v114) S1x2.size cc18_transform_4 reads18_4 false true 1 stage18_4 sem18_4
    hrank18 hreads18_4 hinb18_4 nbuf18_4 (Memref.isWhole_whole _) hwx18_4 hstage18_4

abbrev win18_5 : Pipeline.Window sig grid18 :=
  Pipeline.Window.ofSpec (Memref.whole main_v135_0) S5000x128.size cc18_transform_5 reads18_5 true false 2 stage18_5 sem18_5
    hrank18 hreads18_5 hinb18_5 nbuf18_5 (Memref.isWhole_whole _) hwx18_5 hstage18_5

abbrev win18_6 : Pipeline.Window sig grid18 :=
  Pipeline.Window.ofSpec (Memref.whole main_v135_1) S5000x2.size cc18_transform_6 reads18_6 true false 2 stage18_6 sem18_6
    hrank18 hreads18_6 hinb18_6 nbuf18_6 (Memref.isWhole_whole _) hwx18_6 hstage18_6

abbrev win18 : Fin 7 → Pipeline.Window sig grid18 := fun | 0 => win18_0 | 1 => win18_1 | 2 => win18_2 | 3 => win18_3 | 4 => win18_4 | 5 => win18_5 | 6 => win18_6 | ⟨_ + 7, h⟩ => absurd h (Nat.not_lt.2 (Nat.le_add_left _ _))
abbrev spec18 : Fin 7 → Pipeline.WinSpec sig grid18.rank := fun w => (win18 w).toWinSpec

abbrev win19_0 : Pipeline.Window sig grid19 :=
  Pipeline.Window.ofSpec (Memref.whole main_v113) S5000x128.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_v127) S1x128.size cc19_transform_1 reads19_1 false true 1 stage19_1 sem19_1
    hrank19 hreads19_1 hinb19_1 nbuf19_1 (Memref.isWhole_whole _) hwx19_1 hstage19_1

abbrev win19_2 : Pipeline.Window sig grid19 :=
  Pipeline.Window.ofSpec (Memref.whole main_v134) S1x128.size cc19_transform_2 reads19_2 false true 1 stage19_2 sem19_2
    hrank19 hreads19_2 hinb19_2 nbuf19_2 (Memref.isWhole_whole _) hwx19_2 hstage19_2

abbrev win19_3 : Pipeline.Window sig grid19 :=
  Pipeline.Window.ofSpec (Memref.whole main_arg16) S128x2.size cc19_transform_3 reads19_3 false true 1 stage19_3 sem19_3
    hrank19 hreads19_3 hinb19_3 nbuf19_3 (Memref.isWhole_whole _) hwx19_3 hstage19_3

abbrev win19_4 : Pipeline.Window sig grid19 :=
  Pipeline.Window.ofSpec (Memref.whole main_v114) S1x2.size cc19_transform_4 reads19_4 false true 1 stage19_4 sem19_4
    hrank19 hreads19_4 hinb19_4 nbuf19_4 (Memref.isWhole_whole _) hwx19_4 hstage19_4

abbrev win19_5 : Pipeline.Window sig grid19 :=
  Pipeline.Window.ofSpec (Memref.whole main_v136_0) S5000x128.size cc19_transform_5 reads19_5 true false 2 stage19_5 sem19_5
    hrank19 hreads19_5 hinb19_5 nbuf19_5 (Memref.isWhole_whole _) hwx19_5 hstage19_5

abbrev win19_6 : Pipeline.Window sig grid19 :=
  Pipeline.Window.ofSpec (Memref.whole main_v136_1) S5000x2.size cc19_transform_6 reads19_6 true false 2 stage19_6 sem19_6
    hrank19 hreads19_6 hinb19_6 nbuf19_6 (Memref.isWhole_whole _) hwx19_6 hstage19_6

abbrev win19 : Fin 7 → Pipeline.Window sig grid19 := fun | 0 => win19_0 | 1 => win19_1 | 2 => win19_2 | 3 => win19_3 | 4 => win19_4 | 5 => win19_5 | 6 => win19_6 | ⟨_ + 7, h⟩ => absurd h (Nat.not_lt.2 (Nat.le_add_left _ _))
abbrev spec19 : Fin 7 → Pipeline.WinSpec sig grid19.rank := fun w => (win19 w).toWinSpec

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩
abbrev S50000x2 : Shape := ⟨2, ![50000, 2]⟩
abbrev S1x2 : Shape := ⟨2, ![1, 2]⟩

abbrev nBuf : Space → Nat
  | .hbm => 376
  | .vmem => 0
  | .smem => 0
  | _ => 0

abbrev hbmTy0_0 (i : Nat) : BufTy := match i % 128 with
  | 0 => ⟨S50000x128, .f32⟩
  | 1 => ⟨S50000x128, .f32⟩
  | 2 => ⟨S50000x128, .f32⟩
  | 3 => ⟨S50000x128, .f32⟩
  | 4 => ⟨S600000, .i32⟩
  | 5 => ⟨S600000, .i32⟩
  | 6 => ⟨S600000, .i32⟩
  | 7 => ⟨S600000, .i32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128x2, .f32⟩
  | 17 => ⟨S2, .f32⟩
  | 18 => ⟨S_, .f32⟩
  | 19 => ⟨S50000x128, .f32⟩
  | 20 => ⟨S50000x128, .i1⟩
  | 21 => ⟨S50000x128, .f32⟩
  | 22 => ⟨S50000x128, .f32⟩
  | 23 => ⟨S_, .f32⟩
  | 24 => ⟨S50000x128, .f32⟩
  | 25 => ⟨S50000x128, .f32⟩
  | 26 => ⟨S_, .f32⟩
  | 27 => ⟨S50000x128, .f32⟩
  | 28 => ⟨S50000x128, .i1⟩
  | 29 => ⟨S50000x128, .f32⟩
  | 30 => ⟨S50000x128, .f32⟩
  | 31 => ⟨S_, .f32⟩
  | 32 => ⟨S50000x128, .f32⟩
  | 33 => ⟨S50000x128, .f32⟩
  | 34 => ⟨S_, .f32⟩
  | 35 => ⟨S600000, .f32⟩
  | 36 => ⟨S_, .f32⟩
  | 37 => ⟨S50000, .f32⟩
  | 38 => ⟨S600000x1, .i32⟩
  | 39 => ⟨S50000, .f32⟩
  | 40 => ⟨S_, .f32⟩
  | 41 => ⟨S50000, .f32⟩
  | 42 => ⟨S600000x1, .i32⟩
  | 43 => ⟨S50000, .f32⟩
  | 44 => ⟨S_, .f32⟩
  | 45 => ⟨S50000, .f32⟩
  | 46 => ⟨S50000, .f32⟩
  | 47 => ⟨S50000, .f32⟩
  | 48 => ⟨S50000x1, .f32⟩
  | 49 => ⟨S_, .f32⟩
  | 50 => ⟨S50000, .f32⟩
  | 51 => ⟨S50000, .f32⟩
  | 52 => ⟨S50000, .f32⟩
  | 53 => ⟨S50000x1, .f32⟩
  | 54 => ⟨S50000x128, .f32⟩
  | 55 => ⟨S50000x128, .f32⟩
  | 56 => ⟨S50000x128, .f32⟩
  | 57 => ⟨S_, .i32⟩
  | 58 => ⟨S600000, .i32⟩
  | 59 => ⟨S600000, .i1⟩
  | 60 => ⟨S_, .i32⟩
  | 61 => ⟨S600000, .i32⟩
  | 62 => ⟨S600000, .i32⟩
  | 63 => ⟨S600000, .i32⟩
  | 64 => ⟨S600000x1, .i32⟩
  | 65 => ⟨S600000x128, .f32⟩
  | 66 => ⟨S_, .f32⟩
  | 67 => ⟨S50000x128, .f32⟩
  | 68 => ⟨S600000x1, .i32⟩
  | 69 => ⟨S50000x128, .f32⟩
  | 70 => ⟨S50000x128, .f32⟩
  | 71 => ⟨S50000x128, .f32⟩
  | 72 => ⟨S1x128, .f32⟩
  | 73 => ⟨S50000x128, .f32⟩
  | 74 => ⟨S50000x128, .f32⟩
  | 75 => ⟨S_, .f32⟩
  | 76 => ⟨S50000x128, .f32⟩
  | 77 => ⟨S50000x128, .i1⟩
  | 78 => ⟨S_, .f32⟩
  | 79 => ⟨S50000x128, .f32⟩
  | 80 => ⟨S50000x128, .i1⟩
  | 81 => ⟨S_, .f32⟩
  | 82 => ⟨S_, .f32⟩
  | 83 => ⟨S50000x128, .f32⟩
  | 84 => ⟨S50000x128, .f32⟩
  | 85 => ⟨S50000x128, .f32⟩
  | 86 => ⟨S_, .f32⟩
  | 87 => ⟨S50000x128, .f32⟩
  | 88 => ⟨S50000x128, .f32⟩
  | 89 => ⟨S50000x128, .f32⟩
  | 90 => ⟨S50000x128, .f32⟩
  | 91 => ⟨S50000x128, .f32⟩
  | 92 => ⟨S50000x128, .f32⟩
  | 93 => ⟨S_, .i32⟩
  | 94 => ⟨S600000, .i32⟩
  | 95 => ⟨S600000, .i1⟩
  | 96 => ⟨S_, .i32⟩
  | 97 => ⟨S600000, .i32⟩
  | 98 => ⟨S600000, .i32⟩
  | 99 => ⟨S600000, .i32⟩
  | 100 => ⟨S600000x1, .i32⟩
  | 101 => ⟨S600000x128, .f32⟩
  | 102 => ⟨S_, .f32⟩
  | 103 => ⟨S50000x128, .f32⟩
  | 104 => ⟨S600000x1, .i32⟩
  | 105 => ⟨S50000x128, .f32⟩
  | 106 => ⟨S50000x128, .f32⟩
  | 107 => ⟨S50000x128, .f32⟩
  | 108 => ⟨S1x128, .f32⟩
  | 109 => ⟨S50000x128, .f32⟩
  | 110 => ⟨S50000x128, .f32⟩
  | 111 => ⟨S_, .f32⟩
  | 112 => ⟨S50000x128, .f32⟩
  | 113 => ⟨S50000x128, .i1⟩
  | 114 => ⟨S_, .f32⟩
  | 115 => ⟨S50000x128, .f32⟩
  | 116 => ⟨S50000x128, .i1⟩
  | 117 => ⟨S_, .f32⟩
  | 118 => ⟨S_, .f32⟩
  | 119 => ⟨S50000x128, .f32⟩
  | 120 => ⟨S50000x128, .f32⟩
  | 121 => ⟨S50000x128, .f32⟩
  | 122 => ⟨S_, .f32⟩
  | 123 => ⟨S50000x128, .f32⟩
  | 124 => ⟨S50000x128, .f32⟩
  | 125 => ⟨S50000x128, .f32⟩
  | 126 => ⟨S50000x128, .f32⟩
  | 127 => ⟨S50000x128, .f32⟩
  | _ => ⟨S50000x128, .f32⟩

abbrev hbmTy0_1 (i : Nat) : BufTy := match i % 128 with
  | 0 => ⟨S50000x128, .f32⟩
  | 1 => ⟨S_, .i32⟩
  | 2 => ⟨S600000, .i32⟩
  | 3 => ⟨S600000, .i1⟩
  | 4 => ⟨S_, .i32⟩
  | 5 => ⟨S600000, .i32⟩
  | 6 => ⟨S600000, .i32⟩
  | 7 => ⟨S600000, .i32⟩
  | 8 => ⟨S600000x1, .i32⟩
  | 9 => ⟨S600000x128, .f32⟩
  | 10 => ⟨S_, .f32⟩
  | 11 => ⟨S50000x128, .f32⟩
  | 12 => ⟨S600000x1, .i32⟩
  | 13 => ⟨S50000x128, .f32⟩
  | 14 => ⟨S50000x128, .f32⟩
  | 15 => ⟨S50000x128, .f32⟩
  | 16 => ⟨S1x128, .f32⟩
  | 17 => ⟨S50000x128, .f32⟩
  | 18 => ⟨S50000x128, .f32⟩
  | 19 => ⟨S_, .f32⟩
  | 20 => ⟨S50000x128, .f32⟩
  | 21 => ⟨S50000x128, .i1⟩
  | 22 => ⟨S_, .f32⟩
  | 23 => ⟨S50000x128, .f32⟩
  | 24 => ⟨S50000x128, .i1⟩
  | 25 => ⟨S_, .f32⟩
  | 26 => ⟨S_, .f32⟩
  | 27 => ⟨S50000x128, .f32⟩
  | 28 => ⟨S50000x128, .f32⟩
  | 29 => ⟨S50000x128, .f32⟩
  | 30 => ⟨S_, .f32⟩
  | 31 => ⟨S50000x128, .f32⟩
  | 32 => ⟨S50000x128, .f32⟩
  | 33 => ⟨S50000x128, .f32⟩
  | 34 => ⟨S50000x128, .f32⟩
  | 35 => ⟨S1x128, .f32⟩
  | 36 => ⟨S50000x128, .f32⟩
  | 37 => ⟨S50000x128, .f32⟩
  | 38 => ⟨S_, .f32⟩
  | 39 => ⟨S600000, .f32⟩
  | 40 => ⟨S_, .f32⟩
  | 41 => ⟨S50000, .f32⟩
  | 42 => ⟨S600000x1, .i32⟩
  | 43 => ⟨S50000, .f32⟩
  | 44 => ⟨S_, .f32⟩
  | 45 => ⟨S50000, .f32⟩
  | 46 => ⟨S600000x1, .i32⟩
  | 47 => ⟨S50000, .f32⟩
  | 48 => ⟨S_, .f32⟩
  | 49 => ⟨S50000, .f32⟩
  | 50 => ⟨S50000, .f32⟩
  | 51 => ⟨S50000, .f32⟩
  | 52 => ⟨S50000x1, .f32⟩
  | 53 => ⟨S_, .f32⟩
  | 54 => ⟨S50000, .f32⟩
  | 55 => ⟨S50000, .f32⟩
  | 56 => ⟨S50000, .f32⟩
  | 57 => ⟨S50000x1, .f32⟩
  | 58 => ⟨S50000x128, .f32⟩
  | 59 => ⟨S50000x128, .f32⟩
  | 60 => ⟨S50000x128, .f32⟩
  | 61 => ⟨S_, .i32⟩
  | 62 => ⟨S600000, .i32⟩
  | 63 => ⟨S600000, .i1⟩
  | 64 => ⟨S_, .i32⟩
  | 65 => ⟨S600000, .i32⟩
  | 66 => ⟨S600000, .i32⟩
  | 67 => ⟨S600000, .i32⟩
  | 68 => ⟨S600000x1, .i32⟩
  | 69 => ⟨S600000x128, .f32⟩
  | 70 => ⟨S_, .f32⟩
  | 71 => ⟨S50000x128, .f32⟩
  | 72 => ⟨S600000x1, .i32⟩
  | 73 => ⟨S50000x128, .f32⟩
  | 74 => ⟨S50000x128, .f32⟩
  | 75 => ⟨S50000x128, .f32⟩
  | 76 => ⟨S1x128, .f32⟩
  | 77 => ⟨S50000x128, .f32⟩
  | 78 => ⟨S50000x128, .f32⟩
  | 79 => ⟨S_, .f32⟩
  | 80 => ⟨S50000x128, .f32⟩
  | 81 => ⟨S50000x128, .i1⟩
  | 82 => ⟨S_, .f32⟩
  | 83 => ⟨S50000x128, .f32⟩
  | 84 => ⟨S50000x128, .i1⟩
  | 85 => ⟨S_, .f32⟩
  | 86 => ⟨S_, .f32⟩
  | 87 => ⟨S50000x128, .f32⟩
  | 88 => ⟨S50000x128, .f32⟩
  | 89 => ⟨S50000x128, .f32⟩
  | 90 => ⟨S_, .f32⟩
  | 91 => ⟨S50000x128, .f32⟩
  | 92 => ⟨S50000x128, .f32⟩
  | 93 => ⟨S50000x128, .f32⟩
  | 94 => ⟨S50000x128, .f32⟩
  | 95 => ⟨S50000x128, .f32⟩
  | 96 => ⟨S50000x128, .f32⟩
  | 97 => ⟨S_, .i32⟩
  | 98 => ⟨S600000, .i32⟩
  | 99 => ⟨S600000, .i1⟩
  | 100 => ⟨S_, .i32⟩
  | 101 => ⟨S600000, .i32⟩
  | 102 => ⟨S600000, .i32⟩
  | 103 => ⟨S600000, .i32⟩
  | 104 => ⟨S600000x1, .i32⟩
  | 105 => ⟨S600000x128, .f32⟩
  | 106 => ⟨S_, .f32⟩
  | 107 => ⟨S50000x128, .f32⟩
  | 108 => ⟨S600000x1, .i32⟩
  | 109 => ⟨S50000x128, .f32⟩
  | 110 => ⟨S50000x128, .f32⟩
  | 111 => ⟨S50000x128, .f32⟩
  | 112 => ⟨S1x128, .f32⟩
  | 113 => ⟨S50000x128, .f32⟩
  | 114 => ⟨S50000x128, .f32⟩
  | 115 => ⟨S_, .f32⟩
  | 116 => ⟨S50000x128, .f32⟩
  | 117 => ⟨S50000x128, .i1⟩
  | 118 => ⟨S_, .f32⟩
  | 119 => ⟨S50000x128, .f32⟩
  | 120 => ⟨S50000x128, .i1⟩
  | 121 => ⟨S_, .f32⟩
  | 122 => ⟨S_, .f32⟩
  | 123 => ⟨S50000x128, .f32⟩
  | 124 => ⟨S50000x128, .f32⟩
  | 125 => ⟨S50000x128, .f32⟩
  | 126 => ⟨S_, .f32⟩
  | 127 => ⟨S50000x128, .f32⟩
  | _ => ⟨S50000x128, .f32⟩

abbrev hbmTy0_2 (i : Nat) : BufTy := match i % 128 with
  | 0 => ⟨S50000x128, .f32⟩
  | 1 => ⟨S50000x128, .f32⟩
  | 2 => ⟨S50000x128, .f32⟩
  | 3 => ⟨S50000x128, .f32⟩
  | 4 => ⟨S50000x128, .f32⟩
  | 5 => ⟨S_, .i32⟩
  | 6 => ⟨S600000, .i32⟩
  | 7 => ⟨S600000, .i1⟩
  | 8 => ⟨S_, .i32⟩
  | 9 => ⟨S600000, .i32⟩
  | 10 => ⟨S600000, .i32⟩
  | 11 => ⟨S600000, .i32⟩
  | 12 => ⟨S600000x1, .i32⟩
  | 13 => ⟨S600000x128, .f32⟩
  | 14 => ⟨S_, .f32⟩
  | 15 => ⟨S50000x128, .f32⟩
  | 16 => ⟨S600000x1, .i32⟩
  | 17 => ⟨S50000x128, .f32⟩
  | 18 => ⟨S50000x128, .f32⟩
  | 19 => ⟨S50000x128, .f32⟩
  | 20 => ⟨S1x128, .f32⟩
  | 21 => ⟨S50000x128, .f32⟩
  | 22 => ⟨S50000x128, .f32⟩
  | 23 => ⟨S_, .f32⟩
  | 24 => ⟨S50000x128, .f32⟩
  | 25 => ⟨S50000x128, .i1⟩
  | 26 => ⟨S_, .f32⟩
  | 27 => ⟨S50000x128, .f32⟩
  | 28 => ⟨S50000x128, .i1⟩
  | 29 => ⟨S_, .f32⟩
  | 30 => ⟨S_, .f32⟩
  | 31 => ⟨S50000x128, .f32⟩
  | 32 => ⟨S50000x128, .f32⟩
  | 33 => ⟨S50000x128, .f32⟩
  | 34 => ⟨S_, .f32⟩
  | 35 => ⟨S50000x128, .f32⟩
  | 36 => ⟨S50000x128, .f32⟩
  | 37 => ⟨S50000x128, .f32⟩
  | 38 => ⟨S50000x128, .f32⟩
  | 39 => ⟨S1x128, .f32⟩
  | 40 => ⟨S50000x128, .f32⟩
  | 41 => ⟨S50000x128, .f32⟩
  | 42 => ⟨S_, .f32⟩
  | 43 => ⟨S128, .f32⟩
  | 44 => ⟨S_, .f32⟩
  | 45 => ⟨S128, .f32⟩
  | 46 => ⟨S128, .f32⟩
  | 47 => ⟨S1x128, .f32⟩
  | 48 => ⟨S50000x128, .f32⟩
  | 49 => ⟨S50000x128, .f32⟩
  | 50 => ⟨S_, .i32⟩
  | 51 => ⟨S_, .f32⟩
  | 52 => ⟨S128, .f32⟩
  | 53 => ⟨S1x128, .f32⟩
  | 54 => ⟨S_, .f32⟩
  | 55 => ⟨S1x128, .f32⟩
  | 56 => ⟨S1x128, .f32⟩
  | 57 => ⟨S50000x128, .f32⟩
  | 58 => ⟨S50000x128, .f32⟩
  | 59 => ⟨S50000x128, .f32⟩
  | 60 => ⟨S_, .f32⟩
  | 61 => ⟨S_, .f32⟩
  | 62 => ⟨S_, .f32⟩
  | 63 => ⟨S_, .f32⟩
  | 64 => ⟨S128, .f32⟩
  | 65 => ⟨S128, .f32⟩
  | 66 => ⟨S128, .f32⟩
  | 67 => ⟨S_, .f32⟩
  | 68 => ⟨S_, .i1⟩
  | 69 => ⟨S_, .f32⟩
  | 70 => ⟨S_, .f32⟩
  | 71 => ⟨S128, .f32⟩
  | 72 => ⟨S128, .f32⟩
  | 73 => ⟨S128, .f32⟩
  | 74 => ⟨S1x128, .f32⟩
  | 75 => ⟨S50000x128, .f32⟩
  | 76 => ⟨S50000x128, .f32⟩
  | 77 => ⟨S_, .f32⟩
  | 78 => ⟨S128, .f32⟩
  | 79 => ⟨S_, .f32⟩
  | 80 => ⟨S128, .f32⟩
  | 81 => ⟨S128, .f32⟩
  | 82 => ⟨S1x128, .f32⟩
  | 83 => ⟨S50000x128, .f32⟩
  | 84 => ⟨S50000x128, .f32⟩
  | 85 => ⟨S_, .i32⟩
  | 86 => ⟨S_, .f32⟩
  | 87 => ⟨S128, .f32⟩
  | 88 => ⟨S1x128, .f32⟩
  | 89 => ⟨S_, .f32⟩
  | 90 => ⟨S1x128, .f32⟩
  | 91 => ⟨S1x128, .f32⟩
  | 92 => ⟨S50000x128, .f32⟩
  | 93 => ⟨S50000x128, .f32⟩
  | 94 => ⟨S50000x128, .f32⟩
  | 95 => ⟨S_, .f32⟩
  | 96 => ⟨S_, .f32⟩
  | 97 => ⟨S_, .f32⟩
  | 98 => ⟨S_, .f32⟩
  | 99 => ⟨S128, .f32⟩
  | 100 => ⟨S128, .f32⟩
  | 101 => ⟨S128, .f32⟩
  | 102 => ⟨S_, .f32⟩
  | 103 => ⟨S_, .i1⟩
  | 104 => ⟨S_, .f32⟩
  | 105 => ⟨S_, .f32⟩
  | 106 => ⟨S128, .f32⟩
  | 107 => ⟨S128, .f32⟩
  | 108 => ⟨S128, .f32⟩
  | 109 => ⟨S1x128, .f32⟩
  | 110 => ⟨S50000x128, .f32⟩
  | 111 => ⟨S50000x128, .f32⟩
  | 112 => ⟨S50000x2, .f32⟩
  | 113 => ⟨S1x2, .f32⟩
  | 114 => ⟨S50000x2, .f32⟩
  | 115 => ⟨S50000x2, .f32⟩
  | 116 => ⟨S50000x2, .f32⟩
  | 117 => ⟨S1x2, .f32⟩
  | 118 => ⟨S50000x2, .f32⟩
  | 119 => ⟨S50000x2, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst_0 : Ref sig .tc := ⟨.hbm, 23, rfl⟩
abbrev main_v4 : Ref sig .tc := ⟨.hbm, 24, rfl⟩
abbrev main_v5 : Ref sig .tc := ⟨.hbm, 25, rfl⟩
abbrev main_cst_1 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_2 : Ref sig .tc := ⟨.hbm, 31, rfl⟩
abbrev main_v10 : Ref sig .tc := ⟨.hbm, 32, rfl⟩
abbrev main_v11 : Ref sig .tc := ⟨.hbm, 33, rfl⟩
abbrev main_cst_3 : Ref sig .tc := ⟨.hbm, 34, rfl⟩
abbrev main_v12 : Ref sig .tc := ⟨.hbm, 35, rfl⟩
abbrev main_cst_4 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst_5 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst_6 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst_7 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_c : Ref sig .tc := ⟨.hbm, 57, rfl⟩
abbrev main_v30 : Ref sig .tc := ⟨.hbm, 58, rfl⟩
abbrev main_v31 : Ref sig .tc := ⟨.hbm, 59, rfl⟩
abbrev main_c_8 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_9 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_call0_cst : Ref sig .tc := ⟨.hbm, 75, rfl⟩
abbrev main_call0_v0 : Ref sig .tc := ⟨.hbm, 76, rfl⟩
abbrev main_call0_v1 : Ref sig .tc := ⟨.hbm, 77, rfl⟩
abbrev main_call0_cst_0 : Ref sig .tc := ⟨.hbm, 78, rfl⟩
abbrev main_call0_v2 : Ref sig .tc := ⟨.hbm, 79, rfl⟩
abbrev main_call0_v3 : Ref sig .tc := ⟨.hbm, 80, rfl⟩
abbrev main_call0_cst_1 : Ref sig .tc := ⟨.hbm, 81, rfl⟩
abbrev main_call0_call0_v0 : Ref sig .tc := ⟨.hbm, 82, rfl⟩
abbrev main_call0_call0_v1 : Ref sig .tc := ⟨.hbm, 83, rfl⟩
abbrev main_call0_v4 : Ref sig .tc := ⟨.hbm, 84, rfl⟩
abbrev main_call0_v5 : Ref sig .tc := ⟨.hbm, 85, rfl⟩
abbrev main_call0_cst_2 : Ref sig .tc := ⟨.hbm, 86, rfl⟩
abbrev main_call0_v6 : Ref sig .tc := ⟨.hbm, 87, rfl⟩
abbrev main_call0_v7 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_c_10 : Ref sig .tc := ⟨.hbm, 93, rfl⟩
abbrev main_v49 : Ref sig .tc := ⟨.hbm, 94, rfl⟩
abbrev main_v50 : Ref sig .tc := ⟨.hbm, 95, rfl⟩
abbrev main_c_11 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_cst_12 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_call1_cst : Ref sig .tc := ⟨.hbm, 111, rfl⟩
abbrev main_call1_v0 : Ref sig .tc := ⟨.hbm, 112, rfl⟩
abbrev main_call1_v1 : Ref sig .tc := ⟨.hbm, 113, rfl⟩
abbrev main_call1_cst_0 : Ref sig .tc := ⟨.hbm, 114, rfl⟩
abbrev main_call1_v2 : Ref sig .tc := ⟨.hbm, 115, rfl⟩
abbrev main_call1_v3 : Ref sig .tc := ⟨.hbm, 116, rfl⟩
abbrev main_call1_cst_1 : Ref sig .tc := ⟨.hbm, 117, rfl⟩
abbrev main_call1_call0_v0 : Ref sig .tc := ⟨.hbm, 118, rfl⟩
abbrev main_call1_call0_v1 : Ref sig .tc := ⟨.hbm, 119, rfl⟩
abbrev main_call1_v4 : Ref sig .tc := ⟨.hbm, 120, rfl⟩
abbrev main_call1_v5 : Ref sig .tc := ⟨.hbm, 121, rfl⟩
abbrev main_call1_cst_2 : Ref sig .tc := ⟨.hbm, 122, rfl⟩
abbrev main_call1_v6 : Ref sig .tc := ⟨.hbm, 123, rfl⟩
abbrev main_call1_v7 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_c_13 : Ref sig .tc := ⟨.hbm, 129, rfl⟩
abbrev main_v68 : Ref sig .tc := ⟨.hbm, 130, rfl⟩
abbrev main_v69 : Ref sig .tc := ⟨.hbm, 131, rfl⟩
abbrev main_c_14 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_cst_15 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_call2_cst : Ref sig .tc := ⟨.hbm, 147, rfl⟩
abbrev main_call2_v0 : Ref sig .tc := ⟨.hbm, 148, rfl⟩
abbrev main_call2_v1 : Ref sig .tc := ⟨.hbm, 149, rfl⟩
abbrev main_call2_cst_0 : Ref sig .tc := ⟨.hbm, 150, rfl⟩
abbrev main_call2_v2 : Ref sig .tc := ⟨.hbm, 151, rfl⟩
abbrev main_call2_v3 : Ref sig .tc := ⟨.hbm, 152, rfl⟩
abbrev main_call2_cst_1 : Ref sig .tc := ⟨.hbm, 153, rfl⟩
abbrev main_call2_call0_v0 : Ref sig .tc := ⟨.hbm, 154, rfl⟩
abbrev main_call2_call0_v1 : Ref sig .tc := ⟨.hbm, 155, rfl⟩
abbrev main_call2_v4 : Ref sig .tc := ⟨.hbm, 156, rfl⟩
abbrev main_call2_v5 : Ref sig .tc := ⟨.hbm, 157, rfl⟩
abbrev main_call2_cst_2 : Ref sig .tc := ⟨.hbm, 158, rfl⟩
abbrev main_call2_v6 : Ref sig .tc := ⟨.hbm, 159, rfl⟩
abbrev main_call2_v7 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_v87 : Ref sig .tc := ⟨.hbm, 165, rfl⟩
abbrev main_cst_16 : Ref sig .tc := ⟨.hbm, 166, rfl⟩
abbrev main_v88 : Ref sig .tc := ⟨.hbm, 167, rfl⟩
abbrev main_cst_17 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_cst_18 : Ref sig .tc := ⟨.hbm, 172, rfl⟩
abbrev main_v92 : Ref sig .tc := ⟨.hbm, 173, rfl⟩
abbrev main_v93 : Ref sig .tc := ⟨.hbm, 174, rfl⟩
abbrev main_v94 : Ref sig .tc := ⟨.hbm, 175, rfl⟩
abbrev main_cst_19 : Ref sig .tc := ⟨.hbm, 176, rfl⟩
abbrev main_v95 : Ref sig .tc := ⟨.hbm, 177, rfl⟩
abbrev main_v96 : Ref sig .tc := ⟨.hbm, 178, rfl⟩
abbrev main_v97 : Ref sig .tc := ⟨.hbm, 179, rfl⟩
abbrev main_v98 : Ref sig .tc := ⟨.hbm, 180, rfl⟩
abbrev main_cst_20 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_v104 : Ref sig .tc := ⟨.hbm, 187, rfl⟩
abbrev main_v105 : Ref sig .tc := ⟨.hbm, 188, rfl⟩
abbrev main_c_21 : Ref sig .tc := ⟨.hbm, 189, rfl⟩
abbrev main_v106 : Ref sig .tc := ⟨.hbm, 190, rfl⟩
abbrev main_v107 : Ref sig .tc := ⟨.hbm, 191, rfl⟩
abbrev main_c_22 : Ref sig .tc := ⟨.hbm, 192, rfl⟩
abbrev main_v108 : Ref sig .tc := ⟨.hbm, 193, rfl⟩
abbrev main_v109 : Ref sig .tc := ⟨.hbm, 194, rfl⟩
abbrev main_v110 : Ref sig .tc := ⟨.hbm, 195, rfl⟩
abbrev main_v111 : Ref sig .tc := ⟨.hbm, 196, rfl⟩
abbrev main_v112 : Ref sig .tc := ⟨.hbm, 197, rfl⟩
abbrev main_cst_23 : Ref sig .tc := ⟨.hbm, 198, rfl⟩
abbrev main_v113 : Ref sig .tc := ⟨.hbm, 199, rfl⟩
abbrev main_v114 : Ref sig .tc := ⟨.hbm, 200, rfl⟩
abbrev main_v115 : Ref sig .tc := ⟨.hbm, 201, rfl⟩
abbrev main_v116 : Ref sig .tc := ⟨.hbm, 202, rfl⟩
abbrev main_v117 : Ref sig .tc := ⟨.hbm, 203, rfl⟩
abbrev main_v118 : Ref sig .tc := ⟨.hbm, 204, rfl⟩
abbrev main_v119 : Ref sig .tc := ⟨.hbm, 205, rfl⟩
abbrev main_v120 : Ref sig .tc := ⟨.hbm, 206, rfl⟩
abbrev main_call3_cst : Ref sig .tc := ⟨.hbm, 207, rfl⟩
abbrev main_call3_v0 : Ref sig .tc := ⟨.hbm, 208, rfl⟩
abbrev main_call3_v1 : Ref sig .tc := ⟨.hbm, 209, rfl⟩
abbrev main_call3_cst_0 : Ref sig .tc := ⟨.hbm, 210, rfl⟩
abbrev main_call3_v2 : Ref sig .tc := ⟨.hbm, 211, rfl⟩
abbrev main_call3_v3 : Ref sig .tc := ⟨.hbm, 212, rfl⟩
abbrev main_call3_cst_1 : Ref sig .tc := ⟨.hbm, 213, rfl⟩
abbrev main_call3_call0_v0 : Ref sig .tc := ⟨.hbm, 214, rfl⟩
abbrev main_call3_call0_v1 : Ref sig .tc := ⟨.hbm, 215, rfl⟩
abbrev main_call3_v4 : Ref sig .tc := ⟨.hbm, 216, rfl⟩
abbrev main_call3_v5 : Ref sig .tc := ⟨.hbm, 217, rfl⟩
abbrev main_call3_cst_2 : Ref sig .tc := ⟨.hbm, 218, rfl⟩
abbrev main_call3_v6 : Ref sig .tc := ⟨.hbm, 219, rfl⟩
abbrev main_call3_v7 : Ref sig .tc := ⟨.hbm, 220, rfl⟩
abbrev main_v121 : Ref sig .tc := ⟨.hbm, 221, rfl⟩
abbrev main_v122 : Ref sig .tc := ⟨.hbm, 222, rfl⟩
abbrev main_v123 : Ref sig .tc := ⟨.hbm, 223, rfl⟩
abbrev main_v124 : Ref sig .tc := ⟨.hbm, 224, rfl⟩
abbrev main_c_24 : Ref sig .tc := ⟨.hbm, 225, rfl⟩
abbrev main_v125 : Ref sig .tc := ⟨.hbm, 226, rfl⟩
abbrev main_v126 : Ref sig .tc := ⟨.hbm, 227, rfl⟩
abbrev main_c_25 : Ref sig .tc := ⟨.hbm, 228, rfl⟩
abbrev main_v127 : Ref sig .tc := ⟨.hbm, 229, rfl⟩
abbrev main_v128 : Ref sig .tc := ⟨.hbm, 230, rfl⟩
abbrev main_v129 : Ref sig .tc := ⟨.hbm, 231, rfl⟩
abbrev main_v130 : Ref sig .tc := ⟨.hbm, 232, rfl⟩
abbrev main_v131 : Ref sig .tc := ⟨.hbm, 233, rfl⟩
abbrev main_cst_26 : Ref sig .tc := ⟨.hbm, 234, rfl⟩
abbrev main_v132 : Ref sig .tc := ⟨.hbm, 235, rfl⟩
abbrev main_v133 : Ref sig .tc := ⟨.hbm, 236, rfl⟩
abbrev main_v134 : Ref sig .tc := ⟨.hbm, 237, rfl⟩
abbrev main_v135 : Ref sig .tc := ⟨.hbm, 238, rfl⟩
abbrev main_v136 : Ref sig .tc := ⟨.hbm, 239, rfl⟩
abbrev main_v137 : Ref sig .tc := ⟨.hbm, 240, rfl⟩
abbrev main_v138 : Ref sig .tc := ⟨.hbm, 241, rfl⟩
abbrev main_v139 : Ref sig .tc := ⟨.hbm, 242, rfl⟩
abbrev main_call4_cst : Ref sig .tc := ⟨.hbm, 243, rfl⟩
abbrev main_call4_v0 : Ref sig .tc := ⟨.hbm, 244, rfl⟩
abbrev main_call4_v1 : Ref sig .tc := ⟨.hbm, 245, rfl⟩
abbrev main_call4_cst_0 : Ref sig .tc := ⟨.hbm, 246, rfl⟩
abbrev main_call4_v2 : Ref sig .tc := ⟨.hbm, 247, rfl⟩
abbrev main_call4_v3 : Ref sig .tc := ⟨.hbm, 248, rfl⟩
abbrev main_call4_cst_1 : Ref sig .tc := ⟨.hbm, 249, rfl⟩
abbrev main_call4_call0_v0 : Ref sig .tc := ⟨.hbm, 250, rfl⟩
abbrev main_call4_call0_v1 : Ref sig .tc := ⟨.hbm, 251, rfl⟩
abbrev main_call4_v4 : Ref sig .tc := ⟨.hbm, 252, rfl⟩
abbrev main_call4_v5 : Ref sig .tc := ⟨.hbm, 253, rfl⟩
abbrev main_call4_cst_2 : Ref sig .tc := ⟨.hbm, 254, rfl⟩
abbrev main_call4_v6 : Ref sig .tc := ⟨.hbm, 255, rfl⟩
abbrev main_call4_v7 : Ref sig .tc := ⟨.hbm, 256, rfl⟩
abbrev main_v140 : Ref sig .tc := ⟨.hbm, 257, rfl⟩
abbrev main_v141 : Ref sig .tc := ⟨.hbm, 258, rfl⟩
abbrev main_v142 : Ref sig .tc := ⟨.hbm, 259, rfl⟩
abbrev main_v143 : Ref sig .tc := ⟨.hbm, 260, rfl⟩
abbrev main_c_27 : Ref sig .tc := ⟨.hbm, 261, rfl⟩
abbrev main_v144 : Ref sig .tc := ⟨.hbm, 262, rfl⟩
abbrev main_v145 : Ref sig .tc := ⟨.hbm, 263, rfl⟩
abbrev main_c_28 : Ref sig .tc := ⟨.hbm, 264, rfl⟩
abbrev main_v146 : Ref sig .tc := ⟨.hbm, 265, rfl⟩
abbrev main_v147 : Ref sig .tc := ⟨.hbm, 266, rfl⟩
abbrev main_v148 : Ref sig .tc := ⟨.hbm, 267, rfl⟩
abbrev main_v149 : Ref sig .tc := ⟨.hbm, 268, rfl⟩
abbrev main_v150 : Ref sig .tc := ⟨.hbm, 269, rfl⟩
abbrev main_cst_29 : Ref sig .tc := ⟨.hbm, 270, rfl⟩
abbrev main_v151 : Ref sig .tc := ⟨.hbm, 271, rfl⟩
abbrev main_v152 : Ref sig .tc := ⟨.hbm, 272, rfl⟩
abbrev main_v153 : Ref sig .tc := ⟨.hbm, 273, rfl⟩
abbrev main_v154 : Ref sig .tc := ⟨.hbm, 274, rfl⟩
abbrev main_v155 : Ref sig .tc := ⟨.hbm, 275, rfl⟩
abbrev main_v156 : Ref sig .tc := ⟨.hbm, 276, rfl⟩
abbrev main_v157 : Ref sig .tc := ⟨.hbm, 277, rfl⟩
abbrev main_v158 : Ref sig .tc := ⟨.hbm, 278, rfl⟩
abbrev main_call5_cst : Ref sig .tc := ⟨.hbm, 279, rfl⟩
abbrev main_call5_v0 : Ref sig .tc := ⟨.hbm, 280, rfl⟩
abbrev main_call5_v1 : Ref sig .tc := ⟨.hbm, 281, rfl⟩
abbrev main_call5_cst_0 : Ref sig .tc := ⟨.hbm, 282, rfl⟩
abbrev main_call5_v2 : Ref sig .tc := ⟨.hbm, 283, rfl⟩
abbrev main_call5_v3 : Ref sig .tc := ⟨.hbm, 284, rfl⟩
abbrev main_call5_cst_1 : Ref sig .tc := ⟨.hbm, 285, rfl⟩
abbrev main_call5_call0_v0 : Ref sig .tc := ⟨.hbm, 286, rfl⟩
abbrev main_call5_call0_v1 : Ref sig .tc := ⟨.hbm, 287, rfl⟩
abbrev main_call5_v4 : Ref sig .tc := ⟨.hbm, 288, rfl⟩
abbrev main_call5_v5 : Ref sig .tc := ⟨.hbm, 289, rfl⟩
abbrev main_call5_cst_2 : Ref sig .tc := ⟨.hbm, 290, rfl⟩
abbrev main_call5_v6 : Ref sig .tc := ⟨.hbm, 291, rfl⟩
abbrev main_call5_v7 : Ref sig .tc := ⟨.hbm, 292, rfl⟩
abbrev main_v159 : Ref sig .tc := ⟨.hbm, 293, rfl⟩
abbrev main_v160 : Ref sig .tc := ⟨.hbm, 294, rfl⟩
abbrev main_v161 : Ref sig .tc := ⟨.hbm, 295, rfl⟩
abbrev main_v162 : Ref sig .tc := ⟨.hbm, 296, rfl⟩
abbrev main_v163 : Ref sig .tc := ⟨.hbm, 297, rfl⟩
abbrev main_cst_30 : Ref sig .tc := ⟨.hbm, 298, rfl⟩
abbrev main_v164 : Ref sig .tc := ⟨.hbm, 299, rfl⟩
abbrev main_cst_31 : Ref sig .tc := ⟨.hbm, 300, rfl⟩
abbrev main_v165 : Ref sig .tc := ⟨.hbm, 301, rfl⟩
abbrev main_v166 : Ref sig .tc := ⟨.hbm, 302, rfl⟩
abbrev main_v167 : Ref sig .tc := ⟨.hbm, 303, rfl⟩
abbrev main_v168 : Ref sig .tc := ⟨.hbm, 304, rfl⟩
abbrev main_v169 : Ref sig .tc := ⟨.hbm, 305, rfl⟩
abbrev main_c_32 : Ref sig .tc := ⟨.hbm, 306, rfl⟩
abbrev main_call6_call0_cst : Ref sig .tc := ⟨.hbm, 307, rfl⟩
abbrev main_call6_call0_v0 : Ref sig .tc := ⟨.hbm, 308, rfl⟩
abbrev main_call6_call0_v1 : Ref sig .tc := ⟨.hbm, 309, rfl⟩
abbrev main_call6_call0_cst_0 : Ref sig .tc := ⟨.hbm, 310, rfl⟩
abbrev main_call6_call0_v2 : Ref sig .tc := ⟨.hbm, 311, rfl⟩
abbrev main_call6_call0_v3 : Ref sig .tc := ⟨.hbm, 312, rfl⟩
abbrev main_call6_call0_v4 : Ref sig .tc := ⟨.hbm, 313, rfl⟩
abbrev main_call6_call0_v5 : Ref sig .tc := ⟨.hbm, 314, rfl⟩
abbrev main_call6_call0_v6 : Ref sig .tc := ⟨.hbm, 315, rfl⟩
abbrev main_call6_call0_v7 : Ref sig .tc := ⟨.hbm, 316, rfl⟩
abbrev main_call6_call0_cst_1 : Ref sig .tc := ⟨.hbm, 317, rfl⟩
abbrev main_call6_call0_v8 : Ref sig .tc := ⟨.hbm, 318, rfl⟩
abbrev main_call6_call0_cst_2 : Ref sig .tc := ⟨.hbm, 319, rfl⟩
abbrev main_call6_call0_v9 : Ref sig .tc := ⟨.hbm, 320, rfl⟩
abbrev main_call6_call0_v10 : Ref sig .tc := ⟨.hbm, 321, rfl⟩
abbrev main_call6_call0_v11 : Ref sig .tc := ⟨.hbm, 322, rfl⟩
abbrev main_call6_call0_cst_3 : Ref sig .tc := ⟨.hbm, 323, rfl⟩
abbrev main_call6_call0_v12 : Ref sig .tc := ⟨.hbm, 324, rfl⟩
abbrev main_call6_call0_cst_4 : Ref sig .tc := ⟨.hbm, 325, rfl⟩
abbrev main_call6_call0_call0_v0 : Ref sig .tc := ⟨.hbm, 326, rfl⟩
abbrev main_call6_call0_call0_v1 : Ref sig .tc := ⟨.hbm, 327, rfl⟩
abbrev main_call6_v0 : Ref sig .tc := ⟨.hbm, 328, rfl⟩
abbrev main_v170 : Ref sig .tc := ⟨.hbm, 329, rfl⟩
abbrev main_v171 : Ref sig .tc := ⟨.hbm, 330, rfl⟩
abbrev main_v172 : Ref sig .tc := ⟨.hbm, 331, rfl⟩
abbrev main_v173 : Ref sig .tc := ⟨.hbm, 332, rfl⟩
abbrev main_cst_33 : Ref sig .tc := ⟨.hbm, 333, rfl⟩
abbrev main_v174 : Ref sig .tc := ⟨.hbm, 334, rfl⟩
abbrev main_cst_34 : Ref sig .tc := ⟨.hbm, 335, rfl⟩
abbrev main_v175 : Ref sig .tc := ⟨.hbm, 336, rfl⟩
abbrev main_v176 : Ref sig .tc := ⟨.hbm, 337, rfl⟩
abbrev main_v177 : Ref sig .tc := ⟨.hbm, 338, rfl⟩
abbrev main_v178 : Ref sig .tc := ⟨.hbm, 339, rfl⟩
abbrev main_v179 : Ref sig .tc := ⟨.hbm, 340, rfl⟩
abbrev main_c_35 : Ref sig .tc := ⟨.hbm, 341, rfl⟩
abbrev main_call7_call0_cst : Ref sig .tc := ⟨.hbm, 342, rfl⟩
abbrev main_call7_call0_v0 : Ref sig .tc := ⟨.hbm, 343, rfl⟩
abbrev main_call7_call0_v1 : Ref sig .tc := ⟨.hbm, 344, rfl⟩
abbrev main_call7_call0_cst_0 : Ref sig .tc := ⟨.hbm, 345, rfl⟩
abbrev main_call7_call0_v2 : Ref sig .tc := ⟨.hbm, 346, rfl⟩
abbrev main_call7_call0_v3 : Ref sig .tc := ⟨.hbm, 347, rfl⟩
abbrev main_call7_call0_v4 : Ref sig .tc := ⟨.hbm, 348, rfl⟩
abbrev main_call7_call0_v5 : Ref sig .tc := ⟨.hbm, 349, rfl⟩
abbrev main_call7_call0_v6 : Ref sig .tc := ⟨.hbm, 350, rfl⟩
abbrev main_call7_call0_v7 : Ref sig .tc := ⟨.hbm, 351, rfl⟩
abbrev main_call7_call0_cst_1 : Ref sig .tc := ⟨.hbm, 352, rfl⟩
abbrev main_call7_call0_v8 : Ref sig .tc := ⟨.hbm, 353, rfl⟩
abbrev main_call7_call0_cst_2 : Ref sig .tc := ⟨.hbm, 354, rfl⟩
abbrev main_call7_call0_v9 : Ref sig .tc := ⟨.hbm, 355, rfl⟩
abbrev main_call7_call0_v10 : Ref sig .tc := ⟨.hbm, 356, rfl⟩
abbrev main_call7_call0_v11 : Ref sig .tc := ⟨.hbm, 357, rfl⟩
abbrev main_call7_call0_cst_3 : Ref sig .tc := ⟨.hbm, 358, rfl⟩
abbrev main_call7_call0_v12 : Ref sig .tc := ⟨.hbm, 359, rfl⟩
abbrev main_call7_call0_cst_4 : Ref sig .tc := ⟨.hbm, 360, rfl⟩
abbrev main_call7_call0_call0_v0 : Ref sig .tc := ⟨.hbm, 361, rfl⟩
abbrev main_call7_call0_call0_v1 : Ref sig .tc := ⟨.hbm, 362, rfl⟩
abbrev main_call7_v0 : Ref sig .tc := ⟨.hbm, 363, rfl⟩
abbrev main_v180 : Ref sig .tc := ⟨.hbm, 364, rfl⟩
abbrev main_v181 : Ref sig .tc := ⟨.hbm, 365, rfl⟩
abbrev main_v182 : Ref sig .tc := ⟨.hbm, 366, rfl⟩
abbrev main_v183 : Ref sig .tc := ⟨.hbm, 367, rfl⟩
abbrev main_v184 : Ref sig .tc := ⟨.hbm, 368, rfl⟩
abbrev main_v185 : Ref sig .tc := ⟨.hbm, 369, rfl⟩
abbrev main_v186 : Ref sig .tc := ⟨.hbm, 370, rfl⟩
abbrev main_v187 : Ref sig .tc := ⟨.hbm, 371, rfl⟩
abbrev main_v188 : Ref sig .tc := ⟨.hbm, 372, rfl⟩
abbrev main_v189 : Ref sig .tc := ⟨.hbm, 373, rfl⟩
abbrev main_v190 : Ref sig .tc := ⟨.hbm, 374, rfl⟩
abbrev main_v191 : Ref sig .tc := ⟨.hbm, 375, rfl⟩

abbrev nD : Nat := 1
abbrev τ : Topo := Topo.v7x

variable {F : FTy → Type} [FloatOps F]

class Facts₀ : Prop where
  bcast_S_S50000x128 : S_.BroadcastsInDim S50000x128 (![] : Fin 0 → Fin S50000x128.rank)
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x2_S50000x2_1_0_0_1_n_n_wf : DotDims.WF S50000x128 S128x2 S50000x2 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf

class Facts : Prop extends Facts₀ where

variable [Facts]
-- ==== Proof.Spec.lean ====
import Idealize.ShloMosaic.PureOps
import Idealize.ShloMosaic.PureOps.Ideal

noncomputable section

namespace Cert.Spec

open Idealize.ShloMosaic

abbrev S_ : Shape := ⟨0, ![]⟩
abbrev S2 : Shape := ⟨1, ![2]⟩
abbrev S128 : Shape := ⟨1, ![128]⟩
abbrev S50000 : Shape := ⟨1, ![50000]⟩
abbrev S600000 : Shape := ⟨1, ![600000]⟩
abbrev S1x2 : Shape := ⟨2, ![1, 2]⟩
abbrev S1x128 : Shape := ⟨2, ![1, 128]⟩
abbrev S128x2 : Shape := ⟨2, ![128, 2]⟩
abbrev S128x128 : Shape := ⟨2, ![128, 128]⟩
abbrev S50000x1 : Shape := ⟨2, ![50000, 1]⟩
abbrev S50000x2 : Shape := ⟨2, ![50000, 2]⟩
abbrev S50000x128 : Shape := ⟨2, ![50000, 128]⟩
abbrev S600000x1 : Shape := ⟨2, ![600000, 1]⟩
abbrev S600000x128 : Shape := ⟨2, ![600000, 128]⟩

theorem b_S_N128 : S_.BroadcastsInDim S50000x128 (![] : Fin 0 → Fin S50000x128.rank) := by decide
theorem b_S_E : S_.BroadcastsInDim S600000 (![] : Fin 0 → Fin S600000.rank) := by decide
theorem b_S_N : S_.BroadcastsInDim S50000 (![] : Fin 0 → Fin S50000.rank) := by decide
theorem b_S_128 : S_.BroadcastsInDim S128 (![] : Fin 0 → Fin S128.rank) := by decide
theorem b_S_1x128 : S_.BroadcastsInDim S1x128 (![] : Fin 0 → Fin S1x128.rank) := by decide
theorem b_E_Ex1 : S600000.BroadcastsInDim S600000x1 (![0] : Fin 1 → Fin S600000x1.rank) := by decide
theorem b_N_Nx1 : S50000.BroadcastsInDim S50000x1 (![0] : Fin 1 → Fin S50000x1.rank) := by decide
theorem b_Nx1_N128 : S50000x1.BroadcastsInDim S50000x128 (![0, 1] : Fin 2 → Fin S50000x128.rank) := by decide
theorem b_128_1x128 : S128.BroadcastsInDim S1x128 (![1] : Fin 1 → Fin S1x128.rank) := by decide
theorem b_1x128_N128 : S1x128.BroadcastsInDim S50000x128 (![0, 1] : Fin 2 → Fin S50000x128.rank) := by decide
theorem b_2_1x2 : S2.BroadcastsInDim S1x2 (![1] : Fin 1 → Fin S1x2.rank) := by decide
theorem b_1x2_Nx2 : S1x2.BroadcastsInDim S50000x2 (![0, 1] : Fin 2 → Fin S50000x2.rank) := by decide
theorem red_N128_128 : S50000x128.ReducesTo [0] S128 := by decide
theorem pos_S_ : 0 < S_.numel := by decide

def sdDeg : ScatterDims S50000 S600000x1 S600000 where
  updateWindowDims := []
  insertedWindowDims := [0]
  scatterDimsToOperandDims := [0]
  indexVectorDim := 1
  wf := by decide

def ddHid : DotDims S50000x128 S128x128 S50000x128 where
  lhsContracting := [1]
  rhsContracting := [0]
  lhsNonContracting := [0]
  rhsNonContracting := [1]
  lhsBatch := []
  rhsBatch := []
  wf := by decide

def gdRow : GatherDims S50000x128 S600000x1 S600000x128 where
  offsetDims := [1]
  collapsedSliceDims := [0]
  operandBatchingDims := []
  startIndicesBatchingDims := []
  startIndexMap := [0]
  indexVectorDim := 1
  sliceSizes := ![1, 128]
  wf := by decide

def sdRow : ScatterDims S50000x128 S600000x1 S600000x128 where
  updateWindowDims := [1]
  insertedWindowDims := [0]
  scatterDimsToOperandDims := [0]
  indexVectorDim := 1
  wf := by decide

def ddCls : DotDims S50000x128 S128x2 S50000x2 where
  lhsContracting := [1]
  rhsContracting := [0]
  lhsNonContracting := [0]
  rhsNonContracting := [1]
  lhsBatch := []
  rhsBatch := []
  wf := by decide

variable {F : FTy → Type} [FloatOps F]

def fill (t : Shape) (h : S_.BroadcastsInDim t (![] : Fin 0 → Fin t.rank)) (b : BitVec 32) : FVec F t .f32 :=
  broadcastInDim t ![] h (constant S_ .f32 b)

def rows128 (v : FVec F S128 .f32) : FVec F S50000x128 .f32 :=
  broadcastInDim S50000x128 ![0, 1] b_1x128_N128 (broadcastInDim S1x128 ![1] b_128_1x128 v)

def cols (v : FVec F S50000x1 .f32) : FVec F S50000x128 .f32 :=
  broadcastInDim S50000x128 ![0, 1] b_Nx1_N128 v

def drop (X M : FVec F S50000x128 .f32) : FVec F S50000x128 .f32 :=
  mulf (mulf X (uitofp .f32 (cmpf .ogt M (fill S50000x128 b_S_N128 0x3E4CCCCD#32)))) (fill S50000x128 b_S_N128 0x3FA00000#32)

def deg (idx : IVec S600000 32) : FVec F S50000 .f32 :=
  Host.scatterAdd sdDeg (fill S50000 b_S_N 0x00000000#32) (broadcastInDim S600000x1 ![0] b_E_Ex1 idx) (fill S600000 b_S_E 0x3F800000#32)

def norm (idx : IVec S600000 32) : FVec F S50000x1 .f32 :=
  broadcastInDim S50000x1 ![0] b_N_Nx1 (Host.rsqrt (maximumf (deg (F := F) idx) (fill S50000 b_S_N 0x3F800000#32)))

def wrap (idx : IVec S600000 32) : IVec S600000 32 :=
  select (cmpi .slt idx (broadcastInDim S600000 ![] b_S_E (constantI S_ 32 0#32)))
    (addi idx (broadcastInDim S600000 ![] b_S_E (constantI S_ 32 50000#32))) idx

def hidden (x : FVec F S50000x128 .f32) (ns : FVec F S50000x1 .f32) (W : FVec F S128x128 .f32) : FVec F S50000x128 .f32 :=
  Host.dotGeneral ddHid none (mulf x (cols ns)) W

def aggregate (h : FVec F S50000x128 .f32) (src dst : IVec S600000 32) : FVec F S50000x128 .f32 :=
  Host.scatterAdd sdRow (fill S50000x128 b_S_N128 0x00000000#32) (broadcastInDim S600000x1 ![0] b_E_Ex1 dst)
    (Host.gather gdRow h (broadcastInDim S600000x1 ![0] b_E_Ex1 (wrap src)))

def affine (a : FVec F S50000x128 .f32) (nd : FVec F S50000x1 .f32) (b : FVec F S128 .f32) : FVec F S50000x128 .f32 :=
  addf (mulf a (cols nd)) (rows128 b)

def layer (x : FVec F S50000x128 .f32) (ns nd : FVec F S50000x1 .f32) (W : FVec F S128x128 .f32) (b : FVec F S128 .f32)
    (src dst : IVec S600000 32) : FVec F S50000x128 .f32 :=
  affine (aggregate (hidden x ns W) src dst) nd b

def eluRef (x : FVec F S50000x128 .f32) : FVec F S50000x128 .f32 :=
  select (cmpf .ogt x (fill S50000x128 b_S_N128 0x00000000#32)) x
    (mulf (fill S50000x128 b_S_N128 0x3F800000#32)
      (Host.expm1 (select (cmpf .ogt x (fill S50000x128 b_S_N128 0x00000000#32))
        (broadcastInDim S50000x128 ![] b_S_N128 (id (constant S_ .f32 0x00000000#32))) x)))

-- A graph's embedding: dropout, three normalised graph-convolution layers with their units, and the head.
def embed (X M : FVec F S50000x128 .f32) (src dst : IVec S600000 32) (W1 : FVec F S128x128 .f32) (b1 : FVec F S128 .f32)
    (W2 : FVec F S128x128 .f32) (b2 : FVec F S128 .f32) (W3 : FVec F S128x128 .f32) (b3 : FVec F S128 .f32)
    (Wl : FVec F S128x128 .f32) (bl : FVec F S128 .f32) : FVec F S50000x128 .f32 :=
  addf (Host.dotGeneral ddHid none
    (eluRef (layer (eluRef (layer (eluRef (layer (drop X M) (norm src) (norm dst) W1 b1 src dst))
      (norm src) (norm dst) W2 b2 src dst)) (norm src) (norm dst) W3 b3 src dst)) Wl) (rows128 bl)

def colSum (E : FVec F S50000x128 .f32) : FVec F S128 .f32 :=
  Host.reduceAdd E (constant S_ .f32 0x00000000#32) red_N128_128 pos_S_

def refMean (E : FVec F S50000x128 .f32) : FVec F S128 .f32 :=
  Host.divf (colSum E) (fill S128 b_S_128 0x47435000#32)

def refVar (E : FVec F S50000x128 .f32) : FVec F S128 .f32 :=
  let mean : FVec F S1x128 .f32 := Host.divf (broadcastInDim S1x128 ![1] b_128_1x128 (colSum E)) (fill S1x128 b_S_1x128 0x47435000#32)
  let dev : FVec F S50000x128 .f32 := subf E (broadcastInDim S50000x128 ![0, 1] b_1x128_N128 mean)
  let cnt : FVec F S_ .f32 := subf (constant S_ .f32 0x47435000#32) (sitofp .f32 (constantI S_ 32 1#32))
  select (broadcastInDim S128 ![] b_S_128 (cmpf .ogt cnt (constant S_ .f32 0x00000000#32)))
    (Host.divf (colSum (mulf dev dev)) (broadcastInDim S128 ![] b_S_128 cnt))
    (broadcastInDim S128 ![] b_S_128 (id (constant S_ .f32 0x7FC00000#32)))

def refStd (E : FVec F S50000x128 .f32) : FVec F S128 .f32 := Host.sqrt (refVar E)

-- The reference's standardisation: deviation from the column mean over the unbiased standard deviation.
def refNorm (E : FVec F S50000x128 .f32) : FVec F S50000x128 .f32 :=
  Host.divf (subf E (rows128 (refMean E))) (rows128 (refStd E))

def classify (Z : FVec F S50000x128 .f32) (Wc : FVec F S128x2 .f32) (bc : FVec F S2 .f32) : FVec F S50000x2 .f32 :=
  addf (Host.dotGeneral ddCls none Z Wc)
    (broadcastInDim S50000x2 ![0, 1] b_1x2_Nx2 (broadcastInDim S1x2 ![1] b_2_1x2 bc))

def rows1x128 (v : FVec F S1x128 .f32) : FVec F S50000x128 .f32 := broadcastInDim S50000x128 ![0, 1] b_1x128_N128 v

def rows1x2 (v : FVec F S1x2 .f32) : FVec F S50000x2 .f32 := broadcastInDim S50000x2 ![0, 1] b_1x2_Nx2 v

def row128 (v : FVec F S128 .f32) : FVec F S1x128 .f32 := broadcastInDim S1x128 ![1] b_128_1x128 v

def row2 (v : FVec F S2 .f32) : FVec F S1x2 .f32 := broadcastInDim S1x2 ![1] b_2_1x2 v

def affine2 (a : FVec F S50000x128 .f32) (nd : FVec F S50000x1 .f32) (b : FVec F S1x128 .f32) : FVec F S50000x128 .f32 :=
  addf (mulf a (cols nd)) (rows1x128 b)

def head2 (x : FVec F S50000x128 .f32) (Wl : FVec F S128x128 .f32) (bl : FVec F S1x128 .f32) : FVec F S50000x128 .f32 :=
  addf (Host.dotGeneral ddHid none (eluRef x) Wl) (rows1x128 bl)

-- The kernel's standardisation: deviation from the mean row times the reciprocal row.
def kNorm (x : FVec F S50000x128 .f32) (mean inv : FVec F S1x128 .f32) : FVec F S50000x128 .f32 :=
  mulf (subf x (rows1x128 mean)) (rows1x128 inv)

def classify2 (Z : FVec F S50000x128 .f32) (Wc : FVec F S128x2 .f32) (bc : FVec F S1x2 .f32) : FVec F S50000x2 .f32 :=
  addf (Host.dotGeneral ddCls none Z Wc) (rows1x2 bc)

def kMean (s : FVec F S1x128 .f32) : FVec F S1x128 .f32 := Host.divf s (fill S1x128 b_S_1x128 0x47435000#32)

def kInv (s q : FVec F S1x128 .f32) : FVec F S1x128 .f32 :=
  Host.rsqrt (Host.divf (subf q (mulf (mulf (fill S1x128 b_S_1x128 0x47435000#32) (kMean s)) (kMean s)))
    (fill S1x128 b_S_1x128 0x47434F00#32))

end Cert.Spec

end
-- ==== Proof.LibLayout.lean ====
import Idealize.ShloMosaic.Lib.ValueLayout
import Idealize.ShloMosaic.PureOps.Ideal.Laws

noncomputable section

namespace Cert.LibLayout

open Idealize.ShloMosaic Idealize.ShloMosaic.ValueIdx

variable {α : Type}

-- Broadcasts between a vector and a matrix with a unit axis only re-index: each reads its operand at the matching coordinate.
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

-- A plain rows-by-columns product at an entry is the sum over the shared coordinate.
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b)
      = ∑ c : Fin k, A (ix2 a c) * B (ix2 c b) := by
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Cert.LibLayout

end
-- ==== Proof.RegPoint.lean ====
import proofs.«107092_j29411936043366_1_alg».proof.Proof.Gen.KernelIdeal.Frame
import proofs.«107092_j29411936043366_1_alg».proof.Proof.Spec
import proofs.«107092_j29411936043366_1_alg».proof.Proof.LibLayout
import Idealize.ShloMosaic.Lib.Pipeline.Value
import Idealize.ShloMosaic.Lib.IdealHost

noncomputable section

namespace Cert.RegPoint

open Cert.KernelIdeal Cert.KernelIdeal.Gen Idealize.ShloMosaic Idealize.ShloMosaic.TcCoe Idealize.SL.Sem
open Idealize.ShloMosaic.ValueIdx
open Idealize.ShloMosaic.Pipeline (Dat)

/-- A one-bit word widened by zeros reads the same signed as unsigned: zero or one. -/
theorem bit_signed_eq_unsigned (b : BitVec 1) :
    FloatOps.sitofp (F := Ideal) .f32 (b.setWidth 32) = FloatOps.uitofp (F := Ideal) .f32 b := by
  show (((b.setWidth 32).toInt : ℝ) : EReal) = ((b.toNat : ℝ) : EReal)
  rcases BitVec.eq_zero_or_eq_one b with h | h <;> subst h <;> simp

/-- Whatever the bit that chooses, `exp y - 1` and `1 * expm1 y` are chosen alike: where it is clear they are equal. -/
theorem elu_eq (c : BitVec 1) (y : EReal) :
    Scalar.select c y (Ideal.exp y - Ideal.ofBits .f32 0x3F800000#32)
      = Scalar.select c y (Ideal.ofBits .f32 0x3F800000#32
          * FloatOps.hostUnary (F := Ideal) (φ := .f32) .expm1 (Scalar.select c (Ideal.ofBits .f32 0x00000000#32) y)) := by
  rcases BitVec.eq_zero_or_eq_one c with rfl | rfl
  · rw [select_zero, select_zero, select_zero, Ideal.hostUnary_expm1_def, Ideal.ofBits_one_f32, one_mul]
  · rw [select_one, select_one]

theorem hz : (![0, 0] : Fin 2 → Nat) = fun _ => 0 := funext fun a => by fin_cases a <;> rfl

/-- Read through the whole block, a block is itself; written once over the whole block, it is what is left. -/
theorem ld0 {d : Fin 2 → ℕ} {e : EltTy} (X : (⟨2, d⟩ : Shape).Idx → Elt Ideal e) (b) :
    View.ld X (Rect.unit (s := ⟨2, d⟩) ![0, 0] d b) = X :=
  View.ld_unit_zero hz b X

theorem canon0 {d : Fin 2 → ℕ} {e : EltTy} (X : (⟨2, d⟩ : Shape).Idx → Elt Ideal e) (b) :
    View.canon [(⟨Rect.unit (s := ⟨2, d⟩) ![0, 0] d b, X⟩ : View.Piece (Elt Ideal) ⟨2, d⟩ e)] = X :=
  View.canon_unit_zero hz b X

/-- Block `ix` among the blocks of extents `sz` of an array of shape `s`, as a map of indices. -/
abbrev bemb (s : Shape) (sz ix : Fin s.rank → ℕ) (b : ∀ a, ix a * sz a + sz a ≤ s.size a) : (⟨s.rank, sz⟩ : Shape).Idx → s.Idx :=
  (Rect.unit (fun a => ix a * sz a) sz b).emb

/-- Entry `(p, q)` of block `(i, k)` is entry `(i m' + p, k n' + q)` of the array. -/
theorem bemb_ix2 {m n m' n' i k : ℕ} (b) (p : Fin m') (q : Fin n') (r : Fin m) (s : Fin n) (hr : r.val = i * m' + p.val)
    (hs : s.val = k * n' + q.val) : bemb ⟨2, ![m, n]⟩ ![m', n'] ![i, k] b (ix2 p q) = ix2 r s := by
  funext a; apply Fin.ext
  match a with
  | ⟨0, _⟩ => show i * m' + 1 * p.val = r.val; omega
  | ⟨1, _⟩ => show k * n' + 1 * q.val = s.val; omega

/-- Dropout of blocks `t` of the features and of the mask is block `t` of the dropout of the arrays. -/
theorem drop_blk {t : ℕ} {i0 i1 i2 : Fin 2 → ℕ} (X M : FVec Ideal S50000x128 .f32)
    (e : i0 = ![t, 0] ∧ i1 = ![t, 0] ∧ i2 = ![t, 0]) (b0 b1 b2) (j : S5000x128.Idx) :
    k0_pay1 (fun y => M (bemb S50000x128 S5000x128.size i1 b1 y)) (fun y => X (bemb S50000x128 S5000x128.size i0 b0 y)) j
      = Cert.Spec.drop X M (bemb S50000x128 S5000x128.size i2 b2 j) := by
  obtain ⟨rfl, rfl, rfl⟩ := e
  show _ * FloatOps.sitofp (F := Ideal) .f32 (BitVec.setWidth 32 _) * _ = _
  rw [bit_signed_eq_unsigned]
  rfl

/-- Block `t` of the aggregate by block `t` of the norm column, plus the bias row, is block `t` of `Spec.affine2`. -/
theorem affine_blk {t : ℕ} {i0 i1 i2 i3 : Fin 2 → ℕ} (A : FVec Ideal S50000x128 .f32) (Nd : FVec Ideal S50000x1 .f32)
    (B : FVec Ideal S1x128 .f32) (e : i0 = ![t, 0] ∧ i1 = ![t, 0] ∧ i2 = ![0, 0] ∧ i3 = ![t, 0]) (b0 b1 b2 b3)
    (j : S5000x128.Idx) :
    k6_pay1 (fun y => A (bemb S50000x128 S5000x128.size i0 b0 y)) (fun y => Nd (bemb S50000x1 S5000x1.size i1 b1 y))
        (fun y => B (bemb S1x128 S1x128.size i2 b2 y)) j
      = Cert.Spec.affine2 A Nd B (bemb S50000x128 S5000x128.size i3 b3 j) := by
  obtain ⟨rfl, rfl, rfl, rfl⟩ := e
  obtain ⟨p, q, rfl⟩ : ∃ (p : Fin 5000) (q : Fin 128), j = ix2 p q := ⟨j 0, j 1, eq_ix2 j⟩
  have hr : t * 5000 + p.val < 50000 := by have h : t * 5000 + 5000 ≤ 50000 := b3 0; omega
  rw [bemb_ix2 b3 p q ⟨_, hr⟩ q rfl (by omega)]
  show shapeCast S5000x128 _ _ (ix2 p q) * broadcastTo S5000x128 (shapeCast S5000x1 _ _) _ (ix2 p q)
      + broadcastTo S5000x128 (shapeCast S1x128 _ _) _ (ix2 p q) = A _ * Cert.Spec.cols Nd _ + Cert.Spec.rows1x128 B _
  rw [shapeCast_self, shapeCast_self, shapeCast_self, Cert.LibLayout.broadcastTo_a1_ab_apply _ _ p q, broadcastTo_1b_ab_apply _ _ p q,
    Cert.Spec.cols, Cert.Spec.rows1x128, Cert.LibLayout.broadcastInDim_a1_ab_apply Nd, Cert.LibLayout.broadcastInDim_1b_ab_apply B,
    bemb_ix2 b0 p q ⟨_, hr⟩ q rfl (by omega), bemb_ix2 b1 p 0 ⟨_, hr⟩ 0 rfl rfl, bemb_ix2 b2 0 q 0 q rfl (by omega)]

/-- The unit, spelt with `exp` on a block entry and with `expm1` on the array entry it equals. -/
theorem elu_pt (v0 : Vec Ideal S5000x128 .f32) (v2 : Vec Ideal S5000x1 .f32) (v6 : Vec Ideal S1x128 .f32)
    (G : FVec Ideal S50000x128 .f32) (j : S5000x128.Idx) (i : S50000x128.Idx) (h : k6_pay1 v0 v2 v6 j = G i) :
    k2_pay1 v0 v2 v6 j = Cert.Spec.eluRef G i :=
  (elu_eq _ _).trans (congrArg (fun y => Cert.Spec.eluRef (fun _ => y) i) h)

/-- Ten blocks of 5000 rows, block `t` at rows `5000 t …`, cover 50000 rows. -/
theorem rows_cover {N : ℕ} (hN : N = 10) {ix : Fin N → Fin 2 → ℕ} (hix : ∀ t, ix t = ![t.val, 0]) (i : S50000x128.Idx) :
    ∃ t, ∀ b, i ∈ Finset.univ.map (Rect.unit (s := S50000x128) (fun a => ix t a * S5000x128.size a) S5000x128.size b).emb := by
  refine ⟨⟨(i 0).val / 5000, by have := idx2_lt0 i; omega⟩, fun b => ?_⟩
  rw [Rect.map_emb_univ, Rect.mem_set_unit]
  intro a
  rw [hix]
  match a with
  | ⟨0, _⟩ => exact ⟨Nat.div_mul_le_self _ _, Nat.lt_div_mul_add (by decide)⟩
  | ⟨1, _⟩ => exact ⟨Nat.zero_le _, idx2_lt1 i⟩

variable (V : (c : Dev nD) → (b : Ref sig .tc) → Buf (Elt Ideal) ((c : Thread nD τ).loc b))

theorem idx0 : ∀ t : Fin cfg0.N, win0_0.index t = ![t.val, 0] ∧ win0_1.index t = ![t.val, 0] ∧ win0_2.index t = ![t.val, 0] :=
  (by decide +kernel : ∀ t : Fin grid0.N, _)

theorem final0 (c : Dev nD) :
    (dat0 (F := Ideal) V c).arrAt 2 cfg0.N
      = Cert.Spec.drop (F := Ideal) (V c (Pipeline.arrRef spec0 0)) (V c (Pipeline.arrRef spec0 1)) :=
  (dat0 V c).arrAt_eq_of_cover 2 _
    (fun t _ => by
      rw [Dat.flushed, after0_2, out0_2, canon0, ld0, ld0]
      exact funext (drop_blk _ _ (idx0 t) _ _ _))
    fun i => (rows_cover N_0 (fun t => (idx0 t).2.2) i).imp fun t h => ⟨flush0_2 t, h _⟩

theorem idx2 : ∀ t : Fin cfg2.N, win2_0.index t = ![t.val, 0] ∧ win2_1.index t = ![t.val, 0] ∧ win2_2.index t = ![0, 0]
    ∧ win2_3.index t = ![t.val, 0] :=
  (by decide +kernel : ∀ t : Fin grid2.N, _)

theorem final2 (c : Dev nD) :
    (dat2 (F := Ideal) V c).arrAt 3 cfg2.N
      = Cert.Spec.eluRef (F := Ideal) (Cert.Spec.affine2 (F := Ideal) (V c (Pipeline.arrRef spec2 0)) (V c (Pipeline.arrRef spec2 1)) (V c (Pipeline.arrRef spec2 2))) :=
  (dat2 V c).arrAt_eq_of_cover 3 _
    (fun t _ => by
      rw [Dat.flushed, after2_3, out2_3, canon0, ld0, ld0, ld0]
      exact funext fun j => elu_pt _ _ _ _ _ _ (affine_blk _ _ _ (idx2 t) _ _ _ _ j))
    fun i => (rows_cover N_2 (fun t => (idx2 t).2.2.2) i).imp fun t h => ⟨flush2_3 t, h _⟩

theorem idx4 : ∀ t : Fin cfg4.N, win4_0.index t = ![t.val, 0] ∧ win4_1.index t = ![t.val, 0] ∧ win4_2.index t = ![0, 0]
    ∧ win4_3.index t = ![t.val, 0] :=
  (by decide +kernel : ∀ t : Fin grid4.N, _)

theorem final4 (c : Dev nD) :
    (dat4 (F := Ideal) V c).arrAt 3 cfg4.N
      = Cert.Spec.eluRef (F := Ideal) (Cert.Spec.affine2 (F := Ideal) (V c (Pipeline.arrRef spec4 0)) (V c (Pipeline.arrRef spec4 1)) (V c (Pipeline.arrRef spec4 2))) :=
  (dat4 V c).arrAt_eq_of_cover 3 _
    (fun t _ => by
      rw [Dat.flushed, after4_3, out4_3, canon0, ld0, ld0, ld0]
      exact funext fun j => elu_pt _ _ _ _ _ _ (affine_blk _ _ _ (idx4 t) _ _ _ _ j))
    fun i => (rows_cover N_4 (fun t => (idx4 t).2.2.2) i).imp fun t h => ⟨flush4_3 t, h _⟩

theorem idx6 : ∀ t : Fin cfg6.N, win6_0.index t = ![t.val, 0] ∧ win6_1.index t = ![t.val, 0] ∧ win6_2.index t = ![0, 0]
    ∧ win6_3.index t = ![t.val, 0] :=
  (by decide +kernel : ∀ t : Fin grid6.N, _)

theorem final6 (c : Dev nD) :
    (dat6 (F := Ideal) V c).arrAt 3 cfg6.N
      = Cert.Spec.affine2 (F := Ideal) (V c (Pipeline.arrRef spec6 0)) (V c (Pipeline.arrRef spec6 1)) (V c (Pipeline.arrRef spec6 2)) :=
  (dat6 V c).arrAt_eq_of_cover 3 _
    (fun t _ => by
      rw [Dat.flushed, after6_3, out6_3, canon0, ld0, ld0, ld0]
      exact funext fun j => affine_blk _ _ _ (idx6 t) _ _ _ _ j)
    fun i => (rows_cover N_6 (fun t => (idx6 t).2.2.2) i).imp fun t h => ⟨flush6_3 t, h _⟩

theorem idx8 : ∀ t : Fin cfg8.N, win8_0.index t = ![t.val, 0] ∧ win8_1.index t = ![t.val, 0] ∧ win8_2.index t = ![t.val, 0] :=
  (by decide +kernel : ∀ t : Fin grid8.N, _)

theorem final8 (c : Dev nD) :
    (dat8 (F := Ideal) V c).arrAt 2 cfg8.N
      = Cert.Spec.drop (F := Ideal) (V c (Pipeline.arrRef spec8 0)) (V c (Pipeline.arrRef spec8 1)) :=
  (dat8 V c).arrAt_eq_of_cover 2 _
    (fun t _ => by
      rw [Dat.flushed, after8_2, out8_2, canon0, ld0, ld0]
      exact funext (drop_blk _ _ (idx8 t) _ _ _))
    fun i => (rows_cover N_8 (fun t => (idx8 t).2.2) i).imp fun t h => ⟨flush8_2 t, h _⟩

theorem idx10 : ∀ t : Fin cfg10.N, win10_0.index t = ![t.val, 0] ∧ win10_1.index t = ![t.val, 0] ∧ win10_2.index t = ![0, 0]
    ∧ win10_3.index t = ![t.val, 0] :=
  (by decide +kernel : ∀ t : Fin grid10.N, _)

theorem final10 (c : Dev nD) :
    (dat10 (F := Ideal) V c).arrAt 3 cfg10.N
      = Cert.Spec.eluRef (F := Ideal) (Cert.Spec.affine2 (F := Ideal) (V c (Pipeline.arrRef spec10 0)) (V c (Pipeline.arrRef spec10 1)) (V c (Pipeline.arrRef spec10 2))) :=
  (dat10 V c).arrAt_eq_of_cover 3 _
    (fun t _ => by
      rw [Dat.flushed, after10_3, out10_3, canon0, ld0, ld0, ld0]
      exact funext fun j => elu_pt _ _ _ _ _ _ (affine_blk _ _ _ (idx10 t) _ _ _ _ j))
    fun i => (rows_cover N_10 (fun t => (idx10 t).2.2.2) i).imp fun t h => ⟨flush10_3 t, h _⟩

theorem idx12 : ∀ t : Fin cfg12.N, win12_0.index t = ![t.val, 0] ∧ win12_1.index t = ![t.val, 0] ∧ win12_2.index t = ![0, 0]
    ∧ win12_3.index t = ![t.val, 0] :=
  (by decide +kernel : ∀ t : Fin grid12.N, _)

theorem final12 (c : Dev nD) :
    (dat12 (F := Ideal) V c).arrAt 3 cfg12.N
      = Cert.Spec.eluRef (F := Ideal) (Cert.Spec.affine2 (F := Ideal) (V c (Pipeline.arrRef spec12 0)) (V c (Pipeline.arrRef spec12 1)) (V c (Pipeline.arrRef spec12 2))) :=
  (dat12 V c).arrAt_eq_of_cover 3 _
    (fun t _ => by
      rw [Dat.flushed, after12_3, out12_3, canon0, ld0, ld0, ld0]
      exact funext fun j => elu_pt _ _ _ _ _ _ (affine_blk _ _ _ (idx12 t) _ _ _ _ j))
    fun i => (rows_cover N_12 (fun t => (idx12 t).2.2.2) i).imp fun t h => ⟨flush12_3 t, h _⟩

theorem idx14 : ∀ t : Fin cfg14.N, win14_0.index t = ![t.val, 0] ∧ win14_1.index t = ![t.val, 0] ∧ win14_2.index t = ![0, 0]
    ∧ win14_3.index t = ![t.val, 0] :=
  (by decide +kernel : ∀ t : Fin grid14.N, _)

theorem final14 (c : Dev nD) :
    (dat14 (F := Ideal) V c).arrAt 3 cfg14.N
      = Cert.Spec.affine2 (F := Ideal) (V c (Pipeline.arrRef spec14 0)) (V c (Pipeline.arrRef spec14 1)) (V c (Pipeline.arrRef spec14 2)) :=
  (dat14 V c).arrAt_eq_of_cover 3 _
    (fun t _ => by
      rw [Dat.flushed, after14_3, out14_3, canon0, ld0, ld0, ld0]
      exact funext fun j => affine_blk _ _ _ (idx14 t) _ _ _ _ j)
    fun i => (rows_cover N_14 (fun t => (idx14 t).2.2.2) i).imp fun t h => ⟨flush14_3 t, h _⟩

end Cert.RegPoint

end
-- ==== Proof.RegMat.lean ====
import proofs.«107092_j29411936043366_1_alg».proof.Proof.Gen.KernelIdeal.Frame
import proofs.«107092_j29411936043366_1_alg».proof.Proof.Spec
import proofs.«107092_j29411936043366_1_alg».proof.Proof.LibLayout
import Idealize.ShloMosaic.PureOps.IdealRules

namespace Cert.RegMat

open Cert.KernelIdeal Cert.KernelIdeal.Gen
open Idealize.ShloMosaic Idealize.ShloMosaic.TcCoe Idealize.ShloMosaic.ValueIdx Idealize.SL.Sem
open Idealize.ShloMosaic.Pipeline (Dat)

-- A rows-by-columns product into the zero accumulator, read at an entry, is the sum over the shared coordinate.
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) :=
  (Ideal.matmul_constant_zero_apply _ prec A B _).trans
    ((Ideal.dotGeneral_apply _ prec .single A B _).symm.trans (Cert.LibLayout.dotGeneral_plain_apply prec .single A B a b))

theorem dot_eq_plain : dot_S5000x128_S128x128_S5000x128_1_0_0_1_n_n = DotDims.plain 5000 128 128 := rfl

theorem ddHid_eq_plain : Cert.Spec.ddHid = DotDims.plain 50000 128 128 := rfl

theorem ofBits_one_f32 : Ideal.ofBits .f32 0x3F800000#32 = 1 := IdealRules.sign_bit.ideal_onePat .f32

theorem hz : (![0, 0] : Fin 2 → Nat) = fun _ => 0 := funext fun a => by fin_cases a <;> rfl

-- Block T of n rows, read at (p, c), is the array at (T n + p, c).
theorem ld_rows {Val : EltTy → Type} {e : EltTy} {n m N M : ℕ} (A : (⟨2, ![N, M]⟩ : Shape).Idx → Val e) (T : ℕ)
    (b : ∀ a, ![T, 0] a * (⟨2, ![n, m]⟩ : Shape).size a + (⟨2, ![n, m]⟩ : Shape).size a ≤ (⟨2, ![N, M]⟩ : Shape).size a)
    (p : Fin n) (c : Fin m) (r : Fin N) (c' : Fin M) (hr : r.val = T * n + p.val) (hc : c'.val = c.val) :
    View.ld A (Rect.unit (fun a => ![T, 0] a * (⟨2, ![n, m]⟩ : Shape).size a) (⟨2, ![n, m]⟩ : Shape).size b) (ix2 p c)
      = A (ix2 r c') :=
  congrArg A (Shape.idx_ext₂ (by show T * n + 1 * p.val = r.val; omega) (by show 0 * m + 1 * c.val = c'.val; omega))

theorem pre_body_apply (x0 : Vec Ideal S5000x128 .f32) (x1 : Vec Ideal S5000x1 .f32) (x2 : Vec Ideal S128x128 .f32)
    (p : Fin 5000) (q : Fin 128) :
    k1_pay1 x0 x1 x2 (ix2 p q) = ∑ c : Fin 128, (x0 (ix2 p c) * x1 (ix2 p (0 : Fin 1))) * x2 (ix2 c q) := by
  unfold k1_pay1
  simp only [matmul, shapeCast_self]
  rw [dot_eq_plain, matmul_plain_zero_apply]
  refine Finset.sum_congr rfl fun c _ => ?_
  rw [truncf_apply, truncf_apply, mulf_apply, Cert.LibLayout.broadcastTo_a1_ab_apply]

theorem hidden_apply (X : FVec Ideal S50000x128 .f32) (NS : FVec Ideal S50000x1 .f32) (W : FVec Ideal S128x128 .f32)
    (r : Fin 50000) (q : Fin 128) :
    Cert.Spec.hidden X NS W (ix2 r q) = ∑ c : Fin 128, (X (ix2 r c) * NS (ix2 r (0 : Fin 1))) * W (ix2 c q) := by
  unfold Cert.Spec.hidden Cert.Spec.cols
  simp only [Host.dotGeneral]
  rw [ddHid_eq_plain, Cert.LibLayout.dotGeneral_plain_apply]
  refine Finset.sum_congr rfl fun c _ => ?_
  rw [mulf_apply, Cert.LibLayout.broadcastInDim_a1_ab_apply]

-- Rows scaled by a column, times the weight: computed from block T of rows it is block T of rows of the whole arrays' product.
theorem pre_rows {X : FVec Ideal S50000x128 .f32} {NS : FVec Ideal S50000x1 .f32} {W : FVec Ideal S128x128 .f32}
    {i0 i1 i2 i3 : Fin 2 → ℕ} {T : ℕ} (h : i0 = ![T, 0] ∧ i1 = ![T, 0] ∧ i2 = ![0, 0] ∧ i3 = ![T, 0])
    {b0 : ∀ a, i0 a * S5000x128.size a + S5000x128.size a ≤ S50000x128.size a}
    {b1 : ∀ a, i1 a * S5000x1.size a + S5000x1.size a ≤ S50000x1.size a}
    {b2 : ∀ a, i2 a * S128x128.size a + S128x128.size a ≤ S128x128.size a}
    {b3 : ∀ a, i3 a * S5000x128.size a + S5000x128.size a ≤ S50000x128.size a}
    {x : Vec Ideal S5000x128 .f32} (hx : x = out1_3 (View.ld (Val := Elt Ideal) X (Rect.unit (s := S50000x128) (fun a => i0 a * S5000x128.size a) S5000x128.size b0))
        (View.ld (Val := Elt Ideal) NS (Rect.unit (s := S50000x1) (fun a => i1 a * S5000x1.size a) S5000x1.size b1))
        (View.ld (Val := Elt Ideal) W (Rect.unit (fun a => i2 a * S128x128.size a) S128x128.size b2))) :
    x = View.ld (Val := Elt Ideal) (Cert.Spec.hidden X NS W) (Rect.unit (s := S50000x128) (fun a => i3 a * S5000x128.size a) S5000x128.size b3) := by
  obtain ⟨rfl, rfl, rfl, rfl⟩ := h
  subst hx
  unfold out1_3
  rw [View.canon_unit_zero hz]
  simp only [View.ld_unit_zero (S := S5000x128) hz, View.ld_unit_zero (S := S5000x1) hz, View.ld_unit_zero (S := S128x128) hz]
  funext j
  obtain ⟨p, q, rfl⟩ : ∃ (p : Fin 5000) (q : Fin 128), j = ix2 p q := ⟨j 0, j 1, eq_ix2 j⟩
  have hr : T * 5000 + p.val < 50000 := by have hb : T * 5000 + 5000 ≤ 50000 := b3 0; omega
  rw [ld_rows _ T b3 p q ⟨_, hr⟩ q rfl rfl, pre_body_apply, hidden_apply]
  refine Finset.sum_congr rfl fun c _ => ?_
  rw [ld_rows _ T b0 p c ⟨_, hr⟩ c rfl rfl, ld_rows _ T b1 p 0 ⟨_, hr⟩ 0 rfl rfl, ld_rows _ 0 b2 c q c q (by omega) rfl]

noncomputable def kelu (x : EReal) : EReal :=
  Scalar.select (FloatOps.cmpf (F := Ideal) (φ := .f32) .ogt x (Ideal.ofBits .f32 0x00000000#32)) x
    (Ideal.exp x - Ideal.ofBits .f32 0x3F800000#32)

theorem head_body_apply (x0 : Vec Ideal S5000x128 .f32) (x1 : Vec Ideal S128x128 .f32) (x2 : Vec Ideal S1x128 .f32)
    (p : Fin 5000) (q : Fin 128) :
    k7_pay1 x0 x1 x2 (ix2 p q) = (∑ c : Fin 128, kelu (x0 (ix2 p c)) * x1 (ix2 c q)) + x2 (ix2 (0 : Fin 1) q) := by
  unfold k7_pay1
  simp only [matmul, shapeCast_self]
  rw [addf_apply, dot_eq_plain, matmul_plain_zero_apply, broadcastTo_1b_ab_apply]
  rfl

-- Where the entry is not positive the inner replacement keeps it, and one times the exponential minus one is itself.
theorem eluRef_apply (X : FVec Ideal S50000x128 .f32) (i : S50000x128.Idx) : Cert.Spec.eluRef X i = kelu (X i) := by
  have z : ∀ b : BitVec 32, Cert.Spec.fill (F := Ideal) S50000x128 Cert.Spec.b_S_N128 b i = Ideal.ofBits .f32 b := fun b =>
    Cert.LibLayout.broadcastInDim_scalar_apply _ _ i
  have z' : broadcastInDim S50000x128 ![] Cert.Spec.b_S_N128 (id (constant (F := Ideal) S_ .f32 0x00000000#32)) i
      = Ideal.ofBits .f32 0x00000000#32 := Cert.LibLayout.broadcastInDim_scalar_apply _ _ i
  show Scalar.select (FloatOps.cmpf .ogt (X i) (Cert.Spec.fill _ _ _ i)) (X i) (Cert.Spec.fill _ _ _ i * FloatOps.hostUnary .expm1
      (Scalar.select (FloatOps.cmpf .ogt (X i) (Cert.Spec.fill _ _ _ i)) (broadcastInDim _ _ _ _ i) (X i))) = _
  rw [z, z, z']
  unfold kelu
  rcases BitVec.eq_zero_or_eq_one (FloatOps.cmpf (F := Ideal) (φ := .f32) .ogt (X i) (Ideal.ofBits .f32 0x00000000#32)) with h | h
  · rw [h, select_zero, select_zero, select_zero, Ideal.hostUnary_expm1_def, ofBits_one_f32, one_mul]
  · rw [h, select_one, select_one]

theorem head2_apply (X : FVec Ideal S50000x128 .f32) (Wl : FVec Ideal S128x128 .f32) (bl : FVec Ideal S1x128 .f32)
    (r : Fin 50000) (q : Fin 128) :
    Cert.Spec.head2 X Wl bl (ix2 r q) = (∑ c : Fin 128, kelu (X (ix2 r c)) * Wl (ix2 c q)) + bl (ix2 (0 : Fin 1) q) := by
  unfold Cert.Spec.head2 Cert.Spec.rows1x128
  simp only [Host.dotGeneral]
  rw [addf_apply, ddHid_eq_plain, Cert.LibLayout.dotGeneral_plain_apply, Cert.LibLayout.broadcastInDim_1b_ab_apply]
  simp only [eluRef_apply]

-- The unit entry by entry, times the weight, plus the bias row: computed from block T of rows it is block T of the whole arrays' function.
theorem head_rows {X : FVec Ideal S50000x128 .f32} {Wl : FVec Ideal S128x128 .f32} {bl : FVec Ideal S1x128 .f32}
    {i0 i1 i2 i3 : Fin 2 → ℕ} {T : ℕ} (h : i0 = ![T, 0] ∧ i1 = ![0, 0] ∧ i2 = ![0, 0] ∧ i3 = ![T, 0])
    {b0 : ∀ a, i0 a * S5000x128.size a + S5000x128.size a ≤ S50000x128.size a}
    {b1 : ∀ a, i1 a * S128x128.size a + S128x128.size a ≤ S128x128.size a}
    {b2 : ∀ a, i2 a * S1x128.size a + S1x128.size a ≤ S1x128.size a}
    {b3 : ∀ a, i3 a * S5000x128.size a + S5000x128.size a ≤ S50000x128.size a}
    {x : Vec Ideal S5000x128 .f32} (hx : x = out7_3 (View.ld (Val := Elt Ideal) X (Rect.unit (s := S50000x128) (fun a => i0 a * S5000x128.size a) S5000x128.size b0))
        (View.ld (Val := Elt Ideal) Wl (Rect.unit (fun a => i1 a * S128x128.size a) S128x128.size b1))
        (View.ld (Val := Elt Ideal) bl (Rect.unit (fun a => i2 a * S1x128.size a) S1x128.size b2))) :
    x = View.ld (Val := Elt Ideal) (Cert.Spec.head2 X Wl bl) (Rect.unit (s := S50000x128) (fun a => i3 a * S5000x128.size a) S5000x128.size b3) := by
  obtain ⟨rfl, rfl, rfl, rfl⟩ := h
  subst hx
  unfold out7_3
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  have hr : T * 5000 + p.val < 50000 := by have hb : T * 5000 + 5000 ≤ 50000 := b3 0; omega
  rw [ld_rows _ T b3 p q ⟨_, hr⟩ q rfl rfl, head_body_apply, head2_apply, ld_rows _ 0 b2 0 q 0 q rfl rfl]
  refine congrArg (· + _) (Finset.sum_congr rfl fun c _ => ?_)
  rw [ld_rows _ T b0 p c ⟨_, hr⟩ c rfl rfl, ld_rows _ 0 b1 c q c q (by omega) rfl]

-- Ten blocks of 5000 rows, block t at rows 5000 t on, cover the 50000 rows: row r is in block r / 5000.
theorem cover_rows {N : ℕ} (hN : N = 10) {idx : Fin N → Fin 2 → ℕ} (h : ∀ t, idx t = ![t.val, 0])
    {fl : Fin N → Bool} (hfl : ∀ t, fl t = true)
    {b : ∀ t a, idx t a * S5000x128.size a + S5000x128.size a ≤ S50000x128.size a}
    {S : Fin N → Finset S50000x128.Idx}
    (hS : ∀ t, S t = (Rect.unit (s := S50000x128) (fun a => idx t a * S5000x128.size a) S5000x128.size (b t)).set) (i : S50000x128.Idx) :
    ∃ t, fl t = true ∧ i ∈ S t := by
  subst hN
  have hi0 := idx2_lt0 i
  have hi1 := idx2_lt1 i
  refine ⟨⟨(i 0).val / 5000, by omega⟩, hfl _, ?_⟩
  rw [hS, Rect.mem_set_unit]
  intro a
  rw [h]
  match a with
  | ⟨0, _⟩ => show (i 0).val / 5000 * 5000 ≤ (i 0).val ∧ (i 0).val < (i 0).val / 5000 * 5000 + 5000; omega
  | ⟨1, _⟩ => show 0 * 128 ≤ (i 1).val ∧ (i 1).val < 0 * 128 + 128; omega

variable (V : (c : Dev nD) → (b : Ref sig .tc) → Buf (Elt Ideal) ((c : Thread nD τ).loc b))

theorem idx1 : ∀ t : Fin grid1.N, win1_0.index t = ![t.val, 0] ∧ win1_1.index t = ![t.val, 0] ∧ win1_2.index t = ![0, 0]
    ∧ win1_3.index t = ![t.val, 0] := by decide +kernel

theorem final1 (c : Dev nD) : (dat1 V c).arrAt 3 cfg1.N
    = Cert.Spec.hidden (F := Ideal) (V c (Pipeline.arrRef spec1 0)) (V c (Pipeline.arrRef spec1 1)) (V c (Pipeline.arrRef spec1 2)) :=
  (dat1 V c).arrAt_eq_of_cover 3 _ (fun t _ => pre_rows (idx1 t) (after1_3 V c t))
    (cover_rows N_1 (fun t => (idx1 t).2.2.2) flush1_3 fun _ => View.set_slice_whole _ _)

theorem idx3 : ∀ t : Fin grid3.N, win3_0.index t = ![t.val, 0] ∧ win3_1.index t = ![t.val, 0] ∧ win3_2.index t = ![0, 0]
    ∧ win3_3.index t = ![t.val, 0] := by decide +kernel

theorem final3 (c : Dev nD) : (dat3 V c).arrAt 3 cfg3.N
    = Cert.Spec.hidden (F := Ideal) (V c (Pipeline.arrRef spec3 0)) (V c (Pipeline.arrRef spec3 1)) (V c (Pipeline.arrRef spec3 2)) :=
  (dat3 V c).arrAt_eq_of_cover 3 _ (fun t _ => pre_rows (idx3 t) (after3_3 V c t))
    (cover_rows N_3 (fun t => (idx3 t).2.2.2) flush3_3 fun _ => View.set_slice_whole _ _)

theorem idx5 : ∀ t : Fin grid5.N, win5_0.index t = ![t.val, 0] ∧ win5_1.index t = ![t.val, 0] ∧ win5_2.index t = ![0, 0]
    ∧ win5_3.index t = ![t.val, 0] := by decide +kernel

theorem final5 (c : Dev nD) : (dat5 V c).arrAt 3 cfg5.N
    = Cert.Spec.hidden (F := Ideal) (V c (Pipeline.arrRef spec5 0)) (V c (Pipeline.arrRef spec5 1)) (V c (Pipeline.arrRef spec5 2)) :=
  (dat5 V c).arrAt_eq_of_cover 3 _ (fun t _ => pre_rows (idx5 t) (after5_3 V c t))
    (cover_rows N_5 (fun t => (idx5 t).2.2.2) flush5_3 fun _ => View.set_slice_whole _ _)

theorem idx7 : ∀ t : Fin grid7.N, win7_0.index t = ![t.val, 0] ∧ win7_1.index t = ![0, 0] ∧ win7_2.index t = ![0, 0]
    ∧ win7_3.index t = ![t.val, 0] := by decide +kernel

theorem final7 (c : Dev nD) : (dat7 V c).arrAt 3 cfg7.N
    = Cert.Spec.head2 (F := Ideal) (V c (Pipeline.arrRef spec7 0)) (V c (Pipeline.arrRef spec7 1)) (V c (Pipeline.arrRef spec7 2)) :=
  (dat7 V c).arrAt_eq_of_cover 3 _ (fun t _ => head_rows (idx7 t) (after7_3 V c t))
    (cover_rows N_7 (fun t => (idx7 t).2.2.2) flush7_3 fun _ => View.set_slice_whole _ _)

theorem idx9 : ∀ t : Fin grid9.N, win9_0.index t = ![t.val, 0] ∧ win9_1.index t = ![t.val, 0] ∧ win9_2.index t = ![0, 0]
    ∧ win9_3.index t = ![t.val, 0] := by decide +kernel

theorem final9 (c : Dev nD) : (dat9 V c).arrAt 3 cfg9.N
    = Cert.Spec.hidden (F := Ideal) (V c (Pipeline.arrRef spec9 0)) (V c (Pipeline.arrRef spec9 1)) (V c (Pipeline.arrRef spec9 2)) :=
  (dat9 V c).arrAt_eq_of_cover 3 _ (fun t _ => pre_rows (idx9 t) (after9_3 V c t))
    (cover_rows N_9 (fun t => (idx9 t).2.2.2) flush9_3 fun _ => View.set_slice_whole _ _)

theorem idx11 : ∀ t : Fin grid11.N, win11_0.index t = ![t.val, 0] ∧ win11_1.index t = ![t.val, 0] ∧ win11_2.index t = ![0, 0]
    ∧ win11_3.index t = ![t.val, 0] := by decide +kernel

theorem final11 (c : Dev nD) : (dat11 V c).arrAt 3 cfg11.N
    = Cert.Spec.hidden (F := Ideal) (V c (Pipeline.arrRef spec11 0)) (V c (Pipeline.arrRef spec11 1)) (V c (Pipeline.arrRef spec11 2)) :=
  (dat11 V c).arrAt_eq_of_cover 3 _ (fun t _ => pre_rows (idx11 t) (after11_3 V c t))
    (cover_rows N_11 (fun t => (idx11 t).2.2.2) flush11_3 fun _ => View.set_slice_whole _ _)

theorem idx13 : ∀ t : Fin grid13.N, win13_0.index t = ![t.val, 0] ∧ win13_1.index t = ![t.val, 0] ∧ win13_2.index t = ![0, 0]
    ∧ win13_3.index t = ![t.val, 0] := by decide +kernel

theorem final13 (c : Dev nD) : (dat13 V c).arrAt 3 cfg13.N
    = Cert.Spec.hidden (F := Ideal) (V c (Pipeline.arrRef spec13 0)) (V c (Pipeline.arrRef spec13 1)) (V c (Pipeline.arrRef spec13 2)) :=
  (dat13 V c).arrAt_eq_of_cover 3 _ (fun t _ => pre_rows (idx13 t) (after13_3 V c t))
    (cover_rows N_13 (fun t => (idx13 t).2.2.2) flush13_3 fun _ => View.set_slice_whole _ _)

theorem idx15 : ∀ t : Fin grid15.N, win15_0.index t = ![t.val, 0] ∧ win15_1.index t = ![0, 0] ∧ win15_2.index t = ![0, 0]
    ∧ win15_3.index t = ![t.val, 0] := by decide +kernel

theorem final15 (c : Dev nD) : (dat15 V c).arrAt 3 cfg15.N
    = Cert.Spec.head2 (F := Ideal) (V c (Pipeline.arrRef spec15 0)) (V c (Pipeline.arrRef spec15 1)) (V c (Pipeline.arrRef spec15 2)) :=
  (dat15 V c).arrAt_eq_of_cover 3 _ (fun t _ => head_rows (idx15 t) (after15_3 V c t))
    (cover_rows N_15 (fun t => (idx15 t).2.2.2) flush15_3 fun _ => View.set_slice_whole _ _)

end Cert.RegMat
-- ==== Proof.RegStats.lean ====
import proofs.«107092_j29411936043366_1_alg».proof.Proof.Gen.KernelIdeal.Frame
import proofs.«107092_j29411936043366_1_alg».proof.Proof.Spec
import proofs.«107092_j29411936043366_1_alg».proof.Proof.LibLayout
import Idealize.ShloMosaic.Lib.IdealHost

noncomputable section

namespace Cert.RegStats

open Idealize.ShloMosaic Idealize.ShloMosaic.TcCoe Idealize.SL.Sem Idealize.ShloMosaic.ValueIdx
open Idealize.ShloMosaic.Pipeline (Dat)
open Cert.KernelIdeal Cert.KernelIdeal.Gen

-- Rows before block n + 1 are the rows before block n followed by block n's 5000 rows.
theorem sum_rows_succ (f : ℕ → EReal) (n : ℕ) :
    ∑ k ∈ Finset.range (5000 * (n + 1)), f k
      = ∑ k ∈ Finset.range (5000 * n), f k + ∑ r : Fin 5000, f (5000 * n + r.val) := by
  rw [Nat.mul_succ, Finset.sum_range_add, Finset.sum_range fun x => f (5000 * n + x)]

-- Column l of a [50000,128] array as a sequence over the row number, zero past the last row.
def colSeq (G : FVec Ideal S50000x128 .f32) (l : Fin 128) (k : ℕ) : EReal :=
  if h : k < 50000 then G (ix2 ⟨k, h⟩ l) else 0

theorem colSeq_sq (G : FVec Ideal S50000x128 .f32) (l : Fin 128) (k : ℕ) :
    colSeq (mulf G G) l k = colSeq G l k * colSeq G l k := by
  unfold colSeq
  split
  · rfl
  · exact (mul_zero (0 : EReal)).symm

-- Reducing a [n,128] array over its rows keeps lane l and runs over the row coordinate.
theorem lift_col {n : ℕ} (hred : (⟨2, ![n, 128]⟩ : Shape).Reduces [0] S128) (l : Fin 128) (r : Fin n) :
    hred.lift (ix1 l) r = ix2 r l := by
  funext a
  apply Fin.ext
  match a with
  | ⟨0, _⟩ => rfl
  | ⟨1, _⟩ => rfl

-- The first output's update: the carried value plus the block's column sums.
theorem pay4_apply (x : Vec Ideal S5000x128 .f32) (acc : Vec Ideal S1x128 .f32) (u : Fin 1) (l : Fin 128) :
    k16_pay4 x acc (ix2 u l) = acc (ix2 u l) + ∑ r : Fin 5000, x (ix2 r l) := by
  unfold k16_pay4 k16_pay3
  dsimp only
  simp only [shapeCast_self]
  rw [addf_apply, shapeCast_a_1a_apply]
  exact congrArg (_ + ·) ((Ideal.multiReduction_add_single x _ reduces_S5000x128_S128 _ _ (ix1 l)).trans
    (Finset.sum_congr rfl fun r _ => congrArg x (lift_col _ l r)))

-- The second output's update is the first's on the entrywise square.
theorem pay5_eq (x : Vec Ideal S5000x128 .f32) (acc : Vec Ideal S1x128 .f32) :
    k16_pay5 x acc = k16_pay4 (mulf x x) acc := by
  unfold k16_pay5 k16_pay4 k16_pay3
  dsimp only
  simp only [shapeCast_self]

-- Summing each column from zero and laying the sums out as a row gives in lane l the sum of column l over all rows.
theorem row128_colSum_apply (G : FVec Ideal S50000x128 .f32) (u : Fin 1) (l : Fin 128) :
    Cert.Spec.row128 (Cert.Spec.colSum G) (ix2 u l)
      = ∑ k ∈ Finset.range 50000, colSeq G l k := by
  have hred : S50000x128.Reduces [0] S128 := by decide
  rw [Cert.Spec.row128, Cert.LibLayout.broadcastInDim_b_1b_apply, Cert.Spec.colSum, hostReduceAdd_apply,
    Ideal.hostReduceAdd_single _ hred, Finset.sum_range]
  exact (congrArg₂ (· + ·) Ideal.ofBits_zero_f32
    (Finset.sum_congr rfl fun k _ => (congrArg G (lift_col hred l k)).trans
      (dif_pos k.isLt : colSeq G l k = G (ix2 k l)).symm)).trans (zero_add _)

-- Zero updated by blocks 0 to 9 in turn is the column sums of the array the ten blocks tile: sums in EReal regroup freely.
theorem chan {N : ℕ} (s : (n : ℕ) → n < N → Vec Ideal S1x128 .f32) (b : Fin N → Vec Ideal S5000x128 .f32)
    (G : FVec Ideal S50000x128 .f32) (h0 : ∀ h, s 0 h = k16_pay4 (b ⟨0, h⟩) (k16_pay1 (F := Ideal)))
    (hs : ∀ n h, s (n + 1) h = k16_pay4 (b ⟨n + 1, h⟩) (s n (Nat.lt_of_succ_lt h)))
    (hb : ∀ t r l, b t (ix2 r l) = colSeq G l (5000 * t.val + r.val)) (h9 : 9 < N) :
    s 9 h9 = Cert.Spec.row128 (Cert.Spec.colSum G) := by
  have key : ∀ n h u l, s n h (ix2 u l) = ∑ k ∈ Finset.range (5000 * (n + 1)), colSeq G l k := by
    intro n
    induction n with
    | zero =>
      intro h u l
      rw [h0, pay4_apply, sum_rows_succ, Nat.mul_zero, Finset.sum_range_zero]
      exact congrArg₂ (· + ·) Ideal.ofBits_zero_f32 (Finset.sum_congr rfl fun r _ => hb ⟨0, h⟩ r l)
    | succ n ih =>
      intro h u l
      rw [hs, pay4_apply, sum_rows_succ, ih]
      exact congrArg (_ + ·) (Finset.sum_congr rfl fun r _ => hb ⟨n + 1, h⟩ r l)
  funext j
  obtain ⟨u, l, rfl⟩ : ∃ (u : Fin 1) (l : Fin 128), j = ix2 u l := ⟨j 0, j 1, eq_ix2 j⟩
  exact (key 9 h9 u l).trans (row128_colSum_apply G u l).symm

-- Both outputs of an accumulating walk over ten blocks: the column sums and the column sums of squares.
theorem stats_run {N : ℕ} (o : (n : ℕ) → n < N → Vec Ideal S1x128 .f32 × Vec Ideal S1x128 .f32)
    (b : Fin N → Vec Ideal S5000x128 .f32) (G : FVec Ideal S50000x128 .f32)
    (h0 : ∀ h, o 0 h = (k16_pay4 (b ⟨0, h⟩) (k16_pay1 (F := Ideal)), k16_pay5 (b ⟨0, h⟩) (k16_pay2 (F := Ideal))))
    (hs : ∀ n h, o (n + 1) h = (k16_pay4 (b ⟨n + 1, h⟩) (o n (Nat.lt_of_succ_lt h)).1,
      k16_pay5 (b ⟨n + 1, h⟩) (o n (Nat.lt_of_succ_lt h)).2))
    (hb : ∀ t r l, b t (ix2 r l) = colSeq G l (5000 * t.val + r.val)) (h9 : 9 < N) :
    o 9 h9 = (Cert.Spec.row128 (Cert.Spec.colSum G),
      Cert.Spec.row128 (Cert.Spec.colSum (mulf G G))) :=
  Prod.ext
    (chan (fun n h => (o n h).1) b G (fun h => congrArg Prod.fst (h0 h)) (fun n h => congrArg Prod.fst (hs n h)) hb h9)
    (chan (fun n h => (o n h).2) (fun t => (mulf (b t) (b t) : FVec Ideal S5000x128 .f32)) (mulf G G)
      (fun h => (congrArg Prod.snd (h0 h)).trans (pay5_eq _ _)) (fun n h => (congrArg Prod.snd (hs n h)).trans (pay5_eq _ _))
      (fun t r l => (congrArg₂ (· * ·) (hb t r l) (hb t r l)).trans (colSeq_sq G l _).symm) h9)

theorem inb_zero {S : Shape} {off : Fin S.rank → ℕ} (h : off = fun _ => 0) (a : Fin S.rank) :
    off a + S.size a ≤ S.size a := by subst h; simp

theorem zero_off : (![0, 0] : Fin 2 → Nat) = fun _ => 0 := funext fun a => by fin_cases a <;> rfl

variable (V : (c : Dev nD) → (b : Ref sig .tc) → Buf (Elt Ideal) ((c : Thread nD τ).loc b))

abbrev arr16 (c : Dev nD) : FVec Ideal S50000x128 .f32 := V c (Pipeline.arrRef spec16 0)

theorem blk16_apply (c : Dev nD) (t : Fin cfg16.N) (r : Fin 5000) (l : Fin 128) :
    (iblk16 V c 0 t : Vec Ideal S5000x128 .f32) (ix2 r l) = colSeq (arr16 V c) l (5000 * t.val + r.val) := by
  have ht : t.val < 10 := lt_of_lt_of_eq t.isLt (show cfg16.N = 10 from N_16)
  have hi : win16_0.index t 0 = t.val ∧ win16_0.index t 1 = 0 :=
    (by decide +kernel : ∀ t : Fin grid16.N, win16_0.index t 0 = t.val ∧ win16_0.index t 1 = 0) t
  unfold colSeq
  rw [dif_pos (by have := r.isLt; omega)]
  show arr16 V c _ = arr16 V c _
  refine congrArg _ (funext fun a => Fin.ext ?_)
  match a with
  | ⟨0, _⟩ => show win16_0.index t 0 * 5000 + 1 * r.val = 5000 * t.val + r.val; rw [hi.1]; omega
  | ⟨1, _⟩ => show win16_0.index t 1 * 128 + 1 * l.val = l.val; rw [hi.2]; omega

theorem outs16 (c : Dev nD) :
    (∀ h, outsAt16 V c 0 h = (k16_pay4 (iblk16 V c 0 ⟨0, h⟩) (k16_pay1 (F := Ideal)),
      k16_pay5 (iblk16 V c 0 ⟨0, h⟩) (k16_pay2 (F := Ideal))))
    ∧ ∀ n h, outsAt16 V c (n + 1) h = (k16_pay4 (iblk16 V c 0 ⟨n + 1, h⟩) (outsAt16 V c n (Nat.lt_of_succ_lt h)).1,
      k16_pay5 (iblk16 V c 0 ⟨n + 1, h⟩) (outsAt16 V c n (Nat.lt_of_succ_lt h)).2) := by
  have hN : cfg16.N = 10 := N_16
  refine ⟨fun h => (outsAt16_A V c ⟨0, h⟩ rfl).trans ?_,
    fun n h => (outsAt16_B V c ⟨n + 1, h⟩ (by dsimp only; omega)).trans ?_⟩ <;>
  · simp only [out16_A_1, out16_A_2, out16_B_1, out16_B_2, View.read_writes_junk_eq_canon, kernelRun16_A, kernelRun16_B]
    sl_unfold_words
    simp only [View.canon_cons_unit_zero (S := S1x128) zero_off, View.readCov_unit_zero (S := S1x128) _ zero_off,
      View.readAt_eq_ld, Memref.IsWhole.read_unread, View.ld_unit_zero (S := S5000x128) zero_off,
      View.ld_unit_zero (S := S1x128) zero_off] <;> rfl

theorem run16 (c : Dev nD) : outsAt16 V c t16_9.val t16_9.isLt
    = (Cert.Spec.row128 (Cert.Spec.colSum (arr16 V c)), Cert.Spec.row128 (Cert.Spec.colSum (mulf (arr16 V c) (arr16 V c)))) :=
  stats_run (outsAt16 V c) (iblk16 V c 0) _ (outs16 V c).1 (outs16 V c).2 (blk16_apply V c) t16_9.isLt

theorem final16_sum (c : Dev nD) :
    (dat16 (F := Ideal) V c).arrAt 1 cfg16.N
      = Cert.Spec.row128 (F := Ideal) (Cert.Spec.colSum (F := Ideal) (V c (Pipeline.arrRef spec16 0))) := by
  have hz : (fun a => win16_1.index t16_9 a * main_v115_0.ty.shape.size a) = fun _ => 0 :=
    funext fun a => by fin_cases a <;> decide
  refine (dat16 V c).arrAt_eq_of_cover 1 _ (fun t hf => ?_) fun i => ⟨t16_9, (flush16_1 t16_9).mpr rfl, ?_⟩
  · obtain rfl := (by decide +kernel : ∀ t : Fin grid16.N, (cfg16.win 1).flush t = true → t = t16_9) t hf
    rw [Dat.flushed, after16_1, run16]
    exact (Memref.read_access_unit_zero (Elt Ideal) main_v115_0 hz (inb_zero hz) _).symm
  · exact View.set_slice_whole main_v115_0 _ ▸ View.mem_set_unit_zero hz (inb_zero hz) i

theorem final16_sq (c : Dev nD) :
    (dat16 (F := Ideal) V c).arrAt 2 cfg16.N
      = Cert.Spec.row128 (F := Ideal) (Cert.Spec.colSum (F := Ideal)
          (mulf (V c (Pipeline.arrRef spec16 0)) (V c (Pipeline.arrRef spec16 0)))) := by
  have hz : (fun a => win16_2.index t16_9 a * main_v115_1.ty.shape.size a) = fun _ => 0 :=
    funext fun a => by fin_cases a <;> decide
  refine (dat16 V c).arrAt_eq_of_cover 2 _ (fun t hf => ?_) fun i => ⟨t16_9, (flush16_2 t16_9).mpr rfl, ?_⟩
  · obtain rfl := (by decide +kernel : ∀ t : Fin grid16.N, (cfg16.win 2).flush t = true → t = t16_9) t hf
    rw [Dat.flushed, after16_2, run16]
    exact (Memref.read_access_unit_zero (Elt Ideal) main_v115_1 hz (inb_zero hz) _).symm
  · exact View.set_slice_whole main_v115_1 _ ▸ View.mem_set_unit_zero hz (inb_zero hz) i

abbrev arr17 (c : Dev nD) : FVec Ideal S50000x128 .f32 := V c (Pipeline.arrRef spec17 0)

theorem blk17_apply (c : Dev nD) (t : Fin cfg17.N) (r : Fin 5000) (l : Fin 128) :
    (iblk17 V c 0 t : Vec Ideal S5000x128 .f32) (ix2 r l) = colSeq (arr17 V c) l (5000 * t.val + r.val) := by
  have ht : t.val < 10 := lt_of_lt_of_eq t.isLt (show cfg17.N = 10 from N_17)
  have hi : win17_0.index t 0 = t.val ∧ win17_0.index t 1 = 0 :=
    (by decide +kernel : ∀ t : Fin grid17.N, win17_0.index t 0 = t.val ∧ win17_0.index t 1 = 0) t
  unfold colSeq
  rw [dif_pos (by have := r.isLt; omega)]
  show arr17 V c _ = arr17 V c _
  refine congrArg _ (funext fun a => Fin.ext ?_)
  match a with
  | ⟨0, _⟩ => show win17_0.index t 0 * 5000 + 1 * r.val = 5000 * t.val + r.val; rw [hi.1]; omega
  | ⟨1, _⟩ => show win17_0.index t 1 * 128 + 1 * l.val = l.val; rw [hi.2]; omega

theorem outs17 (c : Dev nD) :
    (∀ h, outsAt17 V c 0 h = (k16_pay4 (iblk17 V c 0 ⟨0, h⟩) (k16_pay1 (F := Ideal)),
      k16_pay5 (iblk17 V c 0 ⟨0, h⟩) (k16_pay2 (F := Ideal))))
    ∧ ∀ n h, outsAt17 V c (n + 1) h = (k16_pay4 (iblk17 V c 0 ⟨n + 1, h⟩) (outsAt17 V c n (Nat.lt_of_succ_lt h)).1,
      k16_pay5 (iblk17 V c 0 ⟨n + 1, h⟩) (outsAt17 V c n (Nat.lt_of_succ_lt h)).2) := by
  have hN : cfg17.N = 10 := N_17
  refine ⟨fun h => (outsAt17_A V c ⟨0, h⟩ rfl).trans ?_,
    fun n h => (outsAt17_B V c ⟨n + 1, h⟩ (by dsimp only; omega)).trans ?_⟩ <;>
  · simp only [out17_A_1, out17_A_2, out17_B_1, out17_B_2, View.read_writes_junk_eq_canon, kernelRun17_A, kernelRun17_B]
    sl_unfold_words
    simp only [View.canon_cons_unit_zero (S := S1x128) zero_off, View.readCov_unit_zero (S := S1x128) _ zero_off,
      View.readAt_eq_ld, Memref.IsWhole.read_unread, View.ld_unit_zero (S := S5000x128) zero_off,
      View.ld_unit_zero (S := S1x128) zero_off] <;> rfl

theorem run17 (c : Dev nD) : outsAt17 V c t17_9.val t17_9.isLt
    = (Cert.Spec.row128 (Cert.Spec.colSum (arr17 V c)), Cert.Spec.row128 (Cert.Spec.colSum (mulf (arr17 V c) (arr17 V c)))) :=
  stats_run (outsAt17 V c) (iblk17 V c 0) _ (outs17 V c).1 (outs17 V c).2 (blk17_apply V c) t17_9.isLt

theorem final17_sum (c : Dev nD) :
    (dat17 (F := Ideal) V c).arrAt 1 cfg17.N
      = Cert.Spec.row128 (F := Ideal) (Cert.Spec.colSum (F := Ideal) (V c (Pipeline.arrRef spec17 0))) := by
  have hz : (fun a => win17_1.index t17_9 a * main_v125_0.ty.shape.size a) = fun _ => 0 :=
    funext fun a => by fin_cases a <;> decide
  refine (dat17 V c).arrAt_eq_of_cover 1 _ (fun t hf => ?_) fun i => ⟨t17_9, (flush17_1 t17_9).mpr rfl, ?_⟩
  · obtain rfl := (by decide +kernel : ∀ t : Fin grid17.N, (cfg17.win 1).flush t = true → t = t17_9) t hf
    rw [Dat.flushed, after17_1, run17]
    exact (Memref.read_access_unit_zero (Elt Ideal) main_v125_0 hz (inb_zero hz) _).symm
  · exact View.set_slice_whole main_v125_0 _ ▸ View.mem_set_unit_zero hz (inb_zero hz) i

theorem final17_sq (c : Dev nD) :
    (dat17 (F := Ideal) V c).arrAt 2 cfg17.N
      = Cert.Spec.row128 (F := Ideal) (Cert.Spec.colSum (F := Ideal)
          (mulf (V c (Pipeline.arrRef spec17 0)) (V c (Pipeline.arrRef spec17 0)))) := by
  have hz : (fun a => win17_2.index t17_9 a * main_v125_1.ty.shape.size a) = fun _ => 0 :=
    funext fun a => by fin_cases a <;> decide
  refine (dat17 V c).arrAt_eq_of_cover 2 _ (fun t hf => ?_) fun i => ⟨t17_9, (flush17_2 t17_9).mpr rfl, ?_⟩
  · obtain rfl := (by decide +kernel : ∀ t : Fin grid17.N, (cfg17.win 2).flush t = true → t = t17_9) t hf
    rw [Dat.flushed, after17_2, run17]
    exact (Memref.read_access_unit_zero (Elt Ideal) main_v125_1 hz (inb_zero hz) _).symm
  · exact View.set_slice_whole main_v125_1 _ ▸ View.mem_set_unit_zero hz (inb_zero hz) i

end Cert.RegStats

end
-- ==== Proof.RegNorm.lean ====
import proofs.«107092_j29411936043366_1_alg».proof.Proof.Gen.KernelIdeal.Frame
import proofs.«107092_j29411936043366_1_alg».proof.Proof.Spec
import proofs.«107092_j29411936043366_1_alg».proof.Proof.LibLayout
import Idealize.ShloMosaic.Lib.KernelVsHost
import Idealize.ShloMosaic.Lib.ValueLayout

noncomputable section

namespace Cert.RegNorm

open Idealize.ShloMosaic Idealize.ShloMosaic.TcCoe Idealize.ShloMosaic.ValueIdx
open Idealize.ShloMosaic.Pipeline (Dat Cfg Window)
open Cert.KernelIdeal Cert.KernelIdeal.Gen

-- On a block of rows the first result is those rows of the standardised embedding: both subtract the mean row's entry and multiply by the reciprocal row's.
theorem pay1_rows (X : FVec Ideal S50000x128 .f32) {mu iv : FVec Ideal S1x128 .f32} {x : FVec Ideal S5000x128 .f32}
    (ρ : Fin 5000 → Fin 50000) (hx : ∀ p q, x (ix2 p q) = X (ix2 (ρ p) q)) (p : Fin 5000) (q : Fin 128) :
    k18_pay1 (F := Ideal) x mu iv (ix2 p q) = Cert.Spec.kNorm X mu iv (ix2 (ρ p) q) := by
  unfold k18_pay1 Cert.Spec.kNorm Cert.Spec.rows1x128
  rw [shapeCast_self, shapeCast_self, shapeCast_self, mulf_apply, subf_apply, mulf_apply, subf_apply, broadcastTo_1b_ab_apply,
    broadcastTo_1b_ab_apply, Cert.LibLayout.broadcastInDim_1b_ab_apply, Cert.LibLayout.broadcastInDim_1b_ab_apply, hx]

-- The second result is those rows of the logits: a sum over the 128 shared coordinates into zero, plus the bias row's entry.
theorem pay2_rows (X : FVec Ideal S50000x128 .f32) {mu iv : FVec Ideal S1x128 .f32} {x : FVec Ideal S5000x128 .f32}
    (Wc : FVec Ideal S128x2 .f32) (bc : FVec Ideal S1x2 .f32)
    (ρ : Fin 5000 → Fin 50000) (hx : ∀ p q, x (ix2 p q) = X (ix2 (ρ p) q)) (p : Fin 5000) (q : Fin 2) :
    k18_pay2 (F := Ideal) x mu iv Wc bc (ix2 p q)
      = Cert.Spec.classify2 (Cert.Spec.kNorm X mu iv) Wc bc (ix2 (ρ p) q) := by
  unfold k18_pay2 Cert.Spec.classify2 Cert.Spec.rows1x2
  rw [shapeCast_self, addf_apply, addf_apply, broadcastTo_1b_ab_apply, Cert.LibLayout.broadcastInDim_1b_ab_apply]
  refine congrArg (· + bc (ix2 (0 : Fin 1) q)) ?_
  have e := matmul_zero_eq_dotGeneral (DotDims.plain 5000 128 2) none
    (truncf .bf16 (k18_pay1 (F := Ideal) x mu iv) bitsLt_bf16_f32) (truncf .bf16 Wc bitsLt_bf16_f32)
  exact ((congrFun e (ix2 p q)).trans (Cert.LibLayout.dotGeneral_plain_apply none .single _ _ p q)).trans
    ((Finset.sum_congr rfl fun k _ => congrArg (· * Wc (ix2 k q)) (pay1_rows X ρ hx p k)).trans
      (Cert.LibLayout.dotGeneral_plain_apply none .single (Cert.Spec.kNorm X mu iv) Wc (ρ p) q).symm)

theorem hz : (![0, 0] : Fin 2 → Nat) = fun _ => 0 := funext fun a => by fin_cases a <;> rfl

-- A single piece over the whole index set is the block's contents, and a block read through the whole index set is itself.
theorem out5_eq (x0 : Vec Ideal S5000x128 .f32) (x1 x2 : Vec Ideal S1x128 .f32) (x3 : Vec Ideal S128x2 .f32) (x4 : Vec Ideal S1x2 .f32) :
    out18_5 x0 x1 x2 x3 x4 = k18_pay1 x0 x1 x2 := by
  unfold out18_5
  rw [View.canon_unit_zero hz, View.ld_unit_zero hz, View.ld_unit_zero hz, View.ld_unit_zero hz]
theorem out6_eq (x0 : Vec Ideal S5000x128 .f32) (x1 x2 : Vec Ideal S1x128 .f32) (x3 : Vec Ideal S128x2 .f32) (x4 : Vec Ideal S1x2 .f32) :
    out18_6 x0 x1 x2 x3 x4 = k18_pay2 x0 x1 x2 x3 x4 := by
  unfold out18_6
  rw [View.canon_unit_zero hz, View.ld_unit_zero hz, View.ld_unit_zero hz, View.ld_unit_zero hz, View.ld_unit_zero hz,
    View.ld_unit_zero hz]

theorem idx : ∀ t : Fin grid18.N,
    (win18_0.index t = ![t.val, 0] ∧ win18_5.index t = ![t.val, 0] ∧ win18_6.index t = ![t.val, 0])
    ∧ (win18_1.index t = fun _ => 0) ∧ (win18_2.index t = fun _ => 0) ∧ (win18_3.index t = fun _ => 0)
    ∧ win18_4.index t = fun _ => 0 := by
  decide +kernel

-- The row of the arrays that row p of point t's blocks is.
def rowOf (t : Fin cfg18.N) (p : Fin 5000) : Fin 50000 :=
  ⟨t.val * 5000 + p.val, by have := lt_of_lt_of_eq t.isLt N_18; have := p.isLt; omega⟩

theorem emb0 (t : Fin cfg18.N) (p : Fin 5000) (q : Fin 128) :
    ((cfg18.win 0).blk t).view.emb (ix2 p q) = ix2 (rowOf t p) q :=
  Shape.idx_ext₂ ((win18_0.rect_emb_val t _ 0).trans (by rw [(idx t).1.1]; rfl))
    ((win18_0.rect_emb_val t _ 1).trans (by rw [(idx t).1.1]; exact Nat.zero_add _))
theorem emb5 (t : Fin cfg18.N) (p : Fin 5000) (q : Fin 128) :
    ((cfg18.win 5).blk t).view.emb (ix2 p q) = ix2 (rowOf t p) q :=
  Shape.idx_ext₂ ((win18_5.rect_emb_val t _ 0).trans (by rw [(idx t).1.2.1]; rfl))
    ((win18_5.rect_emb_val t _ 1).trans (by rw [(idx t).1.2.1]; exact Nat.zero_add _))
theorem emb6 (t : Fin cfg18.N) (p : Fin 5000) (q : Fin 2) :
    ((cfg18.win 6).blk t).view.emb (ix2 p q) = ix2 (rowOf t p) q :=
  Shape.idx_ext₂ ((win18_6.rect_emb_val t _ 0).trans (by rw [(idx t).1.2.2]; rfl))
    ((win18_6.rect_emb_val t _ 1).trans (by rw [(idx t).1.2.2]; exact Nat.zero_add _))

theorem row_split (r : Fin 50000) : ∃ (t : Fin cfg18.N) (p : Fin 5000), rowOf t p = r :=
  ⟨⟨r.val / 5000, by rw [show cfg18.N = 10 from N_18]; have := r.isLt; omega⟩, ⟨r.val % 5000, Nat.mod_lt _ (by decide)⟩,
    Fin.ext (Nat.div_add_mod' _ _)⟩

theorem cover5 (i : S50000x128.Idx) : ∃ t : Fin cfg18.N, (cfg18.win 5).flush t = true ∧ i ∈ ((cfg18.win 5).blk t).view.set := by
  obtain ⟨t, p, h⟩ := row_split (i 0)
  exact ⟨t, flush18_5 t, ((emb5 t p (i 1)).trans ((congrArg (ix2 · (i 1)) h).trans (eq_ix2 i).symm)) ▸ View.emb_mem_set _ _⟩
theorem cover6 (i : S50000x2.Idx) : ∃ t : Fin cfg18.N, (cfg18.win 6).flush t = true ∧ i ∈ ((cfg18.win 6).blk t).view.set := by
  obtain ⟨t, p, h⟩ := row_split (i 0)
  exact ⟨t, flush18_6 t, ((emb6 t p (i 1)).trans ((congrArg (ix2 · (i 1)) h).trans (eq_ix2 i).symm)) ▸ View.emb_mem_set _ _⟩

variable (V : (c : Dev nD) → (b : Ref sig .tc) → Buf (Elt Ideal) ((c : Thread nD τ).loc b))

-- Where the block is the whole array, a block index is its own array index.
theorem emb1 (t : Fin cfg18.N) (y : S1x128.Idx) : ((cfg18.win 1).blk t).view.emb y = y :=
  funext fun a => Fin.ext (win18_1.rect_emb_val_of_index_zero t a (congrFun (idx t).2.1 a) y)
theorem emb2 (t : Fin cfg18.N) (y : S1x128.Idx) : ((cfg18.win 2).blk t).view.emb y = y :=
  funext fun a => Fin.ext (win18_2.rect_emb_val_of_index_zero t a (congrFun (idx t).2.2.1 a) y)
theorem emb3 (t : Fin cfg18.N) (y : S128x2.Idx) : ((cfg18.win 3).blk t).view.emb y = y :=
  funext fun a => Fin.ext (win18_3.rect_emb_val_of_index_zero t a (congrFun (idx t).2.2.2.1 a) y)
theorem emb4 (t : Fin cfg18.N) (y : S1x2.Idx) : ((cfg18.win 4).blk t).view.emb y = y :=
  funext fun a => Fin.ext (win18_4.rect_emb_val_of_index_zero t a (congrFun (idx t).2.2.2.2 a) y)

theorem blk1 (c : Dev nD) (t : Fin cfg18.N) : iblk18 V c 1 t = V c (Pipeline.arrRef spec18 1) :=
  funext fun y => congrArg (V c _) (emb1 t y)
theorem blk2 (c : Dev nD) (t : Fin cfg18.N) : iblk18 V c 2 t = V c (Pipeline.arrRef spec18 2) :=
  funext fun y => congrArg (V c _) (emb2 t y)
theorem blk3 (c : Dev nD) (t : Fin cfg18.N) : iblk18 V c 3 t = V c (Pipeline.arrRef spec18 3) :=
  funext fun y => congrArg (V c _) (emb3 t y)
theorem blk4 (c : Dev nD) (t : Fin cfg18.N) : iblk18 V c 4 t = V c (Pipeline.arrRef spec18 4) :=
  funext fun y => congrArg (V c _) (emb4 t y)

theorem final18_emb (c : Dev nD) :
    (dat18 (F := Ideal) V c).arrAt 5 cfg18.N
      = Cert.Spec.kNorm (F := Ideal) (V c (Pipeline.arrRef spec18 0)) (V c (Pipeline.arrRef spec18 1)) (V c (Pipeline.arrRef spec18 2)) :=
  (dat18 (F := Ideal) V c).arrAt_eq_of_cover 5 _ (fun t _ => by
    show (cfg18.win 5).cut (grid18.coords t) ((dat18 (F := Ideal) V c).after 5 t) = _
    rw [after18_5, out5_eq, blk1 V, blk2 V]
    funext j
    obtain ⟨p, q, rfl⟩ : ∃ (p : Fin 5000) (q : Fin 128), j = ix2 p q := ⟨j 0, j 1, eq_ix2 (n0 := 5000) (n1 := 128) j⟩
    exact (pay1_rows (V c (Pipeline.arrRef spec18 0)) (rowOf t) (fun p q => congrArg (V c _) (emb0 t p q)) p q).trans
      (congrArg _ (emb5 t p q)).symm) cover5

theorem final18_logit (c : Dev nD) :
    (dat18 (F := Ideal) V c).arrAt 6 cfg18.N
      = Cert.Spec.classify2 (F := Ideal)
          (Cert.Spec.kNorm (F := Ideal) (V c (Pipeline.arrRef spec18 0)) (V c (Pipeline.arrRef spec18 1)) (V c (Pipeline.arrRef spec18 2)))
          (V c (Pipeline.arrRef spec18 3)) (V c (Pipeline.arrRef spec18 4)) :=
  (dat18 (F := Ideal) V c).arrAt_eq_of_cover 6 _ (fun t _ => by
    show (cfg18.win 6).cut (grid18.coords t) ((dat18 (F := Ideal) V c).after 6 t) = _
    rw [after18_6, out6_eq, blk1 V, blk2 V, blk3 V, blk4 V]
    funext j
    obtain ⟨p, q, rfl⟩ : ∃ (p : Fin 5000) (q : Fin 2), j = ix2 p q := ⟨j 0, j 1, eq_ix2 (n0 := 5000) (n1 := 2) j⟩
    exact (pay2_rows (V c (Pipeline.arrRef spec18 0)) _ _ (rowOf t) (fun p q => congrArg (V c _) (emb0 t p q)) p q).trans
      (congrArg _ (emb6 t p q)).symm) cover6

end Cert.RegNorm

end
-- ==== Proof.RegNorm19.lean ====
import proofs.«107092_j29411936043366_1_alg».proof.Proof.RegNorm

noncomputable section

namespace Cert.RegNorm19

open Idealize.ShloMosaic Idealize.ShloMosaic.TcCoe Idealize.ShloMosaic.ValueIdx
open Idealize.ShloMosaic.Pipeline (Dat Cfg Window)
open Cert.KernelIdeal Cert.KernelIdeal.Gen Cert.RegNorm

-- This region's windows have the block sizes and index maps of the other's, so its block and cover lemmas hold here as they stand.
variable (V : (c : Dev nD) → (b : Ref sig .tc) → Buf (Elt Ideal) ((c : Thread nD τ).loc b))

theorem blk1 (c : Dev nD) (t : Fin cfg19.N) : iblk19 V c 1 t = V c (Pipeline.arrRef spec19 1) :=
  funext fun y => congrArg (V c _) (emb1 t y)
theorem blk2 (c : Dev nD) (t : Fin cfg19.N) : iblk19 V c 2 t = V c (Pipeline.arrRef spec19 2) :=
  funext fun y => congrArg (V c _) (emb2 t y)
theorem blk3 (c : Dev nD) (t : Fin cfg19.N) : iblk19 V c 3 t = V c (Pipeline.arrRef spec19 3) :=
  funext fun y => congrArg (V c _) (emb3 t y)
theorem blk4 (c : Dev nD) (t : Fin cfg19.N) : iblk19 V c 4 t = V c (Pipeline.arrRef spec19 4) :=
  funext fun y => congrArg (V c _) (emb4 t y)
theorem final19_emb (c : Dev nD) :
    (dat19 (F := Ideal) V c).arrAt 5 cfg19.N
      = Cert.Spec.kNorm (F := Ideal) (V c (Pipeline.arrRef spec19 0)) (V c (Pipeline.arrRef spec19 1)) (V c (Pipeline.arrRef spec19 2)) :=
  (dat19 (F := Ideal) V c).arrAt_eq_of_cover 5 _ (fun t _ => by
    show (cfg19.win 5).cut (grid19.coords t) ((dat19 (F := Ideal) V c).after 5 t) = _
    rw [after19_5, show ∀ x3 x4, out19_5 _ _ _ x3 x4 = _ from out5_eq _ _ _, blk1 V, blk2 V]
    funext j
    obtain ⟨p, q, rfl⟩ : ∃ (p : Fin 5000) (q : Fin 128), j = ix2 p q := ⟨j 0, j 1, eq_ix2 (n0 := 5000) (n1 := 128) j⟩
    exact (pay1_rows (V c (Pipeline.arrRef spec19 0)) (rowOf t) (fun p q => congrArg (V c _) (emb0 t p q)) p q).trans
      (congrArg _ (emb5 t p q)).symm) cover5

theorem final19_logit (c : Dev nD) :
    (dat19 (F := Ideal) V c).arrAt 6 cfg19.N
      = Cert.Spec.classify2 (F := Ideal)
          (Cert.Spec.kNorm (F := Ideal) (V c (Pipeline.arrRef spec19 0)) (V c (Pipeline.arrRef spec19 1)) (V c (Pipeline.arrRef spec19 2)))
          (V c (Pipeline.arrRef spec19 3)) (V c (Pipeline.arrRef spec19 4)) :=
  (dat19 (F := Ideal) V c).arrAt_eq_of_cover 6 _ (fun t _ => by
    show (cfg19.win 6).cut (grid19.coords t) ((dat19 (F := Ideal) V c).after 6 t) = _
    rw [after19_6, show out19_6 _ _ _ _ _ = _ from out6_eq _ _ _ _ _, blk1 V, blk2 V, blk3 V, blk4 V]
    funext j
    obtain ⟨p, q, rfl⟩ : ∃ (p : Fin 5000) (q : Fin 2), j = ix2 p q := ⟨j 0, j 1, eq_ix2 (n0 := 5000) (n1 := 2) j⟩
    exact (pay2_rows (V c (Pipeline.arrRef spec19 0)) _ _ (rowOf t) (fun p q => congrArg (V c _) (emb0 t p q)) p q).trans
      (congrArg _ (emb6 t p q)).symm) cover6

end Cert.RegNorm19

end
-- ==== Proof.KHost.lean ====
import proofs.«107092_j29411936043366_1_alg».proof.Proof.Gen.KernelIdeal.Launch
import proofs.«107092_j29411936043366_1_alg».proof.Proof.Spec
import proofs.«107092_j29411936043366_1_alg».proof.Proof.LibLayout
import Idealize.ShloMosaic.Lib.StableHlo.Run
import Idealize.ShloMosaic.Lib.ValueLayout

noncomputable section

namespace Cert.KHost

open Idealize.ShloMosaic Idealize.ShloMosaic.TcCoe Idealize.ShloMosaic.ValueIdx
open Cert.KernelIdeal Cert.KernelIdeal.Gen

variable {F : FTy → Type} [FloatOps F]

-- A vector reshaped to one row and the vector broadcast along the row both read the vector at `i` at `(0, i)`.
theorem shapeCast_eq_row {α : Type} {a : ℕ} (x : (⟨1, ![a]⟩ : Shape).Idx → α)
    (h₁ : (⟨1, ![a]⟩ : Shape).ShapeCasts ⟨2, ![1, a]⟩) (h₂ : (⟨1, ![a]⟩ : Shape).BroadcastsInDim ⟨2, ![1, a]⟩ ![1]) :
    shapeCast ⟨2, ![1, a]⟩ x h₁ = broadcastInDim ⟨2, ![1, a]⟩ ![1] h₂ x := by
  funext j
  obtain ⟨p, q, rfl⟩ : ∃ (p : Fin 1) (q : Fin a), j = ix2 p q := ⟨j 0, j 1, eq_ix2 j⟩
  rw [shapeCast_a_1a_apply, Cert.LibLayout.broadcastInDim_b_1b_apply]

theorem reshape_row128 (x : FVec F Spec.S128 .f32) (h : Spec.S128.ShapeCasts Spec.S1x128) :
    shapeCast Spec.S1x128 x h = Spec.row128 x := shapeCast_eq_row x h Spec.b_128_1x128

theorem reshape_row2 (x : FVec F Spec.S2 .f32) (h : Spec.S2.ShapeCasts Spec.S1x2) :
    shapeCast Spec.S1x2 x h = Spec.row2 x := shapeCast_eq_row x h Spec.b_2_1x2

abbrev wr0 : List (Ref sig .tc) :=
  [main_cst, main_v0, main_cst_0, main_v1, main_v2, main_v3, main_cst_1, main_v4, main_v5, main_v6, main_cst_2, main_v7, main_v8, main_v9, main_v10, main_cst_3, main_v11, main_v12, main_v13, main_v14, main_v15, main_v16, main_v17, main_v18]
abbrev wr2 : List (Ref sig .tc) :=
  [main_c, main_v21, main_v22, main_c_4, main_v23, main_v24, main_v25, main_v26, main_v27, main_cst_5, main_v28, main_v29, main_v30]
abbrev wr4 : List (Ref sig .tc) :=
  [main_c_6, main_v33, main_v34, main_c_7, main_v35, main_v36, main_v37, main_v38, main_v39, main_cst_8, main_v40, main_v41, main_v42]
abbrev wr6 : List (Ref sig .tc) :=
  [main_c_9, main_v45, main_v46, main_c_10, main_v47, main_v48, main_v49, main_v50, main_v51, main_cst_11, main_v52, main_v53, main_v54]
abbrev wr8 : List (Ref sig .tc) :=
  [main_cst_12, main_v57, main_cst_13, main_v58, main_v59, main_v60, main_cst_14, main_v61, main_v62, main_v63, main_cst_15, main_v64, main_v65, main_v66, main_v67, main_cst_16, main_v68, main_v69, main_v70, main_v71, main_v72, main_v73, main_v74, main_v75]
abbrev wr10 : List (Ref sig .tc) :=
  [main_c_17, main_v78, main_v79, main_c_18, main_v80, main_v81, main_v82, main_v83, main_v84, main_cst_19, main_v85, main_v86, main_v87]
abbrev wr12 : List (Ref sig .tc) :=
  [main_c_20, main_v90, main_v91, main_c_21, main_v92, main_v93, main_v94, main_v95, main_v96, main_cst_22, main_v97, main_v98, main_v99]
abbrev wr14 : List (Ref sig .tc) :=
  [main_c_23, main_v102, main_v103, main_c_24, main_v104, main_v105, main_v106, main_v107, main_v108, main_cst_25, main_v109, main_v110, main_v111]
abbrev wr16 : List (Ref sig .tc) := [main_v114]
abbrev wr17 : List (Ref sig .tc) :=
  [main_cst_26, main_v116, main_v117, main_cst_27, main_v118, main_v119, main_v120, main_v121, main_cst_28, main_v122, main_v123, main_v124]
abbrev wr18 : List (Ref sig .tc) :=
  [main_cst_29, main_v126, main_v127, main_cst_30, main_v128, main_v129, main_v130, main_v131, main_cst_31, main_v132, main_v133, main_v134]

abbrev Sub (ops : List (HloOp τ sig (Elt F))) (W : List (Ref sig .tc)) : Prop :=
  ops.Forall fun op => op.writes ⊆ (W.map (Proc.devRef (τ := τ) .tc)).toFinset

-- Every buffer a host stretch writes is in the stretch's list.
theorem sub : Sub (F := F) hostOps0 wr0 ∧ Sub (F := F) hostOps2 wr2 ∧ Sub (F := F) hostOps4 wr4 ∧ Sub (F := F) hostOps6 wr6
    ∧ Sub (F := F) hostOps8 wr8 ∧ Sub (F := F) hostOps10 wr10 ∧ Sub (F := F) hostOps12 wr12 ∧ Sub (F := F) hostOps14 wr14
    ∧ Sub (F := F) hostOps16 wr16 ∧ Sub (F := F) hostOps17 wr17 ∧ Sub (F := F) hostOps18 wr18 := by
  simp only [Sub, hostOps0, hostOps2, hostOps4, hostOps6, hostOps8, hostOps10, hostOps12, hostOps14, hostOps16, hostOps17,
    hostOps18, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map.mpr ⟨_, by decide, rfl⟩))

variable (V : Valuation τ sig (Elt F))

theorem val_v10 :
    StableHlo.after hostOps0 V (Proc.devRef .tc main_v10) = Spec.norm (V (Proc.devRef .tc main_arg4)) := by
  after_results_simp
  all_goals rfl
theorem val_v14 :
    StableHlo.after hostOps0 V (Proc.devRef .tc main_v14) = Spec.norm (V (Proc.devRef .tc main_arg5)) := by
  after_results_simp
  all_goals rfl
theorem val_v15 :
    StableHlo.after hostOps0 V (Proc.devRef .tc main_v15) = Spec.row128 (V (Proc.devRef .tc main_arg9)) := by
  refine .trans ?_ (reshape_row128 _ shapeCasts_S128_S1x128)
  after_results_simp
  all_goals rfl
theorem val_v16 :
    StableHlo.after hostOps0 V (Proc.devRef .tc main_v16) = Spec.row128 (V (Proc.devRef .tc main_arg11)) := by
  refine .trans ?_ (reshape_row128 _ shapeCasts_S128_S1x128)
  after_results_simp
  all_goals rfl
theorem val_v17 :
    StableHlo.after hostOps0 V (Proc.devRef .tc main_v17) = Spec.row128 (V (Proc.devRef .tc main_arg13)) := by
  refine .trans ?_ (reshape_row128 _ shapeCasts_S128_S1x128)
  after_results_simp
  all_goals rfl
theorem val_v18 :
    StableHlo.after hostOps0 V (Proc.devRef .tc main_v18) = Spec.row128 (V (Proc.devRef .tc main_arg15)) := by
  refine .trans ?_ (reshape_row128 _ shapeCasts_S128_S1x128)
  after_results_simp
  all_goals rfl
theorem val_v30 :
    StableHlo.after hostOps2 V (Proc.devRef .tc main_v30) = Spec.aggregate (V (Proc.devRef .tc main_v20)) (V (Proc.devRef .tc main_arg4)) (V (Proc.devRef .tc main_arg5)) := by
  after_results_simp
  all_goals rfl
theorem val_v42 :
    StableHlo.after hostOps4 V (Proc.devRef .tc main_v42) = Spec.aggregate (V (Proc.devRef .tc main_v32)) (V (Proc.devRef .tc main_arg4)) (V (Proc.devRef .tc main_arg5)) := by
  after_results_simp
  all_goals rfl
theorem val_v54 :
    StableHlo.after hostOps6 V (Proc.devRef .tc main_v54) = Spec.aggregate (V (Proc.devRef .tc main_v44)) (V (Proc.devRef .tc main_arg4)) (V (Proc.devRef .tc main_arg5)) := by
  after_results_simp
  all_goals rfl
theorem val_v67 :
    StableHlo.after hostOps8 V (Proc.devRef .tc main_v67) = Spec.norm (V (Proc.devRef .tc main_arg6)) := by
  after_results_simp
  all_goals rfl
theorem val_v71 :
    StableHlo.after hostOps8 V (Proc.devRef .tc main_v71) = Spec.norm (V (Proc.devRef .tc main_arg7)) := by
  after_results_simp
  all_goals rfl
theorem val_v72 :
    StableHlo.after hostOps8 V (Proc.devRef .tc main_v72) = Spec.row128 (V (Proc.devRef .tc main_arg9)) := by
  refine .trans ?_ (reshape_row128 _ shapeCasts_S128_S1x128)
  after_results_simp
  all_goals rfl
theorem val_v73 :
    StableHlo.after hostOps8 V (Proc.devRef .tc main_v73) = Spec.row128 (V (Proc.devRef .tc main_arg11)) := by
  refine .trans ?_ (reshape_row128 _ shapeCasts_S128_S1x128)
  after_results_simp
  all_goals rfl
theorem val_v74 :
    StableHlo.after hostOps8 V (Proc.devRef .tc main_v74) = Spec.row128 (V (Proc.devRef .tc main_arg13)) := by
  refine .trans ?_ (reshape_row128 _ shapeCasts_S128_S1x128)
  after_results_simp
  all_goals rfl
theorem val_v75 :
    StableHlo.after hostOps8 V (Proc.devRef .tc main_v75) = Spec.row128 (V (Proc.devRef .tc main_arg15)) := by
  refine .trans ?_ (reshape_row128 _ shapeCasts_S128_S1x128)
  after_results_simp
  all_goals rfl
theorem val_v87 :
    StableHlo.after hostOps10 V (Proc.devRef .tc main_v87) = Spec.aggregate (V (Proc.devRef .tc main_v77)) (V (Proc.devRef .tc main_arg6)) (V (Proc.devRef .tc main_arg7)) := by
  after_results_simp
  all_goals rfl
theorem val_v99 :
    StableHlo.after hostOps12 V (Proc.devRef .tc main_v99) = Spec.aggregate (V (Proc.devRef .tc main_v89)) (V (Proc.devRef .tc main_arg6)) (V (Proc.devRef .tc main_arg7)) := by
  after_results_simp
  all_goals rfl
theorem val_v111 :
    StableHlo.after hostOps14 V (Proc.devRef .tc main_v111) = Spec.aggregate (V (Proc.devRef .tc main_v101)) (V (Proc.devRef .tc main_arg6)) (V (Proc.devRef .tc main_arg7)) := by
  after_results_simp
  all_goals rfl
theorem val_v114 :
    StableHlo.after hostOps16 V (Proc.devRef .tc main_v114) = Spec.row2 (V (Proc.devRef .tc main_arg17)) := by
  refine .trans ?_ (reshape_row2 _ shapeCasts_S2_S1x2)
  after_results_simp
  all_goals rfl
theorem val_v117 :
    StableHlo.after hostOps17 V (Proc.devRef .tc main_v117) = Spec.kMean (V (Proc.devRef .tc main_v115_0)) := by
  after_results_simp
  all_goals rfl
theorem val_v124 :
    StableHlo.after hostOps17 V (Proc.devRef .tc main_v124) = Spec.kInv (V (Proc.devRef .tc main_v115_0)) (V (Proc.devRef .tc main_v115_1)) := by
  after_results_simp
  all_goals rfl
theorem val_v127 :
    StableHlo.after hostOps18 V (Proc.devRef .tc main_v127) = Spec.kMean (V (Proc.devRef .tc main_v125_0)) := by
  after_results_simp
  all_goals rfl
theorem val_v134 :
    StableHlo.after hostOps18 V (Proc.devRef .tc main_v134) = Spec.kInv (V (Proc.devRef .tc main_v125_0)) (V (Proc.devRef .tc main_v125_1)) := by
  after_results_simp
  all_goals rfl

end Cert.KHost

end
-- ==== Proof.KKeep.lean ====
import proofs.«107092_j29411936043366_1_alg».proof.Proof.Gen.KernelIdeal.Frame
import proofs.«107092_j29411936043366_1_alg».proof.Proof.KHost

noncomputable section

namespace Cert.KKeep

open Idealize.ShloMosaic Idealize.ShloMosaic.TcCoe
open Cert.KernelIdeal Cert.KernelIdeal.Gen Cert.KHost

variable {F : FTy → Type} [FloatOps F]
variable (m : (ℓ : Loc nD τ sig) → Buf (Elt F) ℓ) (ρ : Dev nD → PrngReg)

-- The buffer contents at the boundary after `k` of the program's 31 segments.
abbrev Wn : ℕ → Dev nD → Valuation τ sig (Elt F)
  | 0 => W0 m ρ | 1 => W1 m ρ | 2 => W2 m ρ | 3 => W3 m ρ | 4 => W4 m ρ | 5 => W5 m ρ | 6 => W6 m ρ | 7 => W7 m ρ
  | 8 => W8 m ρ | 9 => W9 m ρ | 10 => W10 m ρ | 11 => W11 m ρ | 12 => W12 m ρ | 13 => W13 m ρ | 14 => W14 m ρ
  | 15 => W15 m ρ | 16 => W16 m ρ | 17 => W17 m ρ | 18 => W18 m ρ | 19 => W19 m ρ | 20 => W20 m ρ | 21 => W21 m ρ
  | 22 => W22 m ρ | 23 => W23 m ρ | 24 => W24 m ρ | 25 => W25 m ρ | 26 => W26 m ρ | 27 => W27 m ρ | 28 => W28 m ρ
  | 29 => W29 m ρ | 30 => W30 m ρ | _ => W31 m ρ

-- The buffers segment `k` writes: a host stretch its operations' results, a region its output arrays.
noncomputable def wr : ℕ → List (Ref sig .tc)
  | 0 => wr0 | 1 => [main_v19] | 2 => [main_v20] | 3 => wr2 | 4 => [main_v31] | 5 => [main_v32] | 6 => wr4
  | 7 => [main_v43] | 8 => [main_v44] | 9 => wr6 | 10 => [main_v55] | 11 => [main_v56] | 12 => wr8 | 13 => [main_v76]
  | 14 => [main_v77] | 15 => wr10 | 16 => [main_v88] | 17 => [main_v89] | 18 => wr12 | 19 => [main_v100]
  | 20 => [main_v101] | 21 => wr14 | 22 => [main_v112] | 23 => [main_v113] | 24 => wr16
  | 25 => [main_v115_0, main_v115_1] | 26 => wr17 | 27 => [main_v125_0, main_v125_1] | 28 => wr18
  | 29 => [main_v135_0, main_v135_1] | 30 => [main_v136_0, main_v136_1] | _ => []

-- A region changes only its output arrays.
theorem keepR {Ix Name U Lvl : Type} [DecidableEq Ix] [DecidableEq Name] [Idealize.SL.RA.URA U] {cfg : Pipeline.Cfg sig Λ₀} {c : Dev nD}
    (dat : Pipeline.Dat τ (Elt F) Ix Name U Lvl cfg c) {W' Wp : Valuation τ sig (Elt F)} {out : List (Ref sig .tc)}
    (harr : ∀ w, W' (Proc.devRef .tc (cfg.win w).arr.view.ref) = dat.arrAt w cfg.N)
    (hne : ∀ b, (∀ w, (cfg.win w).arr.view.ref ≠ b) → W' (Proc.devRef .tc b) = Wp (Proc.devRef .tc b))
    (hA : ∀ w, dat.A w = Wp (Proc.devRef .tc (cfg.win w).arr.view.ref))
    (hout : ∀ w, (cfg.win w).arr.view.ref ∉ out → (cfg.win w).isOut = false)
    (r : Ref sig .tc) (hr : r ∉ out) : W' (Proc.devRef .tc r) = Wp (Proc.devRef .tc r) := by
  by_cases h : ∃ w, (cfg.win w).arr.view.ref = r
  · obtain ⟨w, rfl⟩ := h
    exact (harr w).trans ((dat.arrAt_in w (hout w hr) _).trans (hA w))
  · exact hne r fun w e => h ⟨w, e⟩

-- A segment leaves every buffer it does not write as it was.
theorem keep (c : Dev nD) (r : Ref sig .tc) :
    ∀ k, r ∉ wr k → Wn m ρ (k + 1) c (Proc.devRef .tc r) = Wn m ρ k c (Proc.devRef .tc r)
  | 0, h => StableHlo.after_of_writes_sub hostOps0 _ sub.1 h
  | 1, h => keepR (dat0 (V1 m ρ) c) (W2_arr m ρ c) (W2_of_ne m ρ c) (A_eq0 (V1 m ρ) c) (by decide) r h
  | 2, h => keepR (dat1 (V2 m ρ) c) (W3_arr m ρ c) (W3_of_ne m ρ c) (A_eq1 (V2 m ρ) c) (by decide) r h
  | 3, h => StableHlo.after_of_writes_sub hostOps2 _ sub.2.1 h
  | 4, h => keepR (dat2 (V4 m ρ) c) (W5_arr m ρ c) (W5_of_ne m ρ c) (A_eq2 (V4 m ρ) c) (by decide) r h
  | 5, h => keepR (dat3 (V5 m ρ) c) (W6_arr m ρ c) (W6_of_ne m ρ c) (A_eq3 (V5 m ρ) c) (by decide) r h
  | 6, h => StableHlo.after_of_writes_sub hostOps4 _ sub.2.2.1 h
  | 7, h => keepR (dat4 (V7 m ρ) c) (W8_arr m ρ c) (W8_of_ne m ρ c) (A_eq4 (V7 m ρ) c) (by decide) r h
  | 8, h => keepR (dat5 (V8 m ρ) c) (W9_arr m ρ c) (W9_of_ne m ρ c) (A_eq5 (V8 m ρ) c) (by decide) r h
  | 9, h => StableHlo.after_of_writes_sub hostOps6 _ sub.2.2.2.1 h
  | 10, h => keepR (dat6 (V10 m ρ) c) (W11_arr m ρ c) (W11_of_ne m ρ c) (A_eq6 (V10 m ρ) c) (by decide) r h
  | 11, h => keepR (dat7 (V11 m ρ) c) (W12_arr m ρ c) (W12_of_ne m ρ c) (A_eq7 (V11 m ρ) c) (by decide) r h
  | 12, h => StableHlo.after_of_writes_sub hostOps8 _ sub.2.2.2.2.1 h
  | 13, h => keepR (dat8 (V13 m ρ) c) (W14_arr m ρ c) (W14_of_ne m ρ c) (A_eq8 (V13 m ρ) c) (by decide) r h
  | 14, h => keepR (dat9 (V14 m ρ) c) (W15_arr m ρ c) (W15_of_ne m ρ c) (A_eq9 (V14 m ρ) c) (by decide) r h
  | 15, h => StableHlo.after_of_writes_sub hostOps10 _ sub.2.2.2.2.2.1 h
  | 16, h => keepR (dat10 (V16 m ρ) c) (W17_arr m ρ c) (W17_of_ne m ρ c) (A_eq10 (V16 m ρ) c) (by decide) r h
  | 17, h => keepR (dat11 (V17 m ρ) c) (W18_arr m ρ c) (W18_of_ne m ρ c) (A_eq11 (V17 m ρ) c) (by decide) r h
  | 18, h => StableHlo.after_of_writes_sub hostOps12 _ sub.2.2.2.2.2.2.1 h
  | 19, h => keepR (dat12 (V19 m ρ) c) (W20_arr m ρ c) (W20_of_ne m ρ c) (A_eq12 (V19 m ρ) c) (by decide) r h
  | 20, h => keepR (dat13 (V20 m ρ) c) (W21_arr m ρ c) (W21_of_ne m ρ c) (A_eq13 (V20 m ρ) c) (by decide) r h
  | 21, h => StableHlo.after_of_writes_sub hostOps14 _ sub.2.2.2.2.2.2.2.1 h
  | 22, h => keepR (dat14 (V22 m ρ) c) (W23_arr m ρ c) (W23_of_ne m ρ c) (A_eq14 (V22 m ρ) c) (by decide) r h
  | 23, h => keepR (dat15 (V23 m ρ) c) (W24_arr m ρ c) (W24_of_ne m ρ c) (A_eq15 (V23 m ρ) c) (by decide) r h
  | 24, h => StableHlo.after_of_writes_sub hostOps16 _ sub.2.2.2.2.2.2.2.2.1 h
  | 25, h => keepR (dat16 (V25 m ρ) c) (W26_arr m ρ c) (W26_of_ne m ρ c) (A_eq16 (V25 m ρ) c) (by decide) r h
  | 26, h => StableHlo.after_of_writes_sub hostOps17 _ sub.2.2.2.2.2.2.2.2.2.1 h
  | 27, h => keepR (dat17 (V27 m ρ) c) (W28_arr m ρ c) (W28_of_ne m ρ c) (A_eq17 (V27 m ρ) c) (by decide) r h
  | 28, h => StableHlo.after_of_writes_sub hostOps18 _ sub.2.2.2.2.2.2.2.2.2.2 h
  | 29, h => keepR (dat18 (V29 m ρ) c) (W30_arr m ρ c) (W30_of_ne m ρ c) (A_eq18 (V29 m ρ) c) (by decide) r h
  | 30, h => keepR (dat19 (V30 m ρ) c) (W31_arr m ρ c) (W31_of_ne m ρ c) (A_eq19 (V30 m ρ) c) (by decide) r h
  | _ + 31, _ => rfl

-- A buffer none of the segments `i, …, i + d - 1` writes holds at boundary `i + d` what it held at boundary `i`.
theorem carry (c : Dev nD) (r : Ref sig .tc) (i : ℕ) :
    ∀ d, (∀ k < d, r ∉ wr (i + k)) → Wn m ρ (i + d) c (Proc.devRef .tc r) = Wn m ρ i c (Proc.devRef .tc r)
  | 0, _ => rfl
  | d + 1, h => (keep m ρ c r (i + d) (h d d.lt_succ_self)).trans (carry c r i d fun k hk => h k (Nat.lt_succ_of_lt hk))

variable {m ρ} in
theorem at_ {c : Dev nD} {r : Ref sig .tc} {x} (i j : ℕ) (h : Wn m ρ i c (Proc.devRef .tc r) = x)
    (hk : ∀ k < j - i, r ∉ wr (i + k)) (hij : i ≤ j := by decide) : Wn m ρ j c (Proc.devRef .tc r) = x :=
  Nat.add_sub_cancel' hij ▸ (carry m ρ c r i (j - i) hk).trans h

-- An argument array holds its launch contents at every boundary before which no segment writes it.
theorem arg (c : Dev nD) (j : ℕ) (r : Ref sig .tc) (hk : ∀ k < j, r ∉ wr k) :
    Wn m ρ j c (Proc.devRef .tc r) = m ((c : Thread nD τ).loc r) :=
  at_ 0 j rfl (fun k h => by rw [Nat.zero_add]; exact hk k h) j.zero_le

end Cert.KKeep

end
-- ==== Proof.KRegA.lean ====
import proofs.«107092_j29411936043366_1_alg».proof.Proof.Gen.KernelIdeal.Frame
import proofs.«107092_j29411936043366_1_alg».proof.Proof.Spec

noncomputable section

namespace Cert.KChain

open Idealize.ShloMosaic Idealize.ShloMosaic.TcCoe
open Cert.KernelIdeal Cert.KernelIdeal.Gen

structure RegFactsA : Prop where
  r0 : ∀ (V : (c : Dev nD) → (b : Ref sig .tc) → Buf (Elt Ideal) ((c : Thread nD τ).loc b)) (c : Dev nD),
    (dat0 (F := Ideal) V c).arrAt 2 cfg0.N = Spec.drop (F := Ideal) (V c (Pipeline.arrRef spec0 0)) (V c (Pipeline.arrRef spec0 1))
  r1 : ∀ (V : (c : Dev nD) → (b : Ref sig .tc) → Buf (Elt Ideal) ((c : Thread nD τ).loc b)) (c : Dev nD),
    (dat1 (F := Ideal) V c).arrAt 3 cfg1.N = Spec.hidden (F := Ideal) (V c (Pipeline.arrRef spec1 0)) (V c (Pipeline.arrRef spec1 1)) (V c (Pipeline.arrRef spec1 2))
  r2 : ∀ (V : (c : Dev nD) → (b : Ref sig .tc) → Buf (Elt Ideal) ((c : Thread nD τ).loc b)) (c : Dev nD),
    (dat2 (F := Ideal) V c).arrAt 3 cfg2.N = Spec.eluRef (F := Ideal) (Spec.affine2 (F := Ideal) (V c (Pipeline.arrRef spec2 0)) (V c (Pipeline.arrRef spec2 1)) (V c (Pipeline.arrRef spec2 2)))
  r3 : ∀ (V : (c : Dev nD) → (b : Ref sig .tc) → Buf (Elt Ideal) ((c : Thread nD τ).loc b)) (c : Dev nD),
    (dat3 (F := Ideal) V c).arrAt 3 cfg3.N = Spec.hidden (F := Ideal) (V c (Pipeline.arrRef spec3 0)) (V c (Pipeline.arrRef spec3 1)) (V c (Pipeline.arrRef spec3 2))
  r4 : ∀ (V : (c : Dev nD) → (b : Ref sig .tc) → Buf (Elt Ideal) ((c : Thread nD τ).loc b)) (c : Dev nD),
    (dat4 (F := Ideal) V c).arrAt 3 cfg4.N = Spec.eluRef (F := Ideal) (Spec.affine2 (F := Ideal) (V c (Pipeline.arrRef spec4 0)) (V c (Pipeline.arrRef spec4 1)) (V c (Pipeline.arrRef spec4 2)))
  r5 : ∀ (V : (c : Dev nD) → (b : Ref sig .tc) → Buf (Elt Ideal) ((c : Thread nD τ).loc b)) (c : Dev nD),
    (dat5 (F := Ideal) V c).arrAt 3 cfg5.N = Spec.hidden (F := Ideal) (V c (Pipeline.arrRef spec5 0)) (V c (Pipeline.arrRef spec5 1)) (V c (Pipeline.arrRef spec5 2))
  r6 : ∀ (V : (c : Dev nD) → (b : Ref sig .tc) → Buf (Elt Ideal) ((c : Thread nD τ).loc b)) (c : Dev nD),
    (dat6 (F := Ideal) V c).arrAt 3 cfg6.N = Spec.affine2 (F := Ideal) (V c (Pipeline.arrRef spec6 0)) (V c (Pipeline.arrRef spec6 1)) (V c (Pipeline.arrRef spec6 2))
  r7 : ∀ (V : (c : Dev nD) → (b : Ref sig .tc) → Buf (Elt Ideal) ((c : Thread nD τ).loc b)) (c : Dev nD),
    (dat7 (F := Ideal) V c).arrAt 3 cfg7.N = Spec.head2 (F := Ideal) (V c (Pipeline.arrRef spec7 0)) (V c (Pipeline.arrRef spec7 1)) (V c (Pipeline.arrRef spec7 2))

end Cert.KChain

end
-- ==== Proof.KRegB.lean ====
import proofs.«107092_j29411936043366_1_alg».proof.Proof.Gen.KernelIdeal.Frame
import proofs.«107092_j29411936043366_1_alg».proof.Proof.Spec

noncomputable section

namespace Cert.KChain

open Idealize.ShloMosaic Idealize.ShloMosaic.TcCoe
open Cert.KernelIdeal Cert.KernelIdeal.Gen

structure RegFactsB : Prop where
  r8 : ∀ (V : (c : Dev nD) → (b : Ref sig .tc) → Buf (Elt Ideal) ((c : Thread nD τ).loc b)) (c : Dev nD),
    (dat8 (F := Ideal) V c).arrAt 2 cfg8.N = Spec.drop (F := Ideal) (V c (Pipeline.arrRef spec8 0)) (V c (Pipeline.arrRef spec8 1))
  r9 : ∀ (V : (c : Dev nD) → (b : Ref sig .tc) → Buf (Elt Ideal) ((c : Thread nD τ).loc b)) (c : Dev nD),
    (dat9 (F := Ideal) V c).arrAt 3 cfg9.N = Spec.hidden (F := Ideal) (V c (Pipeline.arrRef spec9 0)) (V c (Pipeline.arrRef spec9 1)) (V c (Pipeline.arrRef spec9 2))
  r10 : ∀ (V : (c : Dev nD) → (b : Ref sig .tc) → Buf (Elt Ideal) ((c : Thread nD τ).loc b)) (c : Dev nD),
    (dat10 (F := Ideal) V c).arrAt 3 cfg10.N = Spec.eluRef (F := Ideal) (Spec.affine2 (F := Ideal) (V c (Pipeline.arrRef spec10 0)) (V c (Pipeline.arrRef spec10 1)) (V c (Pipeline.arrRef spec10 2)))
  r11 : ∀ (V : (c : Dev nD) → (b : Ref sig .tc) → Buf (Elt Ideal) ((c : Thread nD τ).loc b)) (c : Dev nD),
    (dat11 (F := Ideal) V c).arrAt 3 cfg11.N = Spec.hidden (F := Ideal) (V c (Pipeline.arrRef spec11 0)) (V c (Pipeline.arrRef spec11 1)) (V c (Pipeline.arrRef spec11 2))
  r12 : ∀ (V : (c : Dev nD) → (b : Ref sig .tc) → Buf (Elt Ideal) ((c : Thread nD τ).loc b)) (c : Dev nD),
    (dat12 (F := Ideal) V c).arrAt 3 cfg12.N = Spec.eluRef (F := Ideal) (Spec.affine2 (F := Ideal) (V c (Pipeline.arrRef spec12 0)) (V c (Pipeline.arrRef spec12 1)) (V c (Pipeline.arrRef spec12 2)))
  r13 : ∀ (V : (c : Dev nD) → (b : Ref sig .tc) → Buf (Elt Ideal) ((c : Thread nD τ).loc b)) (c : Dev nD),
    (dat13 (F := Ideal) V c).arrAt 3 cfg13.N = Spec.hidden (F := Ideal) (V c (Pipeline.arrRef spec13 0)) (V c (Pipeline.arrRef spec13 1)) (V c (Pipeline.arrRef spec13 2))
  r14 : ∀ (V : (c : Dev nD) → (b : Ref sig .tc) → Buf (Elt Ideal) ((c : Thread nD τ).loc b)) (c : Dev nD),
    (dat14 (F := Ideal) V c).arrAt 3 cfg14.N = Spec.affine2 (F := Ideal) (V c (Pipeline.arrRef spec14 0)) (V c (Pipeline.arrRef spec14 1)) (V c (Pipeline.arrRef spec14 2))
  r15 : ∀ (V : (c : Dev nD) → (b : Ref sig .tc) → Buf (Elt Ideal) ((c : Thread nD τ).loc b)) (c : Dev nD),
    (dat15 (F := Ideal) V c).arrAt 3 cfg15.N = Spec.head2 (F := Ideal) (V c (Pipeline.arrRef spec15 0)) (V c (Pipeline.arrRef spec15 1)) (V c (Pipeline.arrRef spec15 2))

end Cert.KChain

end
-- ==== Proof.KRegC.lean ====
import proofs.«107092_j29411936043366_1_alg».proof.Proof.Gen.KernelIdeal.Frame
import proofs.«107092_j29411936043366_1_alg».proof.Proof.Spec

noncomputable section

namespace Cert.KChain

open Idealize.ShloMosaic Idealize.ShloMosaic.TcCoe
open Cert.KernelIdeal Cert.KernelIdeal.Gen

structure RegFactsC : Prop where
  r16_1 : ∀ (V : (c : Dev nD) → (b : Ref sig .tc) → Buf (Elt Ideal) ((c : Thread nD τ).loc b)) (c : Dev nD),
    (dat16 (F := Ideal) V c).arrAt 1 cfg16.N = Spec.row128 (F := Ideal) (Spec.colSum (F := Ideal) (V c (Pipeline.arrRef spec16 0)))
  r16_2 : ∀ (V : (c : Dev nD) → (b : Ref sig .tc) → Buf (Elt Ideal) ((c : Thread nD τ).loc b)) (c : Dev nD),
    (dat16 (F := Ideal) V c).arrAt 2 cfg16.N = Spec.row128 (F := Ideal) (Spec.colSum (F := Ideal) (mulf (V c (Pipeline.arrRef spec16 0)) (V c (Pipeline.arrRef spec16 0))))
  r17_1 : ∀ (V : (c : Dev nD) → (b : Ref sig .tc) → Buf (Elt Ideal) ((c : Thread nD τ).loc b)) (c : Dev nD),
    (dat17 (F := Ideal) V c).arrAt 1 cfg17.N = Spec.row128 (F := Ideal) (Spec.colSum (F := Ideal) (V c (Pipeline.arrRef spec17 0)))
  r17_2 : ∀ (V : (c : Dev nD) → (b : Ref sig .tc) → Buf (Elt Ideal) ((c : Thread nD τ).loc b)) (c : Dev nD),
    (dat17 (F := Ideal) V c).arrAt 2 cfg17.N = Spec.row128 (F := Ideal) (Spec.colSum (F := Ideal) (mulf (V c (Pipeline.arrRef spec17 0)) (V c (Pipeline.arrRef spec17 0))))
  r18_5 : ∀ (V : (c : Dev nD) → (b : Ref sig .tc) → Buf (Elt Ideal) ((c : Thread nD τ).loc b)) (c : Dev nD),
    (dat18 (F := Ideal) V c).arrAt 5 cfg18.N = Spec.kNorm (F := Ideal) (V c (Pipeline.arrRef spec18 0)) (V c (Pipeline.arrRef spec18 1)) (V c (Pipeline.arrRef spec18 2))
  r18_6 : ∀ (V : (c : Dev nD) → (b : Ref sig .tc) → Buf (Elt Ideal) ((c : Thread nD τ).loc b)) (c : Dev nD),
    (dat18 (F := Ideal) V c).arrAt 6 cfg18.N = Spec.classify2 (F := Ideal) (Spec.kNorm (F := Ideal) (V c (Pipeline.arrRef spec18 0)) (V c (Pipeline.arrRef spec18 1)) (V c (Pipeline.arrRef spec18 2))) (V c (Pipeline.arrRef spec18 3)) (V c (Pipeline.arrRef spec18 4))
  r19_5 : ∀ (V : (c : Dev nD) → (b : Ref sig .tc) → Buf (Elt Ideal) ((c : Thread nD τ).loc b)) (c : Dev nD),
    (dat19 (F := Ideal) V c).arrAt 5 cfg19.N = Spec.kNorm (F := Ideal) (V c (Pipeline.arrRef spec19 0)) (V c (Pipeline.arrRef spec19 1)) (V c (Pipeline.arrRef spec19 2))
  r19_6 : ∀ (V : (c : Dev nD) → (b : Ref sig .tc) → Buf (Elt Ideal) ((c : Thread nD τ).loc b)) (c : Dev nD),
    (dat19 (F := Ideal) V c).arrAt 6 cfg19.N = Spec.classify2 (F := Ideal) (Spec.kNorm (F := Ideal) (V c (Pipeline.arrRef spec19 0)) (V c (Pipeline.arrRef spec19 1)) (V c (Pipeline.arrRef spec19 2))) (V c (Pipeline.arrRef spec19 3)) (V c (Pipeline.arrRef spec19 4))

end Cert.KChain

end
-- ==== Proof.KChain.lean ====
import proofs.«107092_j29411936043366_1_alg».proof.Proof.KKeep
import proofs.«107092_j29411936043366_1_alg».proof.Proof.KRegA
import proofs.«107092_j29411936043366_1_alg».proof.Proof.KRegB
import proofs.«107092_j29411936043366_1_alg».proof.Proof.KRegC

noncomputable section

namespace Cert.KChain

open Idealize.ShloMosaic Idealize.ShloMosaic.TcCoe
open Cert.KernelIdeal Cert.KernelIdeal.Gen Cert.KHost Cert.KKeep

-- Equal operands give equal results.
theorem cg3 {α β γ δ : Type} (f : α → β → γ → δ) {a a' : α} {b b' : β} {d d' : γ} (ha : a = a') (hb : b = b')
    (hd : d = d') : f a b d = f a' b' d' := by subst ha hb hd; rfl

-- The three layers and the head, the biases entering as rows, are the embedding.
theorem head2_layers_eq_embed {F : FTy → Type} [FloatOps F]
    (X M : FVec F Spec.S50000x128 .f32) (src dst : IVec Spec.S600000 32)
    (W1 : FVec F Spec.S128x128 .f32) (b1 : FVec F Spec.S128 .f32) (W2 : FVec F Spec.S128x128 .f32) (b2 : FVec F Spec.S128 .f32)
    (W3 : FVec F Spec.S128x128 .f32) (b3 : FVec F Spec.S128 .f32) (Wl : FVec F Spec.S128x128 .f32) (bl : FVec F Spec.S128 .f32) :
    Spec.head2 (Spec.affine2 (Spec.aggregate (Spec.hidden (Spec.eluRef (Spec.affine2 (Spec.aggregate (Spec.hidden
      (Spec.eluRef (Spec.affine2 (Spec.aggregate (Spec.hidden (Spec.drop X M) (Spec.norm src) W1) src dst) (Spec.norm dst) (Spec.row128 b1)))
        (Spec.norm src) W2) src dst) (Spec.norm dst) (Spec.row128 b2))) (Spec.norm src) W3) src dst) (Spec.norm dst) (Spec.row128 b3))
        Wl (Spec.row128 bl)
      = Spec.embed X M src dst W1 b1 W2 b2 W3 b3 Wl bl := rfl

section
variable (m : (ℓ : Loc nD τ sig) → Buf (Elt Ideal) ℓ) (c : Dev nD)

def Ea : FVec Ideal Spec.S50000x128 .f32 :=
  Spec.embed (m ((c : Thread nD τ).loc main_arg0))
    (m ((c : Thread nD τ).loc main_arg2))
    (m ((c : Thread nD τ).loc main_arg4))
    (m ((c : Thread nD τ).loc main_arg5))
    (m ((c : Thread nD τ).loc main_arg8))
    (m ((c : Thread nD τ).loc main_arg9))
    (m ((c : Thread nD τ).loc main_arg10))
    (m ((c : Thread nD τ).loc main_arg11))
    (m ((c : Thread nD τ).loc main_arg12))
    (m ((c : Thread nD τ).loc main_arg13))
    (m ((c : Thread nD τ).loc main_arg14))
    (m ((c : Thread nD τ).loc main_arg15))
def Eb : FVec Ideal Spec.S50000x128 .f32 :=
  Spec.embed (m ((c : Thread nD τ).loc main_arg1))
    (m ((c : Thread nD τ).loc main_arg3))
    (m ((c : Thread nD τ).loc main_arg6))
    (m ((c : Thread nD τ).loc main_arg7))
    (m ((c : Thread nD τ).loc main_arg8))
    (m ((c : Thread nD τ).loc main_arg9))
    (m ((c : Thread nD τ).loc main_arg10))
    (m ((c : Thread nD τ).loc main_arg11))
    (m ((c : Thread nD τ).loc main_arg12))
    (m ((c : Thread nD τ).loc main_arg13))
    (m ((c : Thread nD τ).loc main_arg14))
    (m ((c : Thread nD τ).loc main_arg15))
end

-- The standardisation from the column sums and sums of squares: the deviation from the mean times the reciprocal standard deviation.
def Z (E : FVec Ideal Spec.S50000x128 .f32) : FVec Ideal Spec.S50000x128 .f32 :=
  Spec.kNorm E (Spec.kMean (Spec.row128 (Spec.colSum E)))
    (Spec.kInv (Spec.row128 (Spec.colSum E)) (Spec.row128 (Spec.colSum (mulf E E))))

-- A layer before its unit: rows scaled by the out-degree norm, times the weight; messages summed; scaled by the in-degree norm, plus the bias.
def lay (x : FVec Ideal Spec.S50000x128 .f32) (s d : IVec Spec.S600000 32) (W : FVec Ideal Spec.S128x128 .f32)
    (b : FVec Ideal Spec.S128 .f32) : FVec Ideal Spec.S50000x128 .f32 :=
  Spec.affine2 (Spec.aggregate (Spec.hidden x (Spec.norm s) W) s d) (Spec.norm d) (Spec.row128 b)

variable (m : (ℓ : Loc nD τ sig) → Buf (Elt Ideal) ℓ) (ρ : Dev nD → PrngReg) (RA : RegFactsA) (RB : RegFactsB) (RC : RegFactsC)

-- Graph a's degree norms and the bias rows, after the first host stretch.
theorem host0 (c : Dev nD) :
    W1 m ρ c (Proc.devRef .tc main_v10) = Spec.norm (F := Ideal) (m ((c : Thread nD τ).loc main_arg4))
    ∧ W1 m ρ c (Proc.devRef .tc main_v14) = Spec.norm (F := Ideal) (m ((c : Thread nD τ).loc main_arg5))
    ∧ W1 m ρ c (Proc.devRef .tc main_v15) = Spec.row128 (F := Ideal) (m ((c : Thread nD τ).loc main_arg9))
    ∧ W1 m ρ c (Proc.devRef .tc main_v16) = Spec.row128 (F := Ideal) (m ((c : Thread nD τ).loc main_arg11))
    ∧ W1 m ρ c (Proc.devRef .tc main_v17) = Spec.row128 (F := Ideal) (m ((c : Thread nD τ).loc main_arg13))
    ∧ W1 m ρ c (Proc.devRef .tc main_v18) = Spec.row128 (F := Ideal) (m ((c : Thread nD τ).loc main_arg15)) :=
  ⟨val_v10 _, val_v14 _, val_v15 _, val_v16 _, val_v17 _, val_v18 _⟩

-- Graph b's, after the stretch at boundary 12.
theorem host8 (c : Dev nD) :
    W13 m ρ c (Proc.devRef .tc main_v67) = Spec.norm (F := Ideal) (m ((c : Thread nD τ).loc main_arg6))
    ∧ W13 m ρ c (Proc.devRef .tc main_v71) = Spec.norm (F := Ideal) (m ((c : Thread nD τ).loc main_arg7))
    ∧ W13 m ρ c (Proc.devRef .tc main_v72) = Spec.row128 (F := Ideal) (m ((c : Thread nD τ).loc main_arg9))
    ∧ W13 m ρ c (Proc.devRef .tc main_v73) = Spec.row128 (F := Ideal) (m ((c : Thread nD τ).loc main_arg11))
    ∧ W13 m ρ c (Proc.devRef .tc main_v74) = Spec.row128 (F := Ideal) (m ((c : Thread nD τ).loc main_arg13))
    ∧ W13 m ρ c (Proc.devRef .tc main_v75) = Spec.row128 (F := Ideal) (m ((c : Thread nD τ).loc main_arg15)) :=
  have a := arg m ρ c 12
  ⟨(val_v67 _).trans (congrArg (Spec.norm (F := Ideal)) (a main_arg6 (by decide))),
   (val_v71 _).trans (congrArg (Spec.norm (F := Ideal)) (a main_arg7 (by decide))),
   (val_v72 _).trans (congrArg (Spec.row128 (F := Ideal)) (a main_arg9 (by decide))),
   (val_v73 _).trans (congrArg (Spec.row128 (F := Ideal)) (a main_arg11 (by decide))),
   (val_v74 _).trans (congrArg (Spec.row128 (F := Ideal)) (a main_arg13 (by decide))),
   (val_v75 _).trans (congrArg (Spec.row128 (F := Ideal)) (a main_arg15 (by decide)))⟩

-- Graph a through its second layer: a region's output is its closed form of inputs made earlier and carried unchanged since.
include RA in
theorem embA1 (c : Dev nD) : W8 m ρ c (Proc.devRef .tc main_v43)
    = Spec.eluRef (lay (Spec.eluRef (lay (Spec.drop (m ((c : Thread nD τ).loc main_arg0)) (m ((c : Thread nD τ).loc main_arg2))) (m ((c : Thread nD τ).loc main_arg4)) (m ((c : Thread nD τ).loc main_arg5)) (m ((c : Thread nD τ).loc main_arg8)) (m ((c : Thread nD τ).loc main_arg9))))
        (m ((c : Thread nD τ).loc main_arg4)) (m ((c : Thread nD τ).loc main_arg5)) (m ((c : Thread nD τ).loc main_arg10)) (m ((c : Thread nD τ).loc main_arg11))) := by
  have a := arg m ρ c
  obtain ⟨n10, n14, b15, b16, -, -⟩ := host0 m ρ c
  have v19 := (W2_arr m ρ c 2).trans ((RA.r0 (V1 m ρ) c).trans
    (congrArg₂ (Spec.drop (F := Ideal)) (a 1 main_arg0 (by decide)) (a 1 main_arg2 (by decide))))
  have v20 := (W3_arr m ρ c 3).trans ((RA.r1 (V2 m ρ) c).trans
    (cg3 (Spec.hidden (F := Ideal)) v19 (at_ 1 2 n10 (by decide)) (a 2 main_arg8 (by decide))))
  have v30 := (val_v30 (W3 m ρ c)).trans
    (cg3 (Spec.aggregate (F := Ideal)) v20 (a 3 main_arg4 (by decide)) (a 3 main_arg5 (by decide)))
  have v31 := (W5_arr m ρ c 3).trans ((RA.r2 (V4 m ρ) c).trans
    (congrArg (Spec.eluRef (F := Ideal)) (cg3 (Spec.affine2 (F := Ideal)) v30 (at_ 1 4 n14 (by decide)) (at_ 1 4 b15 (by decide)))))
  have v32 := (W6_arr m ρ c 3).trans ((RA.r3 (V5 m ρ) c).trans
    (cg3 (Spec.hidden (F := Ideal)) v31 (at_ 1 5 n10 (by decide)) (a 5 main_arg10 (by decide))))
  have v42 := (val_v42 (W6 m ρ c)).trans
    (cg3 (Spec.aggregate (F := Ideal)) v32 (a 6 main_arg4 (by decide)) (a 6 main_arg5 (by decide)))
  exact (W8_arr m ρ c 3).trans ((RA.r4 (V7 m ρ) c).trans
    (congrArg (Spec.eluRef (F := Ideal)) (cg3 (Spec.affine2 (F := Ideal)) v42 (at_ 1 7 n14 (by decide)) (at_ 1 7 b16 (by decide)))))

include RA in
theorem embA (c : Dev nD) : W12 m ρ c (Proc.devRef .tc main_v56) = Ea m c := by
  have a := arg m ρ c
  obtain ⟨n10, n14, -, -, b17, b18⟩ := host0 m ρ c
  have v44 := (W9_arr m ρ c 3).trans ((RA.r5 (V8 m ρ) c).trans
    (cg3 (Spec.hidden (F := Ideal)) (embA1 m ρ RA c) (at_ 1 8 n10 (by decide)) (a 8 main_arg12 (by decide))))
  have v54 := (val_v54 (W9 m ρ c)).trans
    (cg3 (Spec.aggregate (F := Ideal)) v44 (a 9 main_arg4 (by decide)) (a 9 main_arg5 (by decide)))
  have v55 := (W11_arr m ρ c 3).trans ((RA.r6 (V10 m ρ) c).trans
    (cg3 (Spec.affine2 (F := Ideal)) v54 (at_ 1 10 n14 (by decide)) (at_ 1 10 b17 (by decide))))
  exact (W12_arr m ρ c 3).trans ((RA.r7 (V11 m ρ) c).trans
    ((cg3 (Spec.head2 (F := Ideal)) v55 (a 11 main_arg14 (by decide)) (at_ 1 11 b18 (by decide))).trans (head2_layers_eq_embed ..)))

-- Graph b, the same walk from boundary 13.
include RB in
theorem embB1 (c : Dev nD) : W20 m ρ c (Proc.devRef .tc main_v100)
    = Spec.eluRef (lay (Spec.eluRef (lay (Spec.drop (m ((c : Thread nD τ).loc main_arg1)) (m ((c : Thread nD τ).loc main_arg3))) (m ((c : Thread nD τ).loc main_arg6)) (m ((c : Thread nD τ).loc main_arg7)) (m ((c : Thread nD τ).loc main_arg8)) (m ((c : Thread nD τ).loc main_arg9))))
        (m ((c : Thread nD τ).loc main_arg6)) (m ((c : Thread nD τ).loc main_arg7)) (m ((c : Thread nD τ).loc main_arg10)) (m ((c : Thread nD τ).loc main_arg11))) := by
  have a := arg m ρ c
  obtain ⟨n67, n71, b72, b73, -, -⟩ := host8 m ρ c
  have v76 := (W14_arr m ρ c 2).trans ((RB.r8 (V13 m ρ) c).trans
    (congrArg₂ (Spec.drop (F := Ideal)) (a 13 main_arg1 (by decide)) (a 13 main_arg3 (by decide))))
  have v77 := (W15_arr m ρ c 3).trans ((RB.r9 (V14 m ρ) c).trans
    (cg3 (Spec.hidden (F := Ideal)) v76 (at_ 13 14 n67 (by decide)) (a 14 main_arg8 (by decide))))
  have v87 := (val_v87 (W15 m ρ c)).trans
    (cg3 (Spec.aggregate (F := Ideal)) v77 (a 15 main_arg6 (by decide)) (a 15 main_arg7 (by decide)))
  have v88 := (W17_arr m ρ c 3).trans ((RB.r10 (V16 m ρ) c).trans
    (congrArg (Spec.eluRef (F := Ideal)) (cg3 (Spec.affine2 (F := Ideal)) v87 (at_ 13 16 n71 (by decide)) (at_ 13 16 b72 (by decide)))))
  have v89 := (W18_arr m ρ c 3).trans ((RB.r11 (V17 m ρ) c).trans
    (cg3 (Spec.hidden (F := Ideal)) v88 (at_ 13 17 n67 (by decide)) (a 17 main_arg10 (by decide))))
  have v99 := (val_v99 (W18 m ρ c)).trans
    (cg3 (Spec.aggregate (F := Ideal)) v89 (a 18 main_arg6 (by decide)) (a 18 main_arg7 (by decide)))
  exact (W20_arr m ρ c 3).trans ((RB.r12 (V19 m ρ) c).trans
    (congrArg (Spec.eluRef (F := Ideal)) (cg3 (Spec.affine2 (F := Ideal)) v99 (at_ 13 19 n71 (by decide)) (at_ 13 19 b73 (by decide)))))

include RB in
theorem embB (c : Dev nD) : W24 m ρ c (Proc.devRef .tc main_v113) = Eb m c := by
  have a := arg m ρ c
  obtain ⟨n67, n71, -, -, b74, b75⟩ := host8 m ρ c
  have v101 := (W21_arr m ρ c 3).trans ((RB.r13 (V20 m ρ) c).trans
    (cg3 (Spec.hidden (F := Ideal)) (embB1 m ρ RB c) (at_ 13 20 n67 (by decide)) (a 20 main_arg12 (by decide))))
  have v111 := (val_v111 (W21 m ρ c)).trans
    (cg3 (Spec.aggregate (F := Ideal)) v101 (a 21 main_arg6 (by decide)) (a 21 main_arg7 (by decide)))
  have v112 := (W23_arr m ρ c 3).trans ((RB.r14 (V22 m ρ) c).trans
    (cg3 (Spec.affine2 (F := Ideal)) v111 (at_ 13 22 n71 (by decide)) (at_ 13 22 b74 (by decide))))
  exact (W24_arr m ρ c 3).trans ((RB.r15 (V23 m ρ) c).trans
    ((cg3 (Spec.head2 (F := Ideal)) v112 (a 23 main_arg14 (by decide)) (at_ 13 23 b75 (by decide))).trans (head2_layers_eq_embed ..)))

include RA RB RC

-- The column statistics, the standardisation and the classifier on both embeddings.
theorem results (c : Dev nD) :
    W31 m ρ c (Proc.devRef .tc main_v135_0) = Z (Ea m c) ∧ W31 m ρ c (Proc.devRef .tc main_v136_0) = Z (Eb m c)
    ∧ W31 m ρ c (Proc.devRef .tc main_v135_1)
        = Spec.classify2 (Z (Ea m c)) (m ((c : Thread nD τ).loc main_arg16)) (Spec.row2 (m ((c : Thread nD τ).loc main_arg17)))
    ∧ W31 m ρ c (Proc.devRef .tc main_v136_1)
        = Spec.classify2 (Z (Eb m c)) (m ((c : Thread nD τ).loc main_arg16)) (Spec.row2 (m ((c : Thread nD τ).loc main_arg17))) := by
  have a := arg m ρ c
  have v56 := embA m ρ RA c
  have v113 := embB m ρ RB c
  have b114 := (val_v114 (W24 m ρ c)).trans (congrArg (Spec.row2 (F := Ideal)) (a 24 main_arg17 (by decide)))
  have ea := at_ 12 25 v56 (by decide)
  have s0 := (W26_arr m ρ c 1).trans ((RC.r16_1 (V25 m ρ) c).trans
    (congrArg (fun x => Spec.row128 (F := Ideal) (Spec.colSum x)) ea))
  have s1 := (W26_arr m ρ c 2).trans ((RC.r16_2 (V25 m ρ) c).trans
    (congrArg (fun x => Spec.row128 (F := Ideal) (Spec.colSum (mulf x x))) ea))
  have mu := (val_v117 (W26 m ρ c)).trans (congrArg (Spec.kMean (F := Ideal)) s0)
  have iv := (val_v124 (W26 m ρ c)).trans (congrArg₂ (Spec.kInv (F := Ideal)) s0 s1)
  have eb := at_ 24 27 v113 (by decide)
  have t0 := (W28_arr m ρ c 1).trans ((RC.r17_1 (V27 m ρ) c).trans
    (congrArg (fun x => Spec.row128 (F := Ideal) (Spec.colSum x)) eb))
  have t1 := (W28_arr m ρ c 2).trans ((RC.r17_2 (V27 m ρ) c).trans
    (congrArg (fun x => Spec.row128 (F := Ideal) (Spec.colSum (mulf x x))) eb))
  have nu := (val_v127 (W28 m ρ c)).trans (congrArg (Spec.kMean (F := Ideal)) t0)
  have jv := (val_v134 (W28 m ρ c)).trans (congrArg₂ (Spec.kInv (F := Ideal)) t0 t1)
  have za := cg3 (Spec.kNorm (F := Ideal)) (at_ 12 29 v56 (by decide)) (at_ 27 29 mu (by decide)) (at_ 27 29 iv (by decide))
  have zb := cg3 (Spec.kNorm (F := Ideal)) (at_ 24 30 v113 (by decide)) (at_ 29 30 nu (by decide)) (at_ 29 30 jv (by decide))
  exact ⟨at_ 30 31 ((W30_arr m ρ c 5).trans ((RC.r18_5 (V29 m ρ) c).trans za)) (by decide),
    (W31_arr m ρ c 5).trans ((RC.r19_5 (V30 m ρ) c).trans zb),
    at_ 30 31 ((W30_arr m ρ c 6).trans ((RC.r18_6 (V29 m ρ) c).trans
      (cg3 (Spec.classify2 (F := Ideal)) za (a 29 main_arg16 (by decide)) (at_ 25 29 b114 (by decide))))) (by decide),
    (W31_arr m ρ c 6).trans ((RC.r19_6 (V30 m ρ) c).trans
      (cg3 (Spec.classify2 (F := Ideal)) zb (a 30 main_arg16 (by decide)) (at_ 25 30 b114 (by decide))))⟩

end Cert.KChain

end
-- ==== Proof.RefRun.lean ====
import proofs.«107092_j29411936043366_1_alg».proof.Proof.Gen.ReferenceIdeal
import proofs.«107092_j29411936043366_1_alg».proof.Proof.Spec
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

section Lines
variable {Val : EltTy → Type}

theorem after_app : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

-- each operation of the line writes exactly one reference, of index at least `lo`
def In (lo : Nat) (L : List (HloOp τ sig Val)) : Prop :=
  ∀ op ∈ L, op.bufs ⊆ tcRefs τ sig ∧ op.fresh = ∅ ∧ ∃ y : Ref sig .tc, lo ≤ y.idx.1 ∧ op.writes = {Proc.devRef .tc y}

theorem In.nil {lo : Nat} : In lo ([] : List (HloOp τ sig Val)) := fun _ h => nomatch h

theorem In.cons {lo : Nat} {op : HloOp τ sig Val} {L : List (HloOp τ sig Val)} (y : Ref sig .tc) (hb : op.bufs ⊆ tcRefs τ sig)
    (hf : op.fresh = ∅) (hw : op.writes = {Proc.devRef .tc y}) (hy : lo ≤ y.idx.1) (hL : In lo L) : In lo (op :: L) := fun o ho => by
  rcases List.mem_cons.mp ho with rfl | ho
  exacts [⟨hb, hf, y, hy, hw⟩, hL o ho]

theorem In.app {lo lo' : Nat} {L M : List (HloOp τ sig Val)} (hL : In lo L) (hM : In lo' M) (h : lo ≤ lo' := by decide) : In lo (L ++ M) :=
  fun o ho => (List.mem_append.mp ho).elim (hL o) fun hm => let ⟨a, b, y, hy, hw⟩ := hM o hm; ⟨a, b, y, h.trans hy, hw⟩

-- a reference below every index the line writes keeps its contents
theorem keep {lo : Nat} {L : List (HloOp τ sig Val)} (hL : In lo L) (r : Ref sig .tc) {V : Valuation τ sig Val} (hr : r.idx.1 < lo := by decide) :
    after L V (Proc.devRef .tc r) = V (Proc.devRef .tc r) :=
  after_of_forall_not_mem L V fun op hop hb => by
    obtain ⟨-, -, y, hy, hw⟩ := hL op hop
    rw [hw, Finset.mem_singleton] at hb
    cases Proc.devRef_injective _ hb
    exact absurd hy (Nat.not_le.mpr hr)

macro "in_line" : tactic =>
  `(tactic| repeat (first | exact In.nil | (refine In.cons _ ?_ rfl rfl (by decide) ?_; simp only [nullary_bufs_sub, unary_bufs_sub, binary_bufs_sub, ternary_bufs_sub])))

abbrev argsL : List (Ref sig .tc) :=
  [main_arg0, main_arg1, main_arg2, main_arg3, main_arg4, main_arg5, main_arg6, main_arg7, main_arg8, main_arg9, main_arg10,
    main_arg11, main_arg12, main_arg13, main_arg14, main_arg15, main_arg16, main_arg17]

theorem argsL_lt : ∀ r ∈ argsL, r.idx.1 < 18 := by decide

end Lines

variable {F : FTy → Type} [FloatOps F]

abbrev elu (x : TRef sig ⟨S50000x128, .f32⟩) (φ : fn_elu.Bufs) : List (HloOp τ sig (Elt F)) :=
  [ TRef.nullary φ.cst (constant S_ .f32 0x00000000#32),
    TRef.unary φ.cst φ.v0 (broadcastInDim S50000x128 ![] bcast_S_S50000x128),
    TRef.binary x φ.v0 φ.v1 (cmpf .ogt),
    TRef.nullary φ.cst_0 (constant S_ .f32 0x00000000#32),
    TRef.unary φ.cst_0 φ.v2 (broadcastInDim S50000x128 ![] bcast_S_S50000x128),
    TRef.binary x φ.v2 φ.v3 (cmpf .ogt),
    TRef.nullary φ.cst_1 (constant S_ .f32 0x00000000#32),
    TRef.unary φ.cst_1 φ.call0.v0 id,
    TRef.unary φ.call0.v0 φ.call0.v1 (broadcastInDim S50000x128 ![] bcast_S_S50000x128),
    TRef.ternary φ.v3 φ.call0.v1 x φ.call0.v2 select,
    TRef.unary φ.call0.v2 φ.v5 Host.expm1,
    TRef.nullary φ.cst_2 (constant S_ .f32 0x3F800000#32),
    TRef.unary φ.cst_2 φ.v6 (broadcastInDim S50000x128 ![] bcast_S_S50000x128),
    TRef.binary φ.v6 φ.v5 φ.v7 mulf,
    TRef.ternary φ.v1 x φ.v7 φ.call1.v0 select ]

abbrev dropL (a0 a7 : TRef sig ⟨S_, .f32⟩) (a1 a2 a4 a5 a6 a8 a9 : TRef sig ⟨S50000x128, .f32⟩) (a3 : TRef sig ⟨S50000x128, .i1⟩) : List (HloOp τ sig (Elt F)) :=
  [ TRef.nullary a0 (constant S_ .f32 0x3E4CCCCD#32),
    TRef.unary a0 a1 (broadcastInDim S50000x128 ![] bcast_S_S50000x128),
    TRef.binary a2 a1 a3 (cmpf .ogt),
    TRef.unary a3 a4 (uitofp .f32),
    TRef.binary a5 a4 a6 mulf,
    TRef.nullary a7 (constant S_ .f32 0x3FA00000#32),
    TRef.unary a7 a8 (broadcastInDim S50000x128 ![] bcast_S_S50000x128),
    TRef.binary a6 a8 a9 mulf ]

abbrev degL (a0 a2 a7 a12 a17 : TRef sig ⟨S_, .f32⟩) (a1 : TRef sig ⟨S600000, .f32⟩) (a3 a6 a8 a11 a13 a14 a15 a18 a19 a20 : TRef sig ⟨S50000, .f32⟩) (a4 a9 : TRef sig ⟨S600000, .i32⟩) (a5 a10 : TRef sig ⟨S600000x1, .i32⟩) (a16 a21 : TRef sig ⟨S50000x1, .f32⟩) : List (HloOp τ sig (Elt F)) :=
  [ TRef.nullary a0 (constant S_ .f32 0x3F800000#32),
    TRef.unary a0 a1 (broadcastInDim S600000 ![] bcast_S_S600000),
    TRef.nullary a2 (constant S_ .f32 0x00000000#32),
    TRef.unary a2 a3 (broadcastInDim S50000 ![] bcast_S_S50000),
    TRef.unary a4 a5 (broadcastInDim S600000x1 ![0] bcast_S600000_S600000x1_0),
    TRef.ternary a3 a5 a1 a6 (fun x i u => Host.scatterAdd scatter_S50000_S600000x1_S600000_n_0_0_1 x i u),
    TRef.nullary a7 (constant S_ .f32 0x00000000#32),
    TRef.unary a7 a8 (broadcastInDim S50000 ![] bcast_S_S50000),
    TRef.unary a9 a10 (broadcastInDim S600000x1 ![0] bcast_S600000_S600000x1_0),
    TRef.ternary a8 a10 a1 a11 (fun x i u => Host.scatterAdd scatter_S50000_S600000x1_S600000_n_0_0_1 x i u),
    TRef.nullary a12 (constant S_ .f32 0x3F800000#32),
    TRef.unary a12 a13 (broadcastInDim S50000 ![] bcast_S_S50000),
    TRef.binary a6 a13 a14 maximumf,
    TRef.unary a14 a15 Host.rsqrt,
    TRef.unary a15 a16 (broadcastInDim S50000x1 ![0] bcast_S50000_S50000x1_0),
    TRef.nullary a17 (constant S_ .f32 0x3F800000#32),
    TRef.unary a17 a18 (broadcastInDim S50000 ![] bcast_S_S50000),
    TRef.binary a11 a18 a19 maximumf,
    TRef.unary a19 a20 Host.rsqrt,
    TRef.unary a20 a21 (broadcastInDim S50000x1 ![0] bcast_S50000_S50000x1_0) ]

abbrev layerL (a0 a21 : TRef sig ⟨S50000x1, .f32⟩) (a1 a2 a3 a5 a17 a20 a22 a23 a26 a27 : TRef sig ⟨S50000x128, .f32⟩) (a4 : TRef sig ⟨S128x128, .f32⟩) (a6 a10 : TRef sig ⟨S_, .i32⟩) (a7 a8 a11 a12 a13 a18 : TRef sig ⟨S600000, .i32⟩) (a9 : TRef sig ⟨S600000, .i1⟩) (a14 a19 : TRef sig ⟨S600000x1, .i32⟩) (a15 : TRef sig ⟨S600000x128, .f32⟩) (a16 : TRef sig ⟨S_, .f32⟩) (a24 : TRef sig ⟨S128, .f32⟩) (a25 : TRef sig ⟨S1x128, .f32⟩) (φ : fn_elu.Bufs) : List (HloOp τ sig (Elt F)) :=
  [ TRef.unary a0 a1 (broadcastInDim S50000x128 ![0, 1] bcast_S50000x1_S50000x128_0_1),
    TRef.binary a2 a1 a3 mulf,
    TRef.binary a3 a4 a5 (fun l r => Host.dotGeneral dot_S50000x128_S128x128_S50000x128_1_0_0_1_n_n none l r),
    TRef.nullary a6 (constantI S_ 32 0#32),
    TRef.unary a6 a7 (broadcastInDim S600000 ![] bcast_S_S600000),
    TRef.binary a8 a7 a9 (cmpi .slt),
    TRef.nullary a10 (constantI S_ 32 50000#32),
    TRef.unary a10 a11 (broadcastInDim S600000 ![] bcast_S_S600000),
    TRef.binary a8 a11 a12 addi,
    TRef.ternary a9 a12 a8 a13 select,
    TRef.unary a13 a14 (broadcastInDim S600000x1 ![0] bcast_S600000_S600000x1_0),
    TRef.binary a5 a14 a15 (fun x i => Host.gather gather_S50000x128_S600000x1_S600000x128_1_0_n_n_0_1_1128 x i),
    TRef.nullary a16 (constant S_ .f32 0x00000000#32),
    TRef.unary a16 a17 (broadcastInDim S50000x128 ![] bcast_S_S50000x128),
    TRef.unary a18 a19 (broadcastInDim S600000x1 ![0] bcast_S600000_S600000x1_0),
    TRef.ternary a17 a19 a15 a20 (fun x i u => Host.scatterAdd scatter_S50000x128_S600000x1_S600000x128_1_0_0_1 x i u),
    TRef.unary a21 a22 (broadcastInDim S50000x128 ![0, 1] bcast_S50000x1_S50000x128_0_1),
    TRef.binary a20 a22 a23 mulf,
    TRef.unary a24 a25 (broadcastInDim S1x128 ![1] bcast_S128_S1x128_1),
    TRef.unary a25 a26 (broadcastInDim S50000x128 ![0, 1] bcast_S1x128_S50000x128_0_1),
    TRef.binary a23 a26 a27 addf ] ++ elu a27 φ

abbrev headL (a0 a2 a5 a6 : TRef sig ⟨S50000x128, .f32⟩) (a1 : TRef sig ⟨S128x128, .f32⟩) (a3 : TRef sig ⟨S128, .f32⟩) (a4 : TRef sig ⟨S1x128, .f32⟩) : List (HloOp τ sig (Elt F)) :=
  [ TRef.binary a0 a1 a2 (fun l r => Host.dotGeneral dot_S50000x128_S128x128_S50000x128_1_0_0_1_n_n none l r),
    TRef.unary a3 a4 (broadcastInDim S1x128 ![1] bcast_S128_S1x128_1),
    TRef.unary a4 a5 (broadcastInDim S50000x128 ![0, 1] bcast_S1x128_S50000x128_0_1),
    TRef.binary a2 a5 a6 addf ]

abbrev statL (a0 a3 : TRef sig ⟨S_, .f32⟩) (a1 a7 a8 a12 a13 : TRef sig ⟨S50000x128, .f32⟩) (a2 a4 a5 a10 : TRef sig ⟨S128, .f32⟩) (a6 a11 : TRef sig ⟨S1x128, .f32⟩) (a9 : TRef sig ⟨S_, .i32⟩) (φ : fn_std.Bufs) : List (HloOp τ sig (Elt F)) :=
  [ TRef.nullary a0 (constant S_ .f32 0x00000000#32),
    TRef.binary a1 a0 a2 (fun x v => Host.reduceAdd x v reducesTo_S50000x128_S128_d0 h_S_),
    TRef.nullary a3 (constant S_ .f32 0x47435000#32),
    TRef.unary a3 a4 (broadcastInDim S128 ![] bcast_S_S128),
    TRef.binary a2 a4 a5 Host.divf,
    TRef.unary a5 a6 (broadcastInDim S1x128 ![1] bcast_S128_S1x128_1),
    TRef.unary a6 a7 (broadcastInDim S50000x128 ![0, 1] bcast_S1x128_S50000x128_0_1),
    TRef.binary a1 a7 a8 subf,
    TRef.nullary a9 (constantI S_ 32 1#32),
    TRef.nullary φ.call0.cst (constant S_ .f32 0x00000000#32),
    TRef.binary a1 φ.call0.cst φ.call0.v0 (fun x v => Host.reduceAdd x v reducesTo_S50000x128_S128_d0 h_S_),
    TRef.unary φ.call0.v0 φ.call0.v1 (broadcastInDim S1x128 ![1] bcast_S128_S1x128_1),
    TRef.nullary φ.call0.cst_0 (constant S_ .f32 0x47435000#32),
    TRef.unary φ.call0.cst_0 φ.call0.v2 (broadcastInDim S1x128 ![] bcast_S_S1x128),
    TRef.binary φ.call0.v1 φ.call0.v2 φ.call0.v3 Host.divf,
    TRef.unary φ.call0.v3 φ.call0.v4 (broadcastInDim S50000x128 ![0, 1] bcast_S1x128_S50000x128_0_1),
    TRef.binary a1 φ.call0.v4 φ.call0.v5 subf,
    TRef.binary φ.call0.v5 φ.call0.v5 φ.call0.v6 mulf,
    TRef.unary a9 φ.call0.v7 (sitofp .f32),
    TRef.nullary φ.call0.cst_1 (constant S_ .f32 0x47435000#32),
    TRef.binary φ.call0.cst_1 φ.call0.v7 φ.call0.v8 subf,
    TRef.nullary φ.call0.cst_2 (constant S_ .f32 0x00000000#32),
    TRef.binary φ.call0.v6 φ.call0.cst_2 φ.call0.v9 (fun x v => Host.reduceAdd x v reducesTo_S50000x128_S128_d0 h_S_),
    TRef.unary φ.call0.v8 φ.call0.v10 (broadcastInDim S128 ![] bcast_S_S128),
    TRef.binary φ.call0.v9 φ.call0.v10 φ.call0.v11 Host.divf,
    TRef.nullary φ.call0.cst_3 (constant S_ .f32 0x00000000#32),
    TRef.binary φ.call0.v8 φ.call0.cst_3 φ.call0.v12 (cmpf .ogt),
    TRef.nullary φ.call0.cst_4 (constant S_ .f32 0x7FC00000#32),
    TRef.unary φ.call0.cst_4 φ.call0.call0.v0 id,
    TRef.unary φ.call0.call0.v0 φ.call0.call0.v1 (broadcastInDim S128 ![] bcast_S_S128),
    TRef.ternary φ.call0.v12 φ.call0.v11 φ.call0.call0.v1 φ.call0.call0.v2 (fun p a b => select (broadcastInDim S128 ![] bcast_S_S128 p) a b),
    TRef.unary φ.call0.call0.v2 φ.v1 Host.sqrt,
    TRef.unary a10 a11 (broadcastInDim S1x128 ![1] bcast_S128_S1x128_1),
    TRef.unary a11 a12 (broadcastInDim S50000x128 ![0, 1] bcast_S1x128_S50000x128_0_1),
    TRef.binary a8 a12 a13 Host.divf ]

abbrev clsL (a0 : TRef sig ⟨S50000x128, .f32⟩) (a1 : TRef sig ⟨S128x2, .f32⟩) (a2 a5 a6 : TRef sig ⟨S50000x2, .f32⟩) (a3 : TRef sig ⟨S2, .f32⟩) (a4 : TRef sig ⟨S1x2, .f32⟩) : List (HloOp τ sig (Elt F)) :=
  [ TRef.binary a0 a1 a2 (fun l r => Host.dotGeneral dot_S50000x128_S128x2_S50000x2_1_0_0_1_n_n none l r),
    TRef.unary a3 a4 (broadcastInDim S1x2 ![1] bcast_S2_S1x2_1),
    TRef.unary a4 a5 (broadcastInDim S50000x2 ![0, 1] bcast_S1x2_S50000x2_0_1),
    TRef.binary a2 a5 a6 addf ]

abbrev C0 : List (HloOp τ sig (Elt F)) :=
  dropL (.of main_cst) (.of main_cst_0) (.of main_v0) (.of main_arg2) (.of main_v2) (.of main_arg0) (.of main_v3) (.of main_v4) (.of main_v5) (.of main_v1) ++
  dropL (.of main_cst_1) (.of main_cst_2) (.of main_v6) (.of main_arg3) (.of main_v8) (.of main_arg1) (.of main_v9) (.of main_v10) (.of main_v11) (.of main_v7)

abbrev C1 : List (HloOp τ sig (Elt F)) :=
  degL (.of main_cst_3) (.of main_cst_4) (.of main_cst_5) (.of main_cst_6) (.of main_cst_7) (.of main_v12) (.of main_v13) (.of main_v15) (.of main_v16) (.of main_v18) (.of main_v19) (.of main_v20) (.of main_v21) (.of main_v23) (.of main_v24) (.of main_v25) (.of main_arg4) (.of main_arg5) (.of main_v14) (.of main_v17) (.of main_v22) (.of main_v26)

abbrev C2 : List (HloOp τ sig (Elt F)) :=
  layerL (.of main_v22) (.of main_v26) (.of main_v27) (.of main_v5) (.of main_v28) (.of main_v29) (.of main_v37) (.of main_v39) (.of main_v40) (.of main_v41) (.of main_v43) (.of main_v44) (.of main_arg8) (.of main_c) (.of main_c_8) (.of main_v30) (.of main_arg4) (.of main_v32) (.of main_v33) (.of main_v34) (.of main_arg5) (.of main_v31) (.of main_v35) (.of main_v38) (.of main_v36) (.of main_cst_9) (.of main_arg9) (.of main_v42) main_call0

abbrev C3 : List (HloOp τ sig (Elt F)) :=
  layerL (.of main_v22) (.of main_v26) (.of main_v46) (.of main_v45) (.of main_v47) (.of main_v48) (.of main_v56) (.of main_v58) (.of main_v59) (.of main_v60) (.of main_v62) (.of main_v63) (.of main_arg10) (.of main_c_10) (.of main_c_11) (.of main_v49) (.of main_arg4) (.of main_v51) (.of main_v52) (.of main_v53) (.of main_arg5) (.of main_v50) (.of main_v54) (.of main_v57) (.of main_v55) (.of main_cst_12) (.of main_arg11) (.of main_v61) main_call1

abbrev C4 : List (HloOp τ sig (Elt F)) :=
  layerL (.of main_v22) (.of main_v26) (.of main_v65) (.of main_v64) (.of main_v66) (.of main_v67) (.of main_v75) (.of main_v77) (.of main_v78) (.of main_v79) (.of main_v81) (.of main_v82) (.of main_arg12) (.of main_c_13) (.of main_c_14) (.of main_v68) (.of main_arg4) (.of main_v70) (.of main_v71) (.of main_v72) (.of main_arg5) (.of main_v69) (.of main_v73) (.of main_v76) (.of main_v74) (.of main_cst_15) (.of main_arg13) (.of main_v80) main_call2 ++
  headL (.of main_v83) (.of main_v84) (.of main_v86) (.of main_v87) (.of main_arg14) (.of main_arg15) (.of main_v85)

abbrev C5 : List (HloOp τ sig (Elt F)) :=
  degL (.of main_cst_16) (.of main_cst_17) (.of main_cst_18) (.of main_cst_19) (.of main_cst_20) (.of main_v88) (.of main_v89) (.of main_v91) (.of main_v92) (.of main_v94) (.of main_v95) (.of main_v96) (.of main_v97) (.of main_v99) (.of main_v100) (.of main_v101) (.of main_arg6) (.of main_arg7) (.of main_v90) (.of main_v93) (.of main_v98) (.of main_v102)

abbrev C6 : List (HloOp τ sig (Elt F)) :=
  layerL (.of main_v98) (.of main_v102) (.of main_v103) (.of main_v11) (.of main_v104) (.of main_v105) (.of main_v113) (.of main_v115) (.of main_v116) (.of main_v117) (.of main_v119) (.of main_v120) (.of main_arg8) (.of main_c_21) (.of main_c_22) (.of main_v106) (.of main_arg6) (.of main_v108) (.of main_v109) (.of main_v110) (.of main_arg7) (.of main_v107) (.of main_v111) (.of main_v114) (.of main_v112) (.of main_cst_23) (.of main_arg9) (.of main_v118) main_call3

abbrev C7 : List (HloOp τ sig (Elt F)) :=
  layerL (.of main_v98) (.of main_v102) (.of main_v122) (.of main_v121) (.of main_v123) (.of main_v124) (.of main_v132) (.of main_v134) (.of main_v135) (.of main_v136) (.of main_v138) (.of main_v139) (.of main_arg10) (.of main_c_24) (.of main_c_25) (.of main_v125) (.of main_arg6) (.of main_v127) (.of main_v128) (.of main_v129) (.of main_arg7) (.of main_v126) (.of main_v130) (.of main_v133) (.of main_v131) (.of main_cst_26) (.of main_arg11) (.of main_v137) main_call4

abbrev C8 : List (HloOp τ sig (Elt F)) :=
  layerL (.of main_v98) (.of main_v102) (.of main_v141) (.of main_v140) (.of main_v142) (.of main_v143) (.of main_v151) (.of main_v153) (.of main_v154) (.of main_v155) (.of main_v157) (.of main_v158) (.of main_arg12) (.of main_c_27) (.of main_c_28) (.of main_v144) (.of main_arg6) (.of main_v146) (.of main_v147) (.of main_v148) (.of main_arg7) (.of main_v145) (.of main_v149) (.of main_v152) (.of main_v150) (.of main_cst_29) (.of main_arg13) (.of main_v156) main_call5 ++
  headL (.of main_v159) (.of main_v160) (.of main_v162) (.of main_v163) (.of main_arg14) (.of main_arg15) (.of main_v161)

abbrev C9 : List (HloOp τ sig (Elt F)) :=
  statL (.of main_cst_30) (.of main_cst_31) (.of main_v87) (.of main_v168) (.of main_v169) (.of main_v172) (.of main_v173) (.of main_v164) (.of main_v165) (.of main_v166) (.of main_v170) (.of main_v167) (.of main_v171) (.of main_c_32) main_call6

abbrev C10 : List (HloOp τ sig (Elt F)) :=
  statL (.of main_cst_33) (.of main_cst_34) (.of main_v163) (.of main_v178) (.of main_v179) (.of main_v182) (.of main_v183) (.of main_v174) (.of main_v175) (.of main_v176) (.of main_v180) (.of main_v177) (.of main_v181) (.of main_c_35) main_call7

abbrev C11 : List (HloOp τ sig (Elt F)) :=
  clsL (.of main_v173) (.of main_arg16) (.of main_v184) (.of main_v186) (.of main_v187) (.of main_arg17) (.of main_v185) ++
  clsL (.of main_v183) (.of main_arg16) (.of main_v188) (.of main_v190) (.of main_v191) (.of main_arg17) (.of main_v189)

section Values
variable (V : Valuation τ sig (Elt F))

theorem C0_v5 : after C0 V (Proc.devRef .tc main_v5) = Cert.Spec.drop (V main_arg0) (V main_arg2) := by
  simp only [C0, dropL, List.cons_append, List.nil_append]; after_results_simp <;> rfl
theorem C0_v11 : after C0 V (Proc.devRef .tc main_v11) = Cert.Spec.drop (V main_arg1) (V main_arg3) := by
  simp only [C0, dropL, List.cons_append, List.nil_append]; after_results_simp <;> rfl

theorem C1_v22 : after C1 V (Proc.devRef .tc main_v22) = Cert.Spec.norm (V main_arg4) := by
  simp only [C1, degL]; after_results_simp <;> rfl
theorem C1_v26 : after C1 V (Proc.devRef .tc main_v26) = Cert.Spec.norm (V main_arg5) := by
  simp only [C1, degL]; after_results_simp <;> rfl

theorem C2_v45 : after C2 V (Proc.devRef .tc main_v45)
    = Cert.Spec.eluRef (Cert.Spec.layer (V main_v5) (V main_v22) (V main_v26) (V main_arg8) (V main_arg9) (V main_arg4) (V main_arg5)) := by
  simp only [C2, layerL, elu, List.cons_append, List.nil_append]; after_results_simp <;> rfl

theorem C3_v64 : after C3 V (Proc.devRef .tc main_v64)
    = Cert.Spec.eluRef (Cert.Spec.layer (V main_v45) (V main_v22) (V main_v26) (V main_arg10) (V main_arg11) (V main_arg4) (V main_arg5)) := by
  simp only [C3, layerL, elu, List.cons_append, List.nil_append]; after_results_simp <;> rfl

theorem C4_v87 : after C4 V (Proc.devRef .tc main_v87)
    = addf (Host.dotGeneral Cert.Spec.ddHid none
        (Cert.Spec.eluRef (Cert.Spec.layer (V main_v64) (V main_v22) (V main_v26) (V main_arg12) (V main_arg13) (V main_arg4) (V main_arg5)))
        (V main_arg14)) (Cert.Spec.rows128 (V main_arg15)) := by
  simp only [C4, layerL, headL, elu, List.cons_append, List.nil_append]; after_results_simp <;> rfl

theorem C5_v98 : after C5 V (Proc.devRef .tc main_v98) = Cert.Spec.norm (V main_arg6) := by
  simp only [C5, degL]; after_results_simp <;> rfl
theorem C5_v102 : after C5 V (Proc.devRef .tc main_v102) = Cert.Spec.norm (V main_arg7) := by
  simp only [C5, degL]; after_results_simp <;> rfl

theorem C6_v121 : after C6 V (Proc.devRef .tc main_v121)
    = Cert.Spec.eluRef (Cert.Spec.layer (V main_v11) (V main_v98) (V main_v102) (V main_arg8) (V main_arg9) (V main_arg6) (V main_arg7)) := by
  simp only [C6, layerL, elu, List.cons_append, List.nil_append]; after_results_simp <;> rfl

theorem C7_v140 : after C7 V (Proc.devRef .tc main_v140)
    = Cert.Spec.eluRef (Cert.Spec.layer (V main_v121) (V main_v98) (V main_v102) (V main_arg10) (V main_arg11) (V main_arg6) (V main_arg7)) := by
  simp only [C7, layerL, elu, List.cons_append, List.nil_append]; after_results_simp <;> rfl

theorem C8_v163 : after C8 V (Proc.devRef .tc main_v163)
    = addf (Host.dotGeneral Cert.Spec.ddHid none
        (Cert.Spec.eluRef (Cert.Spec.layer (V main_v140) (V main_v98) (V main_v102) (V main_arg12) (V main_arg13) (V main_arg6) (V main_arg7)))
        (V main_arg14)) (Cert.Spec.rows128 (V main_arg15)) := by
  simp only [C8, layerL, headL, elu, List.cons_append, List.nil_append]; after_results_simp <;> rfl

theorem C9_v173 : after C9 V (Proc.devRef .tc main_v173) = Cert.Spec.refNorm (V main_v87) := by
  simp only [C9, statL]; after_results_simp <;> rfl

theorem C10_v183 : after C10 V (Proc.devRef .tc main_v183) = Cert.Spec.refNorm (V main_v163) := by
  simp only [C10, statL]; after_results_simp <;> rfl

theorem C11_v187 : after C11 V (Proc.devRef .tc main_v187) = Cert.Spec.classify (V main_v173) (V main_arg16) (V main_arg17) := by
  simp only [C11, clsL, List.cons_append, List.nil_append]; after_results_simp <;> rfl
theorem C11_v191 : after C11 V (Proc.devRef .tc main_v191) = Cert.Spec.classify (V main_v183) (V main_arg16) (V main_arg17) := by
  simp only [C11, clsL, List.cons_append, List.nil_append]; after_results_simp <;> rfl

end Values

section Stages
variable (V : Valuation τ sig (Elt F))

def l1A :=
  Cert.Spec.eluRef (Cert.Spec.layer (Cert.Spec.drop (V main_arg0) (V main_arg2)) (Cert.Spec.norm (V main_arg4)) (Cert.Spec.norm (V main_arg5))
    (V main_arg8) (V main_arg9) (V main_arg4) (V main_arg5))
def l2A :=
  Cert.Spec.eluRef (Cert.Spec.layer (l1A V) (Cert.Spec.norm (V main_arg4)) (Cert.Spec.norm (V main_arg5))
    (V main_arg10) (V main_arg11) (V main_arg4) (V main_arg5))
def embA :=
  Cert.Spec.embed (V main_arg0) (V main_arg2) (V main_arg4) (V main_arg5) (V main_arg8) (V main_arg9) (V main_arg10) (V main_arg11)
    (V main_arg12) (V main_arg13) (V main_arg14) (V main_arg15)
def l1B :=
  Cert.Spec.eluRef (Cert.Spec.layer (Cert.Spec.drop (V main_arg1) (V main_arg3)) (Cert.Spec.norm (V main_arg6)) (Cert.Spec.norm (V main_arg7))
    (V main_arg8) (V main_arg9) (V main_arg6) (V main_arg7))
def l2B :=
  Cert.Spec.eluRef (Cert.Spec.layer (l1B V) (Cert.Spec.norm (V main_arg6)) (Cert.Spec.norm (V main_arg7))
    (V main_arg10) (V main_arg11) (V main_arg6) (V main_arg7))
def embB :=
  Cert.Spec.embed (V main_arg1) (V main_arg3) (V main_arg6) (V main_arg7) (V main_arg8) (V main_arg9) (V main_arg10) (V main_arg11)
    (V main_arg12) (V main_arg13) (V main_arg14) (V main_arg15)

def C : Nat → List (HloOp τ sig (Elt F))
  | 0 => C0 | 1 => C1 | 2 => C2 | 3 => C3 | 4 => C4 | 5 => C5 | 6 => C6 | 7 => C7 | 8 => C8 | 9 => C9 | 10 => C10 | 11 => C11 | _ => []

-- list `k` and every later one write only references of index at least `lo k`
def lo : Nat → Nat
  | 0 => 18 | 1 => 34 | 2 => 54 | 3 => 90 | 4 => 126 | 5 => 166 | 6 => 186 | 7 => 222 | 8 => 258 | 9 => 298 | 10 => 333 | 11 => 368 | _ => 376

theorem C_in : ∀ k, In (lo k) (C (F := F) k)
  | 0 => by in_line | 1 => by in_line | 2 => by in_line | 3 => by in_line | 4 => by in_line | 5 => by in_line | 6 => by in_line
  | 7 => by in_line | 8 => by in_line | 9 => by in_line | 10 => by in_line | 11 => by in_line | _ + 12 => In.nil

theorem lo_ge (k : Nat) : 18 ≤ lo k := by unfold lo; split <;> decide

-- the contents after the first `k` lists
def X : Nat → Valuation τ sig (Elt F)
  | 0 => V
  | k + 1 => after (C k) (X k)

-- a reference below what the lists `j` … `k - 1` write holds after `k` lists what it held after `j`
abbrev Rd (r : Ref sig .tc) (j k : Nat) : Prop := j ≤ k ∧ ∀ i, i < k → j ≤ i → r.idx.1 < lo i

theorem hold (r : Ref sig .tc) (j : Nat) : ∀ k, j ≤ k → (∀ i, i < k → j ≤ i → r.idx.1 < lo i) → X V k (Proc.devRef .tc r) = X V j (Proc.devRef .tc r)
  | 0, hj, _ => by cases Nat.le_zero.mp hj; rfl
  | k + 1, hj, h => by
    rcases Nat.eq_or_lt_of_le hj with rfl | hlt
    · rfl
    · exact (keep (C_in k) r (h k k.lt_succ_self (Nat.le_of_lt_succ hlt))).trans
        (hold r j k (Nat.le_of_lt_succ hlt) fun i hi => h i (Nat.lt_succ_of_lt hi))

theorem rd (r : Ref sig .tc) (j k : Nat) (h : Rd r j k := by decide) : X V k (Proc.devRef .tc r) = X V j (Proc.devRef .tc r) := hold V r j k h.1 h.2

theorem arg (r : Ref sig .tc) (k : Nat) (h : r ∈ argsL := by decide) : X V k (Proc.devRef .tc r) = V (Proc.devRef .tc r) :=
  hold V r 0 k k.zero_le fun i _ _ => lt_of_lt_of_le (argsL_lt r h) (lo_ge i)

theorem v5 (k : Nat) (h : Rd main_v5 1 k := by decide) : X V k main_v5 = Cert.Spec.drop (V main_arg0) (V main_arg2) := (rd V _ 1 k h).trans (C0_v5 V)
theorem v11 (k : Nat) (h : Rd main_v11 1 k := by decide) : X V k main_v11 = Cert.Spec.drop (V main_arg1) (V main_arg3) := (rd V _ 1 k h).trans (C0_v11 V)
theorem v22 (k : Nat) (h : Rd main_v22 2 k := by decide) : X V k main_v22 = Cert.Spec.norm (V main_arg4) :=
  (rd V _ 2 k h).trans ((C1_v22 _).trans (by rw [arg V main_arg4 1]))
theorem v26 (k : Nat) (h : Rd main_v26 2 k := by decide) : X V k main_v26 = Cert.Spec.norm (V main_arg5) :=
  (rd V _ 2 k h).trans ((C1_v26 _).trans (by rw [arg V main_arg5 1]))
theorem v45 : X V 3 main_v45 = l1A V :=
  (C2_v45 _).trans (by rw [v5 V 2, v22 V 2, v26 V 2, arg V main_arg8 2, arg V main_arg9 2, arg V main_arg4 2, arg V main_arg5 2]; rfl)
theorem v64 : X V 4 main_v64 = l2A V :=
  (C3_v64 _).trans (by rw [v45, v22 V 3, v26 V 3, arg V main_arg10 3, arg V main_arg11 3, arg V main_arg4 3, arg V main_arg5 3]; rfl)
theorem v87 (k : Nat) (h : Rd main_v87 5 k := by decide) : X V k main_v87 = embA V :=
  (rd V _ 5 k h).trans ((C4_v87 _).trans (by
    rw [v64, v22 V 4, v26 V 4, arg V main_arg12 4, arg V main_arg13 4, arg V main_arg4 4, arg V main_arg5 4, arg V main_arg14 4, arg V main_arg15 4]; rfl))
theorem v98 (k : Nat) (h : Rd main_v98 6 k := by decide) : X V k main_v98 = Cert.Spec.norm (V main_arg6) :=
  (rd V _ 6 k h).trans ((C5_v98 _).trans (by rw [arg V main_arg6 5]))
theorem v102 (k : Nat) (h : Rd main_v102 6 k := by decide) : X V k main_v102 = Cert.Spec.norm (V main_arg7) :=
  (rd V _ 6 k h).trans ((C5_v102 _).trans (by rw [arg V main_arg7 5]))
theorem v121 : X V 7 main_v121 = l1B V :=
  (C6_v121 _).trans (by rw [v11 V 6, v98 V 6, v102 V 6, arg V main_arg8 6, arg V main_arg9 6, arg V main_arg6 6, arg V main_arg7 6]; rfl)
theorem v140 : X V 8 main_v140 = l2B V :=
  (C7_v140 _).trans (by rw [v121, v98 V 7, v102 V 7, arg V main_arg10 7, arg V main_arg11 7, arg V main_arg6 7, arg V main_arg7 7]; rfl)
theorem v163 (k : Nat) (h : Rd main_v163 9 k := by decide) : X V k main_v163 = embB V :=
  (rd V _ 9 k h).trans ((C8_v163 _).trans (by
    rw [v140, v98 V 8, v102 V 8, arg V main_arg12 8, arg V main_arg13 8, arg V main_arg6 8, arg V main_arg7 8, arg V main_arg14 8, arg V main_arg15 8]; rfl))
theorem v173 (k : Nat) (h : Rd main_v173 10 k := by decide) : X V k main_v173 = Cert.Spec.refNorm (embA V) :=
  (rd V _ 10 k h).trans ((C9_v173 _).trans (by rw [v87 V 9]))
theorem v183 (k : Nat) (h : Rd main_v183 11 k := by decide) : X V k main_v183 = Cert.Spec.refNorm (embB V) :=
  (rd V _ 11 k h).trans ((C10_v183 _).trans (by rw [v163 V 10]))
theorem v187 : X V 12 main_v187 = Cert.Spec.classify (Cert.Spec.refNorm (embA V)) (V main_arg16) (V main_arg17) :=
  (C11_v187 _).trans (by rw [v173 V 11, arg V main_arg16 11, arg V main_arg17 11])
theorem v191 : X V 12 main_v191 = Cert.Spec.classify (Cert.Spec.refNorm (embB V)) (V main_arg16) (V main_arg17) :=
  (C11_v191 _).trans (by rw [v183 V 11, arg V main_arg16 11, arg V main_arg17 11])

end Stages

def ops : List (HloOp τ sig (Elt F)) := C0 ++ (C1 ++ (C2 ++ (C3 ++ (C4 ++ (C5 ++ (C6 ++ (C7 ++ (C8 ++ (C9 ++ (C10 ++ C11))))))))))

theorem after_ops (V : Valuation τ sig (Elt F)) : after ops V = X V 12 := by
  simp only [ops, X, C, after_app]

theorem main_eq (c : Dev nD) : main (F := F) c = seq ops := rfl

theorem ops_in : In 18 (ops (F := F)) :=
  (C_in 0).app ((C_in 1).app ((C_in 2).app ((C_in 3).app ((C_in 4).app ((C_in 5).app ((C_in 6).app ((C_in 7).app ((C_in 8).app ((C_in 9).app
    ((C_in 10).app (C_in 11)))))))))))

def Ea (m : (ℓ : Loc nD τ sig) → Buf (Elt F) ℓ) (c : Dev nD) : FVec F Cert.Spec.S50000x128 .f32 :=
  Cert.Spec.embed (m ((c.tc : Thread nD τ).loc main_arg0)) (m ((c.tc : Thread nD τ).loc main_arg2)) (m ((c.tc : Thread nD τ).loc main_arg4)) (m ((c.tc : Thread nD τ).loc main_arg5))
    (m ((c.tc : Thread nD τ).loc main_arg8)) (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13)) (m ((c.tc : Thread nD τ).loc main_arg14)) (m ((c.tc : Thread nD τ).loc main_arg15))
def Eb (m : (ℓ : Loc nD τ sig) → Buf (Elt F) ℓ) (c : Dev nD) : FVec F Cert.Spec.S50000x128 .f32 :=
  Cert.Spec.embed (m ((c.tc : Thread nD τ).loc main_arg1)) (m ((c.tc : Thread nD τ).loc main_arg3)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13)) (m ((c.tc : Thread nD τ).loc main_arg14)) (m ((c.tc : Thread nD τ).loc main_arg15))

theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v173) = Cert.Spec.refNorm (Ea m c)
      ∧ r.2.mem ((c.tc : Thread nD τ).loc main_v183) = Cert.Spec.refNorm (Eb m c)
      ∧ r.2.mem ((c.tc : Thread nD τ).loc main_v187) = Cert.Spec.classify (Cert.Spec.refNorm (Ea m c)) (m ((c.tc : Thread nD τ).loc main_arg16)) (m ((c.tc : Thread nD τ).loc main_arg17))
      ∧ r.2.mem ((c.tc : Thread nD τ).loc main_v191) = Cert.Spec.classify (Cert.Spec.refNorm (Eb m c)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => by
    simp only [after_ops] at h
    exact ⟨(h c main_v173).trans (v173 _ 12), (h c main_v183).trans (v183 _ 12), (h c main_v187).trans (v187 _), (h c main_v191).trans (v191 _),
      (List.forall_iff_forall_mem.mpr fun r hr => (h c r).trans (arg _ r 12 hr) : argsL.Forall fun r => _)⟩)
    (run_seq (by decide) (by decide) defs main (fun _ => ops) main_eq (fun _ => List.forall_iff_forall_mem.mpr fun op h => (ops_in op h).1) m ρ
      fun _ op h => (ops_in op h).2.1)

end Cert.RefRun

end
-- ==== Proof.Basic.lean ====
import Idealize.ShloMosaic.PureOps.Ideal

noncomputable section

namespace Cert.Basic

open Idealize.ShloMosaic

def IsReal (x : EReal) : Prop := ∃ r : ℝ, x = (r : EReal)

-- The float patterns of 1, 50000 and 49999 denote those reals.
theorem lit_one : Ideal.ofBits .f32 0x3F800000#32 = 1 := by
  simp [Ideal.ofBits, Ideal.ieee, -EReal.coe_mul]; norm_num
theorem lit_50000 : Ideal.ofBits .f32 0x47435000#32 = ((50000 : ℝ) : EReal) := by
  simp [Ideal.ofBits, Ideal.ieee, -EReal.coe_mul]; norm_num
theorem lit_49999 : Ideal.ofBits .f32 0x47434F00#32 = ((49999 : ℝ) : EReal) := by
  simp [Ideal.ofBits, Ideal.ieee, -EReal.coe_mul]; norm_num

end Cert.Basic

end
-- ==== Proof.Alg.lean ====
import Idealize.ShloMosaic.PureOps.Ideal.Laws
import Idealize.ShloMosaic.Lib.ValueIdx
import Mathlib.Tactic.Ring
import Mathlib.Tactic.NormNum
import Mathlib.Tactic.Push
import Mathlib.Analysis.Real.Sqrt
import Mathlib.Data.EReal.Inv
import Mathlib.Algebra.BigOperators.Ring.Finset
import proofs.«107092_j29411936043366_1_alg».proof.Proof.Spec
import proofs.«107092_j29411936043366_1_alg».proof.Proof.Basic
import proofs.«107092_j29411936043366_1_alg».proof.Proof.LibLayout

noncomputable section

namespace Cert.Alg

open Idealize.ShloMosaic Idealize.ShloMosaic.ValueIdx Cert.Spec Cert.Basic
open scoped BigOperators

theorem sitofp_one : FloatOps.sitofp (F := Ideal) .f32 (1#32 : BitVec 32) = 1 := by
  have h : (1#32 : BitVec 32).toInt = 1 := by decide
  show (((1#32 : BitVec 32).toInt : ℝ) : EReal) = 1
  rw [h]; simp

theorem coe_sum {ι : Type*} (s : Finset ι) (f : ι → ℝ) :
    ((∑ i ∈ s, f i : ℝ) : EReal) = ∑ i ∈ s, ((f i : ℝ) : EReal) := by
  classical
  refine Finset.induction_on s (by simp) fun a s ha ih => ?_
  rw [Finset.sum_insert ha, Finset.sum_insert ha, EReal.coe_add, ih]

theorem div_real (x : ℝ) {y : ℝ} (hy : y ≠ 0) : Ideal.div (x : EReal) (y : EReal) = ((x / y : ℝ) : EReal) := by
  rw [Ideal.div_coe hy, ← EReal.coe_mul, mul_one_div]

theorem pos_of_sqrt_pos {v : ℝ} (h : (0 : EReal) < Ideal.sqrt (v : EReal)) : 0 < v := by
  rw [Ideal.sqrt_coe] at h
  split_ifs at h with hv
  · exact absurd h (not_lt.mpr bot_le)
  · exact Real.sqrt_pos.mp (by exact_mod_cast h)

theorem sqrt_real {v : ℝ} (hv : 0 < v) : Ideal.sqrt (v : EReal) = ((Real.sqrt v : ℝ) : EReal) := by
  rw [Ideal.sqrt_coe, if_neg (not_lt.mpr hv.le)]

theorem rsqrt_real {v : ℝ} (hv : 0 < v) : Ideal.rsqrt (v : EReal) = (((Real.sqrt v)⁻¹ : ℝ) : EReal) := by
  rw [Ideal.rsqrt_coe, if_neg (not_lt.mpr hv.le), if_neg hv.ne']

theorem mul_rsqrt_eq_div_sqrt (x : EReal) {v : ℝ} (hv : 0 < v) :
    x * Ideal.rsqrt (v : EReal) = Ideal.div x (Ideal.sqrt (v : EReal)) := by
  rw [rsqrt_real hv, sqrt_real hv, Ideal.div_coe (Real.sqrt_pos.mpr hv).ne', one_div]

-- Σ (f - μ)² = Σ f² - N μ², with μ = (Σ f) / N and N = 50000.
theorem sum_sq_dev (f : Fin 50000 → ℝ) :
    ∑ r, (f r - (∑ r, f r) / 50000) * (f r - (∑ r, f r) / 50000)
      = (∑ r, f r * f r) - 50000 * ((∑ r, f r) / 50000) * ((∑ r, f r) / 50000) := by
  generalize hs : ∑ r, f r = s
  have h1 : ∀ r, (f r - s / 50000) * (f r - s / 50000)
      = f r * f r - (2 * (s / 50000)) * f r + (s / 50000) * (s / 50000) := fun r => by ring
  simp only [h1]
  rw [Finset.sum_add_distrib, Finset.sum_sub_distrib, ← Finset.mul_sum, hs, Finset.sum_const, Finset.card_univ,
    Fintype.card_fin, nsmul_eq_mul]
  push_cast
  ring

theorem row128_apply (v : FVec Ideal S128 .f32) (u : Fin 1) (c : Fin 128) : row128 v (ix2 u c) = v (ix1 c) :=
  Cert.LibLayout.broadcastInDim_b_1b_apply v b_128_1x128 u c
theorem rows1x128_apply (v : FVec Ideal S1x128 .f32) (r : Fin 50000) (c : Fin 128) :
    rows1x128 v (ix2 r c) = v (ix2 (0 : Fin 1) c) :=
  Cert.LibLayout.broadcastInDim_1b_ab_apply v b_1x128_N128 r c
theorem rows128_apply (v : FVec Ideal S128 .f32) (r : Fin 50000) (c : Fin 128) : rows128 v (ix2 r c) = v (ix1 c) :=
  (Cert.LibLayout.broadcastInDim_1b_ab_apply _ b_1x128_N128 r c).trans
    (Cert.LibLayout.broadcastInDim_b_1b_apply v b_128_1x128 0 c)
theorem fill_apply (t : Shape) (h : S_.BroadcastsInDim t (![] : Fin 0 → Fin t.rank)) (b : BitVec 32) (j : t.Idx) :
    fill (F := Ideal) t h b j = Ideal.ofBits .f32 b :=
  Cert.LibLayout.broadcastInDim_scalar_apply _ h j

theorem red_N128_128' : S50000x128.Reduces [0] S128 := by decide

theorem colSum_apply (E : FVec Ideal S50000x128 .f32) (c : Fin 128) :
    colSum E (ix1 c) = ∑ r : Fin 50000, E (ix2 r c) := by
  have key : ∀ k : Fin 50000, red_N128_128'.lift (ix1 c) k = ix2 k c := fun k => by
    funext a; apply Fin.ext
    match a with
    | ⟨0, _⟩ => rfl
    | ⟨1, _⟩ => rfl
  unfold colSum Host.reduceAdd
  rw [Ideal.hostReduceAdd_def, Ideal.hostReduceAdd_single red_N128_128 red_N128_128', constant_apply, Ideal.ofBits_zero_f32, zero_add]
  exact Finset.sum_congr rfl fun k _ => congrArg E (key k)

theorem colSum_real (E : FVec Ideal S50000x128 .f32) (c : Fin 128) (f : Fin 50000 → ℝ)
    (hf : ∀ r, E (ix2 r c) = ((f r : ℝ) : EReal)) : colSum E (ix1 c) = ((∑ r, f r : ℝ) : EReal) := by
  rw [colSum_apply, coe_sum]; exact Finset.sum_congr rfl fun r _ => hf r

theorem colSum_isReal (E : FVec Ideal S50000x128 .f32) (hE : ∀ i, IsReal (E i)) (j : S128.Idx) : IsReal (colSum E j) := by
  obtain ⟨c, rfl⟩ : ∃ c : Fin 128, j = ix1 c := ⟨j 0, eq_ix1 j⟩
  choose e he using hE
  exact ⟨_, colSum_real E c (fun r => e (ix2 r c)) fun r => he _⟩

theorem kMean_val (S : FVec Ideal S128 .f32) (c : Fin 128) (s : ℝ) (hS : S (ix1 c) = ((s : ℝ) : EReal)) :
    kMean (row128 S) (ix2 (0 : Fin 1) c) = ((s / 50000 : ℝ) : EReal) := by
  show Ideal.div (row128 S (ix2 (0 : Fin 1) c)) (fill (F := Ideal) S1x128 b_S_1x128 0x47435000#32 (ix2 (0 : Fin 1) c)) = _
  rw [row128_apply, fill_apply, lit_50000, hS, div_real _ (by norm_num)]

theorem kInv_val (S Q : FVec Ideal S128 .f32) (c : Fin 128) (s q : ℝ) (hS : S (ix1 c) = ((s : ℝ) : EReal))
    (hQ : Q (ix1 c) = ((q : ℝ) : EReal)) :
    kInv (row128 S) (row128 Q) (ix2 (0 : Fin 1) c)
      = Ideal.rsqrt (((q - 50000 * (s / 50000) * (s / 50000)) / 49999 : ℝ) : EReal) := by
  show Ideal.rsqrt (Ideal.div
      (row128 Q (ix2 (0 : Fin 1) c)
        - fill (F := Ideal) S1x128 b_S_1x128 0x47435000#32 (ix2 (0 : Fin 1) c) * kMean (row128 S) (ix2 (0 : Fin 1) c)
          * kMean (row128 S) (ix2 (0 : Fin 1) c))
      (fill (F := Ideal) S1x128 b_S_1x128 0x47434F00#32 (ix2 (0 : Fin 1) c))) = _
  rw [kMean_val S c s hS, fill_apply, fill_apply, lit_50000, lit_49999, row128_apply, hQ, ← EReal.coe_mul, ← EReal.coe_mul,
    ← EReal.coe_sub, div_real _ (by norm_num)]

theorem refMean_val (E : FVec Ideal S50000x128 .f32) (c : Fin 128) (s : ℝ) (hS : colSum E (ix1 c) = ((s : ℝ) : EReal)) :
    refMean E (ix1 c) = ((s / 50000 : ℝ) : EReal) := by
  show Ideal.div (colSum E (ix1 c)) (fill (F := Ideal) S128 b_S_128 0x47435000#32 (ix1 c)) = _
  rw [fill_apply, lit_50000, hS, div_real _ (by norm_num)]

theorem cnt_val :
    subf (constant (F := Ideal) S_ .f32 0x47435000#32) (sitofp .f32 (constantI S_ 32 1#32)) ix0 = ((49999 : ℝ) : EReal) := by
  show Ideal.ofBits .f32 0x47435000#32 - FloatOps.sitofp (F := Ideal) .f32 (1#32 : BitVec 32) = _
  rw [lit_50000, sitofp_one, ← EReal.coe_one, ← EReal.coe_sub]; norm_num

theorem refVar_apply (E : FVec Ideal S50000x128 .f32) (c : Fin 128) :
    refVar E (ix1 c)
      = Ideal.div (colSum (mulf (subf E (rows1x128 (kMean (row128 (colSum E)))))
          (subf E (rows1x128 (kMean (row128 (colSum E)))))) (ix1 c)) ((49999 : ℝ) : EReal) := by
  show Scalar.select (FloatOps.cmpf .ogt
        (subf (constant (F := Ideal) S_ .f32 0x47435000#32) (sitofp .f32 (constantI S_ 32 1#32)) ix0)
        (constant (F := Ideal) S_ .f32 0x00000000#32 ix0))
      (Ideal.div (colSum (mulf (subf E (rows1x128 (kMean (row128 (colSum E)))))
          (subf E (rows1x128 (kMean (row128 (colSum E)))))) (ix1 c))
        (subf (constant (F := Ideal) S_ .f32 0x47435000#32) (sitofp .f32 (constantI S_ 32 1#32)) ix0))
      (constant (F := Ideal) S_ .f32 0x7FC00000#32 ix0) = _
  rw [cnt_val, constant_apply, Ideal.ofBits_zero_f32]
  have hc : FloatOps.cmpf (F := Ideal) (φ := .f32) .ogt ((49999 : ℝ) : EReal) 0 = 1#1 := by
    show BitVec.ofBool (decide ((0 : EReal) < ((49999 : ℝ) : EReal))) = 1#1
    rw [decide_eq_true (by exact_mod_cast (by norm_num : (0 : ℝ) < 49999))]; rfl
  rw [hc, select_one]

-- Column by column the two variances are one positive real v, and multiplying by 1/√v is dividing by √v.
theorem kNorm_eq_refNorm (E : FVec Ideal S50000x128 .f32) (hE : ∀ i, IsReal (E i))
    (hs : ∀ j, (0 : EReal) < refStd (F := Ideal) E j) :
    kNorm E (kMean (row128 (colSum E))) (kInv (row128 (colSum E)) (row128 (colSum (mulf E E)))) = refNorm E := by
  choose e he using hE
  funext i
  obtain ⟨r, c, rfl⟩ : ∃ (r : Fin 50000) (c : Fin 128), i = ix2 r c := ⟨i 0, i 1, eq_ix2 i⟩

  have hS : colSum E (ix1 c) = ((∑ r, e (ix2 r c) : ℝ) : EReal) := colSum_real E c (fun r => e (ix2 r c)) fun r => he _
  have hQ : colSum (mulf E E) (ix1 c) = ((∑ r, e (ix2 r c) * e (ix2 r c) : ℝ) : EReal) :=
    colSum_real (mulf E E) c (fun r => e (ix2 r c) * e (ix2 r c)) fun r => by rw [mulf_apply, he, EReal.coe_mul]
  generalize hsd : (∑ r, e (ix2 r c) : ℝ) = s at hS
  generalize hqd : (∑ r, e (ix2 r c) * e (ix2 r c) : ℝ) = q at hQ
  have hmean := kMean_val (colSum E) c s hS
  have hinv := kInv_val (colSum E) (colSum (mulf E E)) c s q hS hQ

  have hvar : refVar E (ix1 c) = (((q - 50000 * (s / 50000) * (s / 50000)) / 49999 : ℝ) : EReal) := by
    rw [refVar_apply, colSum_real _ c (fun r => (e (ix2 r c) - s / 50000) * (e (ix2 r c) - s / 50000)) fun r => by
      rw [mulf_apply, subf_apply, rows1x128_apply, hmean, he, ← EReal.coe_sub, ← EReal.coe_mul],
      div_real _ (by norm_num)]
    have := sum_sq_dev fun r => e (ix2 r c)
    rw [hsd, hqd] at this
    rw [this]
  have hpos : 0 < (q - 50000 * (s / 50000) * (s / 50000)) / 49999 := pos_of_sqrt_pos (by
    have h := hs (ix1 c)
    have h' : refStd (F := Ideal) E (ix1 c) = Ideal.sqrt (refVar E (ix1 c)) := rfl
    rwa [h', hvar] at h)
  show (E (ix2 r c) - rows1x128 (kMean (row128 (colSum E))) (ix2 r c))
      * rows1x128 (kInv (row128 (colSum E)) (row128 (colSum (mulf E E)))) (ix2 r c)
    = Ideal.div (E (ix2 r c) - rows128 (refMean E) (ix2 r c)) (rows128 (refStd E) (ix2 r c))
  rw [rows1x128_apply, rows1x128_apply, hmean, hinv, rows128_apply, rows128_apply, refMean_val E c s hS]
  have h' : refStd (F := Ideal) E (ix1 c) = Ideal.sqrt (refVar E (ix1 c)) := rfl
  rw [h', hvar, mul_rsqrt_eq_div_sqrt _ hpos]

theorem classify2_row2 (Z : FVec Ideal S50000x128 .f32) (Wc : FVec Ideal S128x2 .f32) (bc : FVec Ideal S2 .f32) :
    classify2 Z Wc (row2 bc) = classify Z Wc bc := rfl

end Cert.Alg

end
-- ==== Proof.Fin.lean ====
import proofs.«107092_j29411936043366_1_alg».proof.Proof.Spec
import proofs.«107092_j29411936043366_1_alg».proof.Proof.Basic
import proofs.«107092_j29411936043366_1_alg».proof.Proof.LibLayout

noncomputable section

namespace Cert.Fin

open Idealize.ShloMosaic Cert.Spec Cert.Basic

theorem isReal_coe (r : ℝ) : IsReal (r : EReal) := ⟨r, rfl⟩

theorem isReal_zero : IsReal 0 := ⟨0, EReal.coe_zero.symm⟩

theorem isReal_one : IsReal 1 := ⟨1, EReal.coe_one.symm⟩

theorem isReal_add {x y : EReal} (hx : IsReal x) (hy : IsReal y) : IsReal (x + y) := by
  obtain ⟨a, rfl⟩ := hx
  obtain ⟨b, rfl⟩ := hy
  exact ⟨a + b, (EReal.coe_add a b).symm⟩

theorem isReal_sub {x y : EReal} (hx : IsReal x) (hy : IsReal y) : IsReal (x - y) := by
  obtain ⟨a, rfl⟩ := hx
  obtain ⟨b, rfl⟩ := hy
  exact ⟨a - b, (EReal.coe_sub a b).symm⟩

theorem isReal_mul {x y : EReal} (hx : IsReal x) (hy : IsReal y) : IsReal (x * y) := by
  obtain ⟨a, rfl⟩ := hx
  obtain ⟨b, rfl⟩ := hy
  exact ⟨a * b, (EReal.coe_mul a b).symm⟩

theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

theorem isReal_max {x y : EReal} (hx : IsReal x) (hy : IsReal y) : IsReal (max x y) := by
  obtain ⟨a, rfl⟩ := hx
  obtain ⟨b, rfl⟩ := hy
  exact ⟨max a b, coe_max a b⟩

theorem isReal_sum {ι : Type} (s : Finset ι) (f : ι → EReal) (h : ∀ i ∈ s, IsReal (f i)) : IsReal (∑ i ∈ s, f i) :=
  Finset.sum_induction f IsReal (fun _ _ => isReal_add) isReal_zero h

theorem ieee_real (e m : Nat) {w : Nat} (b : BitVec w) (h : (b.extractLsb' m e).toNat ≠ 2 ^ e - 1) :
    IsReal (Ideal.ieee e m b) := by
  unfold Ideal.ieee
  simp only [if_neg h]
  split <;> exact ⟨_, rfl⟩

section Vec
variable {s : Shape} {φ : FTy}

theorem constant_real (t : Shape) (b : BitVec 32) (h : (b.extractLsb' 23 8).toNat ≠ 2 ^ 8 - 1) :
    ∀ i, IsReal (constant (F := Ideal) t .f32 b i) :=
  fun _ => ieee_real 8 23 b h

theorem addf_real (x y : FVec Ideal s φ) (hx : ∀ i, IsReal (x i)) (hy : ∀ i, IsReal (y i)) :
    ∀ i, IsReal (addf x y i) :=
  fun i => isReal_add (hx i) (hy i)

theorem subf_real (x y : FVec Ideal s φ) (hx : ∀ i, IsReal (x i)) (hy : ∀ i, IsReal (y i)) :
    ∀ i, IsReal (subf x y i) :=
  fun i => isReal_sub (hx i) (hy i)

theorem mulf_real (x y : FVec Ideal s φ) (hx : ∀ i, IsReal (x i)) (hy : ∀ i, IsReal (y i)) :
    ∀ i, IsReal (mulf x y i) :=
  fun i => isReal_mul (hx i) (hy i)

theorem maximumf_real (x y : FVec Ideal s φ) (hx : ∀ i, IsReal (x i)) (hy : ∀ i, IsReal (y i)) :
    ∀ i, IsReal (maximumf x y i) :=
  fun i => isReal_max (hx i) (hy i)

theorem maximumf_pos (x y : FVec Ideal s φ) (hx : ∀ i, IsReal (x i)) (hy : ∀ i, ∃ r : ℝ, 0 < r ∧ y i = (r : EReal)) :
    ∀ i, ∃ r : ℝ, 0 < r ∧ maximumf x y i = (r : EReal) := by
  intro i
  obtain ⟨a, ha⟩ := hx i
  obtain ⟨b, hb, he⟩ := hy i
  refine ⟨max a b, lt_max_of_lt_right hb, ?_⟩
  show max (x i) (y i) = _
  rw [ha, he, coe_max]

theorem uitofp_real {w : Nat} (ψ : FTy) (x : IVec s w) : ∀ i, IsReal (uitofp (F := Ideal) ψ x i) :=
  fun i => ⟨((x i).toNat : ℝ), rfl⟩

theorem select_real (c : IVec s 1) (a b : FVec Ideal s φ) (ha : ∀ i, IsReal (a i)) (hb : ∀ i, IsReal (b i)) :
    ∀ i, IsReal (select c a b i) := by
  intro i
  show IsReal (if c i = 1 then a i else b i)
  split
  · exact ha i
  · exact hb i

theorem rsqrt_real (x : FVec Ideal s φ) (hx : ∀ i, ∃ r : ℝ, 0 < r ∧ x i = (r : EReal)) :
    ∀ i, IsReal (Host.rsqrt x i) := by
  intro i
  obtain ⟨r, hr, he⟩ := hx i
  show IsReal (Ideal.rsqrt (x i))
  rw [he, Ideal.rsqrt_coe, if_neg (not_lt.mpr hr.le), if_neg hr.ne']
  exact ⟨_, rfl⟩

theorem expm1_real (x : FVec Ideal s φ) (hx : ∀ i, IsReal (x i)) : ∀ i, IsReal (Host.expm1 x i) := by
  intro i
  obtain ⟨r, he⟩ := hx i
  show IsReal (Ideal.exp (x i) - 1)
  rw [he, Ideal.exp_coe]
  exact isReal_sub ⟨_, rfl⟩ isReal_one

end Vec

theorem broadcastInDim_real {s t : Shape} {φ : FTy} (dims : Fin s.rank → Fin t.rank) (h : s.BroadcastsInDim t dims)
    (x : FVec Ideal s φ) (hx : ∀ i, IsReal (x i)) : ∀ j, IsReal (broadcastInDim t dims h x j) :=
  fun _ => hx _

theorem gather_real {s si t : Shape} {φ : FTy} {w : Nat} (d : GatherDims s si t) (x : FVec Ideal s φ) (idx : IVec si w)
    (hx : ∀ i, IsReal (x i)) : ∀ j, IsReal (Host.gather d x idx j) :=
  fun _ => hx _

theorem scatterAdd_real {s si u : Shape} {φ : FTy} {w : Nat} (d : ScatterDims s si u) (x : FVec Ideal s φ) (idx : IVec si w)
    (upd : FVec Ideal u φ) (hx : ∀ i, IsReal (x i)) (hu : ∀ j, IsReal (upd j)) :
    ∀ i, IsReal (Host.scatterAdd d x idx upd i) := by
  intro i
  show IsReal (Ideal.hostScatterAdd d x idx upd i)
  unfold Ideal.hostScatterAdd
  exact isReal_add (hx i) (isReal_sum _ _ fun j _ => hu j)

theorem dotGeneral_real {sl sr so : Shape} {φ₁ φ₂ : FTy} (d : DotDims sl sr so) (prec : Option ContractPrecision)
    (lhs : FVec Ideal sl φ₁) (rhs : FVec Ideal sr φ₂) (hl : ∀ i, IsReal (lhs i)) (hr : ∀ i, IsReal (rhs i)) :
    ∀ j, IsReal (Host.dotGeneral d prec lhs rhs j) := by
  intro j
  show IsReal (FloatOps.dotGeneral d prec .single lhs rhs j)
  rw [Ideal.dotGeneral_apply]
  exact isReal_sum _ _ fun k _ => isReal_mul (hl _) (hr _)

theorem fill_real (t : Shape) (h : S_.BroadcastsInDim t (![] : Fin 0 → Fin t.rank)) (b : BitVec 32)
    (hb : (b.extractLsb' 23 8).toNat ≠ 2 ^ 8 - 1) : ∀ i, IsReal (fill (F := Ideal) t h b i) :=
  broadcastInDim_real _ _ _ (constant_real S_ b hb)

theorem fill_one_pos (t : Shape) (h : S_.BroadcastsInDim t (![] : Fin 0 → Fin t.rank)) :
    ∀ i, ∃ r : ℝ, 0 < r ∧ fill (F := Ideal) t h 0x3F800000#32 i = (r : EReal) :=
  fun _ => ⟨1, one_pos, lit_one.trans EReal.coe_one.symm⟩

theorem rows128_real (v : FVec Ideal S128 .f32) (hv : ∀ i, IsReal (v i)) : ∀ i, IsReal (rows128 v i) :=
  broadcastInDim_real _ _ _ (broadcastInDim_real _ _ _ hv)

theorem cols_real (v : FVec Ideal S50000x1 .f32) (hv : ∀ i, IsReal (v i)) : ∀ i, IsReal (cols v i) :=
  broadcastInDim_real _ _ _ hv

theorem drop_real (X M : FVec Ideal S50000x128 .f32) (hX : ∀ i, IsReal (X i)) : ∀ i, IsReal (drop X M i) :=
  mulf_real _ _ (mulf_real _ _ hX (uitofp_real _ _)) (fill_real _ _ _ (by decide))

theorem deg_real (idx : IVec S600000 32) : ∀ i, IsReal (deg (F := Ideal) idx i) :=
  scatterAdd_real _ _ _ _ (fill_real _ _ _ (by decide)) (fill_real _ _ _ (by decide))

theorem norm_real (idx : IVec S600000 32) : ∀ i, IsReal (norm (F := Ideal) idx i) :=
  broadcastInDim_real _ _ _ (rsqrt_real _ (maximumf_pos _ _ (deg_real idx) (fill_one_pos _ _)))

theorem hidden_real (x : FVec Ideal S50000x128 .f32) (ns : FVec Ideal S50000x1 .f32) (W : FVec Ideal S128x128 .f32)
    (hx : ∀ i, IsReal (x i)) (hns : ∀ i, IsReal (ns i)) (hW : ∀ i, IsReal (W i)) : ∀ i, IsReal (hidden x ns W i) :=
  dotGeneral_real _ _ _ _ (mulf_real _ _ hx (cols_real ns hns)) hW

theorem aggregate_real (h : FVec Ideal S50000x128 .f32) (src dst : IVec S600000 32) (hh : ∀ i, IsReal (h i)) :
    ∀ i, IsReal (aggregate h src dst i) :=
  scatterAdd_real _ _ _ _ (fill_real _ _ _ (by decide)) (gather_real _ _ _ hh)

theorem affine_real (a : FVec Ideal S50000x128 .f32) (nd : FVec Ideal S50000x1 .f32) (b : FVec Ideal S128 .f32)
    (ha : ∀ i, IsReal (a i)) (hnd : ∀ i, IsReal (nd i)) (hb : ∀ i, IsReal (b i)) : ∀ i, IsReal (affine a nd b i) :=
  addf_real _ _ (mulf_real _ _ ha (cols_real nd hnd)) (rows128_real b hb)

theorem layer_real (x : FVec Ideal S50000x128 .f32) (ns nd : FVec Ideal S50000x1 .f32) (W : FVec Ideal S128x128 .f32)
    (b : FVec Ideal S128 .f32) (src dst : IVec S600000 32) (hx : ∀ i, IsReal (x i)) (hns : ∀ i, IsReal (ns i))
    (hnd : ∀ i, IsReal (nd i)) (hW : ∀ i, IsReal (W i)) (hb : ∀ i, IsReal (b i)) :
    ∀ i, IsReal (layer x ns nd W b src dst i) :=
  affine_real _ _ _ (aggregate_real _ _ _ (hidden_real _ _ _ hx hns hW)) hnd hb

theorem eluRef_real (x : FVec Ideal S50000x128 .f32) (hx : ∀ i, IsReal (x i)) : ∀ i, IsReal (eluRef x i) :=
  select_real _ _ _ hx
    (mulf_real _ _ (fill_real _ _ _ (by decide))
      (expm1_real _ (select_real _ _ _ (broadcastInDim_real _ _ _ (constant_real S_ _ (by decide))) hx)))

-- Every operation the embedding is made of sends real numbers to real numbers.
theorem embed_real (X M : FVec Ideal S50000x128 .f32) (src dst : IVec S600000 32) (W1 : FVec Ideal S128x128 .f32)
    (b1 : FVec Ideal S128 .f32) (W2 : FVec Ideal S128x128 .f32) (b2 : FVec Ideal S128 .f32)
    (W3 : FVec Ideal S128x128 .f32) (b3 : FVec Ideal S128 .f32) (Wl : FVec Ideal S128x128 .f32)
    (bl : FVec Ideal S128 .f32)
    (hX : ∀ i, IsReal (X i)) (hM : ∀ i, IsReal (M i)) (hW1 : ∀ i, IsReal (W1 i)) (hb1 : ∀ i, IsReal (b1 i))
    (hW2 : ∀ i, IsReal (W2 i)) (hb2 : ∀ i, IsReal (b2 i)) (hW3 : ∀ i, IsReal (W3 i)) (hb3 : ∀ i, IsReal (b3 i))
    (hWl : ∀ i, IsReal (Wl i)) (hbl : ∀ i, IsReal (bl i)) :
    ∀ i, IsReal (embed (F := Ideal) X M src dst W1 b1 W2 b2 W3 b3 Wl bl i) := by
  have hs := norm_real src
  have hd := norm_real dst
  have h1 := eluRef_real _ (layer_real _ _ _ _ _ src dst (drop_real X M hX) hs hd hW1 hb1)
  have h2 := eluRef_real _ (layer_real _ _ _ _ _ src dst h1 hs hd hW2 hb2)
  have h3 := eluRef_real _ (layer_real _ _ _ _ _ src dst h2 hs hd hW3 hb3)
  exact addf_real _ _ (dotGeneral_real _ _ _ _ h3 hWl) (rows128_real bl hbl)

end Cert.Fin

end
-- ==== Proof.PreDecode.lean ====
import Idealize.ShloMosaic.Lib.ReduceAll
import Idealize.ShloMosaic.Lib.ValueIdx
import Idealize.ShloMosaic.PureOps.Ideal.Laws
import proofs.«107092_j29411936043366_1_alg».proof.Proof.Spec
import proofs.«107092_j29411936043366_1_alg».proof.Proof.Basic
import proofs.«107092_j29411936043366_1_alg».proof.Proof.Gen.Pre_finite_inputs

noncomputable section

namespace Cert.PreDecode

open Idealize.ShloMosaic Cert.Spec Cert.Basic

section Generic

variable {F : FTy → Type} [FloatOps F]

def allFin {t : Shape} {axes : List (Fin t.rank)} (hb : S_.BroadcastsInDim t (![] : Fin 0 → Fin t.rank))
    (hr : t.ReducesTo axes S_) (x : FVec F t .f32) : IVec S_ 1 :=
  Host.reduce IntOp.andi (cmpf .olt (Host.absf x) (broadcastInDim t ![] hb (constant S_ .f32 0x7F800000#32)))
    (constantI S_ 1 1#1) hr pos_S_

def allPos (v : FVec F S128 .f32) : IVec S_ 1 :=
  Host.reduce IntOp.andi (cmpf .ogt v (broadcastInDim S128 ![] b_S_128 (constant S_ .f32 0x00000000#32)))
    (constantI S_ 1 1#1) Cert.Pre_finite_inputs.Facts.reducesTo_S128_S_d0 pos_S_

def eluP (x : FVec F S50000x128 .f32) : FVec F S50000x128 .f32 :=
  select (cmpf .ogt x (fill S50000x128 b_S_N128 0x00000000#32)) x
    (Host.expm1 (select (cmpf .ogt x (fill S50000x128 b_S_N128 0x00000000#32))
      (fill S50000x128 b_S_N128 0x00000000#32) x))

def embedP (X M : FVec F S50000x128 .f32) (src dst : IVec S600000 32) (W1 : FVec F S128x128 .f32) (b1 : FVec F S128 .f32)
    (W2 : FVec F S128x128 .f32) (b2 : FVec F S128 .f32) (W3 : FVec F S128x128 .f32) (b3 : FVec F S128 .f32)
    (Wl : FVec F S128x128 .f32) (bl : FVec F S128 .f32) : FVec F S50000x128 .f32 :=
  addf (Host.dotGeneral ddHid none
    (eluP (layer (eluP (layer (eluP (layer (drop X M) (norm src) (norm dst) W1 b1 src dst))
      (norm src) (norm dst) W2 b2 src dst)) (norm src) (norm dst) W3 b3 src dst)) Wl) (rows128 bl)

def devOf (E : FVec F S50000x128 .f32) : FVec F S50000x128 .f32 :=
  subf E (broadcastInDim S50000x128 ![0, 1] b_1x128_N128
    (Host.divf (broadcastInDim S1x128 ![1] b_128_1x128 (colSum E)) (fill S1x128 b_S_1x128 0x47435000#32)))

def stdP (E : FVec F S50000x128 .f32) : FVec F S128 .f32 :=
  Host.sqrt (Host.divf (colSum (mulf (devOf E) (devOf E))) (fill S128 b_S_128 0x47434F00#32))

def pred (a0 a1 a2 a3 : FVec F S50000x128 .f32) (a4 a5 a6 a7 : IVec S600000 32) (a8 : FVec F S128x128 .f32)
    (a9 : FVec F S128 .f32) (a10 : FVec F S128x128 .f32) (a11 : FVec F S128 .f32) (a12 : FVec F S128x128 .f32)
    (a13 : FVec F S128 .f32) (a14 : FVec F S128x128 .f32) (a15 : FVec F S128 .f32) (a16 : FVec F S128x2 .f32)
    (a17 : FVec F S2 .f32) : IVec S_ 1 :=
  andi (andi (andi (andi (andi (andi (andi (andi (andi (andi (andi (andi (andi (andi (andi
    (allFin Cert.Pre_finite_inputs.Facts.bcast_S_S50000x128 Cert.Pre_finite_inputs.Facts.reducesTo_S50000x128_S_d0_1 a0)
    (allFin Cert.Pre_finite_inputs.Facts.bcast_S_S50000x128 Cert.Pre_finite_inputs.Facts.reducesTo_S50000x128_S_d0_1 a1))
    (allFin Cert.Pre_finite_inputs.Facts.bcast_S_S50000x128 Cert.Pre_finite_inputs.Facts.reducesTo_S50000x128_S_d0_1 a2))
    (allFin Cert.Pre_finite_inputs.Facts.bcast_S_S50000x128 Cert.Pre_finite_inputs.Facts.reducesTo_S50000x128_S_d0_1 a3))
    (allFin Cert.Pre_finite_inputs.Facts.bcast_S_S128x128 Cert.Pre_finite_inputs.Facts.reducesTo_S128x128_S_d0_1 a8))
    (allFin Cert.Pre_finite_inputs.Facts.bcast_S_S128 Cert.Pre_finite_inputs.Facts.reducesTo_S128_S_d0 a9))
    (allFin Cert.Pre_finite_inputs.Facts.bcast_S_S128x128 Cert.Pre_finite_inputs.Facts.reducesTo_S128x128_S_d0_1 a10))
    (allFin Cert.Pre_finite_inputs.Facts.bcast_S_S128 Cert.Pre_finite_inputs.Facts.reducesTo_S128_S_d0 a11))
    (allFin Cert.Pre_finite_inputs.Facts.bcast_S_S128x128 Cert.Pre_finite_inputs.Facts.reducesTo_S128x128_S_d0_1 a12))
    (allFin Cert.Pre_finite_inputs.Facts.bcast_S_S128 Cert.Pre_finite_inputs.Facts.reducesTo_S128_S_d0 a13))
    (allFin Cert.Pre_finite_inputs.Facts.bcast_S_S128x128 Cert.Pre_finite_inputs.Facts.reducesTo_S128x128_S_d0_1 a14))
    (allFin Cert.Pre_finite_inputs.Facts.bcast_S_S128 Cert.Pre_finite_inputs.Facts.reducesTo_S128_S_d0 a15))
    (allFin Cert.Pre_finite_inputs.Facts.bcast_S_S128x2 Cert.Pre_finite_inputs.Facts.reducesTo_S128x2_S_d0_1 a16))
    (allFin Cert.Pre_finite_inputs.Facts.bcast_S_S2 Cert.Pre_finite_inputs.Facts.reducesTo_S2_S_d0 a17))
    (allPos (stdP (embedP a0 a2 a4 a5 a8 a9 a10 a11 a12 a13 a14 a15))))
    (allPos (stdP (embedP a1 a3 a6 a7 a8 a9 a10 a11 a12 a13 a14 a15)))

theorem fn_eq (a0 a1 a2 a3 : FVec F S50000x128 .f32) (a4 a5 a6 a7 : IVec S600000 32) (a8 : FVec F S128x128 .f32)
    (a9 : FVec F S128 .f32) (a10 : FVec F S128x128 .f32) (a11 : FVec F S128 .f32) (a12 : FVec F S128x128 .f32)
    (a13 : FVec F S128 .f32) (a14 : FVec F S128x128 .f32) (a15 : FVec F S128 .f32) (a16 : FVec F S128x2 .f32)
    (a17 : FVec F S2 .f32) :
    Cert.Pre_finite_inputs.fn (F := F) a0 a1 a2 a3 a4 a5 a6 a7 a8 a9 a10 a11 a12 a13 a14 a15 a16 a17
      = pred a0 a1 a2 a3 a4 a5 a6 a7 a8 a9 a10 a11 a12 a13 a14 a15 a16 a17 := rfl

end Generic

section AtIdeal

instance : Subsingleton S_.Idx := ⟨fun a b => funext fun d => d.elim0⟩

theorem ofBits_inf : Ideal.ofBits .f32 0x7F800000#32 = ⊤ := by simp [Ideal.ofBits, Ideal.ieee]
theorem count_eq : Ideal.ofBits .f32 0x47435000#32 - (((1#32 : BitVec 32).toInt : ℝ) : EReal)
    = Ideal.ofBits .f32 0x47434F00#32 := by
  rw [lit_50000, lit_49999, ← EReal.coe_sub]
  norm_num

theorem isReal_of_abs_lt (x : EReal) (h : Ideal.cmp .olt (max x (-x)) (Ideal.ofBits .f32 0x7F800000#32) = 1#1) :
    IsReal x := by
  rw [ofBits_inf] at h
  induction x using EReal.rec with
  | bot => exact absurd h (by simp [Ideal.cmp])
  | top => exact absurd h (by simp [Ideal.cmp])
  | coe r => exact ⟨r, rfl⟩

theorem pos_of_cmp (x : EReal) (h : Ideal.cmp .ogt x (Ideal.ofBits .f32 0x00000000#32) = 1#1) : (0 : EReal) < x := by
  rw [Ideal.ofBits_zero_f32] at h
  by_contra hn
  have : Ideal.cmp .ogt x 0 = 0#1 := by simp [Ideal.cmp, hn]
  rw [this] at h
  exact absurd h (by decide)

theorem allFin_spec {t : Shape} {axes : List (Fin t.rank)} (hb : S_.BroadcastsInDim t (![] : Fin 0 → Fin t.rank))
    (hr : t.ReducesTo axes S_) (x : FVec Ideal t .f32) (j : S_.Idx) (h : allFin (F := Ideal) hb hr x j = 1#1)
    (i : t.Idx) : IsReal (x i) :=
  isReal_of_abs_lt (x i) (Host.reduce_andi_all _ _ hr pos_S_ j h i)

theorem allPos_spec (v : FVec Ideal S128 .f32) (j : S_.Idx) (h : allPos (F := Ideal) v j = 1#1) (i : S128.Idx) :
    (0 : EReal) < v i :=
  pos_of_cmp (v i) (Host.reduce_andi_all _ _ _ pos_S_ j h i)

end AtIdeal

section Decode

theorem eluRef_eq (x : FVec Ideal S50000x128 .f32) : eluRef (F := Ideal) x = eluP x := by
  funext i
  show Scalar.select _ (x i) (Ideal.ofBits .f32 0x3F800000#32 * _) = Scalar.select _ (x i) _
  rw [lit_one, one_mul]
  rfl

theorem embed_eq (X M : FVec Ideal S50000x128 .f32) (src dst : IVec S600000 32) (W1 : FVec Ideal S128x128 .f32)
    (b1 : FVec Ideal S128 .f32) (W2 : FVec Ideal S128x128 .f32) (b2 : FVec Ideal S128 .f32)
    (W3 : FVec Ideal S128x128 .f32) (b3 : FVec Ideal S128 .f32) (Wl : FVec Ideal S128x128 .f32)
    (bl : FVec Ideal S128 .f32) :
    embed (F := Ideal) X M src dst W1 b1 W2 b2 W3 b3 Wl bl = embedP X M src dst W1 b1 W2 b2 W3 b3 Wl bl := by
  unfold embed embedP
  rw [eluRef_eq, eluRef_eq, eluRef_eq]

theorem refStd_eq (E : FVec Ideal S50000x128 .f32) : refStd (F := Ideal) E = stdP E := by
  unfold refStd stdP
  congr 1
  funext j
  show Scalar.select (Ideal.cmp .ogt (Ideal.ofBits .f32 0x47435000#32 - (((1#32 : BitVec 32).toInt : ℝ) : EReal))
      (Ideal.ofBits .f32 0x00000000#32))
      (Ideal.div (colSum (F := Ideal) (mulf (devOf E) (devOf E)) j)
        (Ideal.ofBits .f32 0x47435000#32 - (((1#32 : BitVec 32).toInt : ℝ) : EReal)))
      (Ideal.ofBits .f32 0x7FC00000#32)
    = Ideal.div (colSum (F := Ideal) (mulf (devOf E) (devOf E)) j) (Ideal.ofBits .f32 0x47434F00#32)
  rw [count_eq]
  have hpos : Ideal.cmp .ogt (Ideal.ofBits .f32 0x47434F00#32) (Ideal.ofBits .f32 0x00000000#32) = 1#1 := by
    rw [lit_49999, Ideal.ofBits_zero_f32]
    have : (0 : EReal) < ((49999 : ℝ) : EReal) := by exact_mod_cast (by norm_num : (0 : ℝ) < 49999)
    simp [Ideal.cmp, this]
  rw [hpos]
  rfl

-- The precondition read back: fourteen arrays of reals, and positive column deviations of both embeddings.
theorem of_pre (a0 a1 a2 a3 : FVec Ideal S50000x128 .f32) (a4 a5 a6 a7 : IVec S600000 32)
    (a8 : FVec Ideal S128x128 .f32) (a9 : FVec Ideal S128 .f32) (a10 : FVec Ideal S128x128 .f32)
    (a11 : FVec Ideal S128 .f32) (a12 : FVec Ideal S128x128 .f32) (a13 : FVec Ideal S128 .f32)
    (a14 : FVec Ideal S128x128 .f32) (a15 : FVec Ideal S128 .f32) (a16 : FVec Ideal S128x2 .f32)
    (a17 : FVec Ideal S2 .f32)
    (h : Cert.Pre_finite_inputs.fn (F := Ideal) a0 a1 a2 a3 a4 a5 a6 a7 a8 a9 a10 a11 a12 a13 a14 a15 a16 a17
      = fun _ => 1#1) :
    (∀ i, IsReal (a0 i)) ∧ (∀ i, IsReal (a1 i)) ∧ (∀ i, IsReal (a2 i)) ∧ (∀ i, IsReal (a3 i))
      ∧ (∀ i, IsReal (a8 i)) ∧ (∀ i, IsReal (a9 i)) ∧ (∀ i, IsReal (a10 i)) ∧ (∀ i, IsReal (a11 i))
      ∧ (∀ i, IsReal (a12 i)) ∧ (∀ i, IsReal (a13 i)) ∧ (∀ i, IsReal (a14 i)) ∧ (∀ i, IsReal (a15 i))
      ∧ (∀ i, IsReal (a16 i)) ∧ (∀ i, IsReal (a17 i))
      ∧ (∀ j, (0 : EReal) < refStd (F := Ideal) (embed a0 a2 a4 a5 a8 a9 a10 a11 a12 a13 a14 a15) j)
      ∧ (∀ j, (0 : EReal) < refStd (F := Ideal) (embed a1 a3 a6 a7 a8 a9 a10 a11 a12 a13 a14 a15) j) := by
  rw [fn_eq] at h
  have h0 := congrFun h ValueIdx.ix0
  simp only [pred, andi, IntOp.andi_eq_one] at h0
  obtain ⟨⟨⟨⟨⟨⟨⟨⟨⟨⟨⟨⟨⟨⟨⟨f0, f1⟩, f2⟩, f3⟩, f8⟩, f9⟩, f10⟩, f11⟩, f12⟩, f13⟩, f14⟩, f15⟩, f16⟩, f17⟩, pA⟩, pB⟩ := h0
  refine ⟨allFin_spec _ _ a0 _ f0, allFin_spec _ _ a1 _ f1, allFin_spec _ _ a2 _ f2, allFin_spec _ _ a3 _ f3,
    allFin_spec _ _ a8 _ f8, allFin_spec _ _ a9 _ f9, allFin_spec _ _ a10 _ f10, allFin_spec _ _ a11 _ f11,
    allFin_spec _ _ a12 _ f12, allFin_spec _ _ a13 _ f13, allFin_spec _ _ a14 _ f14, allFin_spec _ _ a15 _ f15,
    allFin_spec _ _ a16 _ f16, allFin_spec _ _ a17 _ f17, ?_, ?_⟩
  · intro j
    rw [embed_eq, refStd_eq]
    exact allPos_spec _ _ pA j
  · intro j
    rw [embed_eq, refStd_eq]
    exact allPos_spec _ _ pB j

end Decode

end Cert.PreDecode

end
-- ==== Proof.lean ====
import proofs.«107092_j29411936043366_1_alg».proof.Defs
import proofs.«107092_j29411936043366_1_alg».proof.Proof.Gen.Kernel
import proofs.«107092_j29411936043366_1_alg».proof.Proof.Gen.Kernel.Frame
import proofs.«107092_j29411936043366_1_alg».proof.Proof.Gen.KernelIdeal
import proofs.«107092_j29411936043366_1_alg».proof.Proof.Gen.KernelIdeal.Frame
import proofs.«107092_j29411936043366_1_alg».proof.Proof.Gen.ReferenceIdeal
import proofs.«107092_j29411936043366_1_alg».proof.Proof.Gen.Pre_finite_inputs
import proofs.«107092_j29411936043366_1_alg».proof.Proof.KRun
import proofs.«107092_j29411936043366_1_alg».proof.Proof.RegPoint
import proofs.«107092_j29411936043366_1_alg».proof.Proof.RegMat
import proofs.«107092_j29411936043366_1_alg».proof.Proof.RegStats
import proofs.«107092_j29411936043366_1_alg».proof.Proof.RegNorm
import proofs.«107092_j29411936043366_1_alg».proof.Proof.RegNorm19
import proofs.«107092_j29411936043366_1_alg».proof.Proof.KChain
import proofs.«107092_j29411936043366_1_alg».proof.Proof.RefRun
import proofs.«107092_j29411936043366_1_alg».proof.Proof.Alg
import proofs.«107092_j29411936043366_1_alg».proof.Proof.Fin
import proofs.«107092_j29411936043366_1_alg».proof.Proof.PreDecode
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

-- The reference's frame is its run with the four results dropped.
theorem frame_referenceIdeal : Cert.frame_ReferenceIdeal := fun m ρ _ =>
  (θ_run Cert.ReferenceIdeal.defs _ _).mono (fun _ h c => (h c).2.2.2.2) (Cert.RefRun.run (F := Ideal) m ρ)

theorem regionsA : Cert.KChain.RegFactsA :=
  ⟨Cert.RegPoint.final0, Cert.RegMat.final1, Cert.RegPoint.final2, Cert.RegMat.final3, Cert.RegPoint.final4, Cert.RegMat.final5,
    Cert.RegPoint.final6, Cert.RegMat.final7⟩

theorem regionsB : Cert.KChain.RegFactsB :=
  ⟨Cert.RegPoint.final8, Cert.RegMat.final9, Cert.RegPoint.final10, Cert.RegMat.final11, Cert.RegPoint.final12, Cert.RegMat.final13,
    Cert.RegPoint.final14, Cert.RegMat.final15⟩

theorem regionsC : Cert.KChain.RegFactsC :=
  ⟨Cert.RegStats.final16_sum, Cert.RegStats.final16_sq, Cert.RegStats.final17_sum, Cert.RegStats.final17_sq,
    Cert.RegNorm.final18_emb, Cert.RegNorm.final18_logit, Cert.RegNorm19.final19_emb, Cert.RegNorm19.final19_logit⟩

-- Both programs end with the standardised embeddings and the logits as one function of the arguments.
theorem algebraic : Cert.algebraic_KernelIdeal_ReferenceIdeal := by
  intro m ρ m' ρ' hpre hagree
  refine ⟨fun c => Cert.KChain.Z (Cert.KChain.Ea m c), fun c => Cert.KChain.Z (Cert.KChain.Eb m c),
    fun c => Cert.Spec.classify2 (Cert.KChain.Z (Cert.KChain.Ea m c)) (m ((c.tc : Thread Cert.KernelIdeal.nD Cert.KernelIdeal.τ).loc Cert.KernelIdeal.main_arg16)) (Cert.Spec.row2 (m ((c.tc : Thread Cert.KernelIdeal.nD Cert.KernelIdeal.τ).loc Cert.KernelIdeal.main_arg17))),
    fun c => Cert.Spec.classify2 (Cert.KChain.Z (Cert.KChain.Eb m c)) (m ((c.tc : Thread Cert.KernelIdeal.nD Cert.KernelIdeal.τ).loc Cert.KernelIdeal.main_arg16)) (Cert.Spec.row2 (m ((c.tc : Thread Cert.KernelIdeal.nD Cert.KernelIdeal.τ).loc Cert.KernelIdeal.main_arg17))), ?_, ?_⟩
  · refine (θ_run Cert.KernelIdeal.defs _ _).mono (fun r h c => ?_) (Cert.KernelIdeal.Gen.run_results (F := Ideal) m ρ)
    obtain ⟨h0, h1, h2, h3, hargs⟩ := h c
    obtain ⟨k0, k1, k2, k3⟩ := Cert.KChain.results m ρ regionsA regionsB regionsC c
    exact ⟨h0.trans k0, h1.trans k1, h2.trans k2, h3.trans k3, hargs⟩
  · refine (θ_run Cert.ReferenceIdeal.defs _ _).mono (fun r h c => ?_) (Cert.RefRun.run (F := Ideal) m' ρ')
    obtain ⟨h0, h1, h2, h3, hargs⟩ := h c
    obtain ⟨a0, a1, a2, a3, a4, a5, a6, a7, a8, a9, a10, a11, a12, a13, a14, a15, a16, a17⟩ := hagree c
    obtain ⟨r0, r1, r2, r3, r8, r9, r10, r11, r12, r13, r14, r15, r16, r17, sa, sb⟩ := Cert.PreDecode.of_pre _ _ _ _ _ _ _ _ _ _ _ _ _ _ _ _ _ _ (hpre c)
    have eA : Cert.RefRun.Ea m' c = Cert.KChain.Ea m c := by
      unfold Cert.RefRun.Ea Cert.KChain.Ea; rw [a0, a2, a4, a5, a8, a9, a10, a11, a12, a13, a14, a15]
    have eB : Cert.RefRun.Eb m' c = Cert.KChain.Eb m c := by
      unfold Cert.RefRun.Eb Cert.KChain.Eb; rw [a1, a3, a6, a7, a8, a9, a10, a11, a12, a13, a14, a15]
    have nA : Cert.KChain.Z (Cert.KChain.Ea m c) = Cert.Spec.refNorm (Cert.KChain.Ea m c) :=
      Cert.Alg.kNorm_eq_refNorm _ (Cert.Fin.embed_real _ _ _ _ _ _ _ _ _ _ _ _ r0 r2 r8 r9 r10 r11 r12 r13 r14 r15) sa
    have nB : Cert.KChain.Z (Cert.KChain.Eb m c) = Cert.Spec.refNorm (Cert.KChain.Eb m c) :=
      Cert.Alg.kNorm_eq_refNorm _ (Cert.Fin.embed_real _ _ _ _ _ _ _ _ _ _ _ _ r1 r3 r8 r9 r10 r11 r12 r13 r14 r15) sb
    refine ⟨?_, ?_, ?_, ?_, hargs⟩
    · dsimp only; rw [h0, eA, nA]
    · dsimp only; rw [h1, eB, nB]
    · dsimp only; rw [h2, eA, a16, a17, nA, Cert.Alg.classify2_row2]
    · dsimp only; rw [h3, eB, a16, a17, nB, Cert.Alg.classify2_row2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
